-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S256x64 : Shape := ⟨2, ![256, 64]⟩
abbrev S64 : Shape := ⟨1, ![64]⟩
abbrev S192x64 : Shape := ⟨2, ![192, 64]⟩
abbrev S192 : Shape := ⟨1, ![192]⟩
abbrev S64x64 : Shape := ⟨2, ![64, 64]⟩
abbrev S320x256 : Shape := ⟨2, ![320, 256]⟩
abbrev S256 : Shape := ⟨1, ![256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S64x64 : S_.BroadcastsInDim S64x64 (![] : Fin 0 → Fin S64x64.rank)
  reducesTo_S64x64_S_d0_1 : S64x64.ReducesTo [0, 1] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x262144 : S_.BroadcastsInDim S2x262144 (![] : Fin 0 → Fin S2x262144.rank)
  reducesTo_S2x262144_S_d0_1 : S2x262144.ReducesTo [0, 1] S_

variable [Facts]

def fn_part4 {F : FTy → Type} [FloatOps F] (main_v63 : IVec S_ 1) (main_v65 : IVec S2x262144 1) (main_v67 : IVec S2x262144 1) : IVec S_ 1 :=
  let main_v68 : IVec S2x262144 1 := andi main_v65 main_v67
  let main_c_26 : IVec S_ 1 := constantI S_ 1 1#1
  let main_v69 : IVec S_ 1 := (fun x v => Host.reduce IntOp.andi x v reducesTo_S2x262144_S_d0_1 h_S_) main_v68 main_c_26
  let main_v70 : IVec S_ 1 := andi main_v63 main_v69
  main_v70

def fn_part3 {F : FTy → Type} [FloatOps F] (main_arg1 : IVec S2x262144 32) (main_arg12 : FVec F S256x64 .f32) (main_arg13 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x64 .f32 := Host.absf main_arg12
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_c_24 : IVec S_ 32 := constantI S_ 32 0#32
  let main_v64 : IVec S2x262144 32 := broadcastInDim S2x262144 ![] bcast_S_S2x262144 main_c_24
  let main_v65 : IVec S2x262144 1 := cmpi .sge main_arg1 main_v64
  let main_c_25 : IVec S_ 32 := constantI S_ 32 8192#32
  let main_v66 : IVec S2x262144 32 := broadcastInDim S2x262144 ![] bcast_S_S2x262144 main_c_25
  let main_v67 : IVec S2x262144 1 := cmpi .slt main_arg1 main_v66
  fn_part4 (F := F) main_v63 main_v65 main_v67

def fn_part2 {F : FTy → Type} [FloatOps F] (main_arg1 : IVec S2x262144 32) (main_arg8 : FVec F S320x256 .f32) (main_arg9 : FVec F S256 .f32) (main_arg10 : FVec F S256x256 .f32) (main_arg11 : FVec F S256 .f32) (main_arg12 : FVec F S256x64 .f32) (main_arg13 : FVec F S64 .f32) (main_v33 : IVec S_ 1) : IVec S_ 1 :=
  let main_v34 : FVec F S320x256 .f32 := Host.absf main_arg8
  let main_cst_12 : FVec F S_ .f32 := constant S_ .f32 0x7F800000#32
  let main_v35 : FVec F S320x256 .f32 := broadcastInDim S320x256 ![] bcast_S_S320x256 main_cst_12
  let main_v36 : IVec S320x256 1 := cmpf .olt main_v34 main_v35
  let main_c_13 : IVec S_ 1 := constantI S_ 1 1#1
  let main_v37 : IVec S_ 1 := (fun x v => Host.reduce IntOp.andi x v reducesTo_S320x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_v48 main_v49 main_v50

def fn_part1 {F : FTy → Type} [FloatOps F] (main_arg1 : IVec S2x262144 32) (main_arg5 : FVec F S192 .f32) (main_arg6 : FVec F S64x64 .f32) (main_arg7 : FVec F S64 .f32) (main_arg8 : FVec F S320x256 .f32) (main_arg9 : FVec F S256 .f32) (main_arg10 : FVec F S256x256 .f32) (main_arg11 : FVec F S256 .f32) (main_arg12 : FVec F S256x64 .f32) (main_arg13 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192 .f32 := Host.absf main_arg5
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S8192x256 .f32) (main_arg1 : IVec S2x262144 32) (main_arg2 : FVec F S256x64 .f32) (main_arg3 : FVec F S64 .f32) (main_arg4 : FVec F S192x64 .f32) (main_arg5 : FVec F S192 .f32) (main_arg6 : FVec F S64x64 .f32) (main_arg7 : FVec F S64 .f32) (main_arg8 : FVec F S320x256 .f32) (main_arg9 : FVec F S256 .f32) (main_arg10 : FVec F S256x256 .f32) (main_arg11 : FVec F S256 .f32) (main_arg12 : FVec F S256x64 .f32) (main_arg13 : FVec F S64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S192x64 .f32 := Host.absf main_arg4
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg1 main_arg5 main_arg6 main_arg7 main_arg8 main_arg9 main_arg10 main_arg11 main_arg12 main_arg13 main_v13 main_v16
-- ==== Kernel.lean ====
abbrev S8192x256 : Shape := ⟨2, ![8192, 256]⟩
abbrev S2x262144 : Shape := ⟨2, ![2, 262144]⟩
abbrev S256x64 : Shape := ⟨2, ![256, 64]⟩
abbrev S64 : Shape := ⟨1, ![64]⟩
abbrev S192x64 : Shape := ⟨2, ![192, 64]⟩
abbrev S192 : Shape := ⟨1, ![192]⟩
abbrev S64x64 : Shape := ⟨2, ![64, 64]⟩
abbrev S320x256 : Shape := ⟨2, ![320, 256]⟩
abbrev S256 : Shape := ⟨1, ![256]⟩
abbrev S256x256 : Shape := ⟨2, ![256, 256]⟩
abbrev S8192x64 : Shape := ⟨2, ![8192, 64]⟩
abbrev S1x64 : Shape := ⟨2, ![1, 64]⟩
abbrev S64x192 : Shape := ⟨2, ![64, 192]⟩
abbrev S8192x192 : Shape := ⟨2, ![8192, 192]⟩
abbrev S1x192 : Shape := ⟨2, ![1, 192]⟩
abbrev S8192x4x16 : Shape := ⟨3, ![8192, 4, 16]⟩
abbrev S4x8192x16 : Shape := ⟨3, ![4, 8192, 16]⟩
abbrev S4x64x16 : Shape := ⟨3, ![4, 64, 16]⟩
abbrev S4x64x8192 : Shape := ⟨3, ![4, 64, 8192]⟩
abbrev S4x64 : Shape := ⟨2, ![4, 64]⟩
abbrev S4x64x1 : Shape := ⟨3, ![4, 64, 1]⟩
abbrev S8192x320 : Shape := ⟨2, ![8192, 320]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S8192x8192 : Shape := ⟨2, ![8192, 8192]⟩
abbrev S270336x2 : Shape := ⟨2, ![270336, 2]⟩
abbrev S1x256 : Shape := ⟨2, ![1, 256]⟩
abbrev S2048x1024 : Shape := ⟨2, ![2048, 1024]⟩
abbrev S1024x256 : Shape := ⟨2, ![1024, 256]⟩
abbrev S2048x256 : Shape := ⟨2, ![2048, 256]⟩
abbrev S1024x64 : Shape := ⟨2, ![1024, 64]⟩
abbrev S2048x64 : Shape := ⟨2, ![2048, 64]⟩

abbrev nBuf : Space → Nat
  | .hbm => 115
  | .vmem => 30
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x64, .f32⟩
  | .hbm, ⟨3, _⟩ => ⟨S64, .f32⟩
  | .hbm, ⟨4, _⟩ => ⟨S192x64, .f32⟩
  | .hbm, ⟨5, _⟩ => ⟨S192, .f32⟩
  | .hbm, ⟨6, _⟩ => ⟨S64x64, .f32⟩
  | .hbm, ⟨7, _⟩ => ⟨S64, .f32⟩
  | .hbm, ⟨8, _⟩ => ⟨S320x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x64, .f32⟩
  | .hbm, ⟨13, _⟩ => ⟨S64, .f32⟩
  | .hbm, ⟨14, _⟩ => ⟨S8192x64, .f32⟩
  | .hbm, ⟨15, _⟩ => ⟨S1x64, .f32⟩
  | .hbm, ⟨16, _⟩ => ⟨S8192x64, .f32⟩
  | .hbm, ⟨17, _⟩ => ⟨S8192x64, .f32⟩
  | .hbm, ⟨18, _⟩ => ⟨S64x192, .f32⟩
  | .hbm, ⟨19, _⟩ => ⟨S8192x192, .f32⟩
  | .hbm, ⟨20, _⟩ => ⟨S1x192, .f32⟩
  | .hbm, ⟨21, _⟩ => ⟨S8192x192, .f32⟩
  | .hbm, ⟨22, _⟩ => ⟨S8192x192, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x4x16, .f32⟩
  | .hbm, ⟨27, _⟩ => ⟨S4x8192x16, .f32⟩
  | .hbm, ⟨28, _⟩ => ⟨S8192x4x16, .f32⟩
  | .hbm, ⟨29, _⟩ => ⟨S4x8192x16, .f32⟩
  | .hbm, ⟨30, _⟩ => ⟨S8192x4x16, .f32⟩
  | .hbm, ⟨31, _⟩ => ⟨S4x8192x16, .f32⟩
  | .hbm, ⟨32, _⟩ => ⟨S4x8192x16, .f32⟩
  | .hbm, ⟨33, _⟩ => ⟨S8192x4x16, .f32⟩
  | .hbm, ⟨34, _⟩ => ⟨S8192x64, .f32⟩
  | .hbm, ⟨35, _⟩ => ⟨S64x64, .f32⟩
  | .hbm, ⟨36, _⟩ => ⟨S8192x64, .f32⟩
  | .hbm, ⟨37, _⟩ => ⟨S1x64, .f32⟩
  | .hbm, ⟨38, _⟩ => ⟨S8192x64, .f32⟩
  | .hbm, ⟨39, _⟩ => ⟨S8192x64, .f32⟩
  | .hbm, ⟨40, _⟩ => ⟨S8192x320, .f32⟩
  | .hbm, ⟨41, _⟩ => ⟨S1x262144, .i32⟩
  | .hbm, ⟨42, _⟩ => ⟨S262144, .i32⟩
  | .hbm, ⟨43, _⟩ => ⟨S8192, .i32⟩
  | .hbm, ⟨44, _⟩ => ⟨S270336, .i32⟩
  | .hbm, ⟨45, _⟩ => ⟨S1x262144, .i32⟩
  | .hbm, ⟨46, _⟩ => ⟨S262144, .i32⟩
  | .hbm, ⟨47, _⟩ => ⟨S8192, .i32⟩
  | .hbm, ⟨48, _⟩ => ⟨S270336, .i32⟩
  | .hbm, ⟨49, _⟩ => ⟨S_, .f32⟩
  | .hbm, ⟨50, _⟩ => ⟨S270336, .f32⟩
  | .hbm, ⟨51, _⟩ => ⟨S_, .f32⟩
  | .hbm, ⟨52, _⟩ => ⟨S8192, .f32⟩
  | .hbm, ⟨53, _⟩ => ⟨S270336x1, .i32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .i1⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .i32⟩
  | .hbm, ⟨67, _⟩ => ⟨S270336, .i32⟩
  | .hbm, ⟨68, _⟩ => ⟨S270336, .i1⟩
  | .hbm, ⟨69, _⟩ => ⟨S_, .i32⟩
  | .hbm, ⟨70, _⟩ => ⟨S270336, .i32⟩
  | .hbm, ⟨71, _⟩ => ⟨S270336, .i32⟩
  | .hbm, ⟨72, _⟩ => ⟨S270336, .i32⟩
  | .hbm, ⟨73, _⟩ => ⟨S270336x1, .i32⟩
  | .hbm, ⟨74, _⟩ => ⟨S270336, .f32⟩
  | .hbm, ⟨75, _⟩ => ⟨S_, .i32⟩
  | .hbm, ⟨76, _⟩ => ⟨S270336, .i32⟩
  | .hbm, ⟨77, _⟩ => ⟨S270336, .i1⟩
  | .hbm, ⟨78, _⟩ => ⟨S_, .i32⟩
  | .hbm, ⟨79, _⟩ => ⟨S270336, .i32⟩
  | .hbm, ⟨80, _⟩ => ⟨S270336, .i32⟩
  | .hbm, ⟨81, _⟩ => ⟨S270336, .i32⟩
  | .hbm, ⟨82, _⟩ => ⟨S270336x1, .i32⟩
  | .hbm, ⟨83, _⟩ => ⟨S270336, .f32⟩
  | .hbm, ⟨84, _⟩ => ⟨S270336, .f32⟩
  | .hbm, ⟨85, _⟩ => ⟨S_, .f32⟩
  | .hbm, ⟨86, _⟩ => ⟨S8192x8192, .f32⟩
  | .hbm, ⟨87, _⟩ => ⟨S_, .i32⟩
  | .hbm, ⟨88, _⟩ => ⟨S270336, .i32⟩
  | .hbm, ⟨89, _⟩ => ⟨S270336, .i1⟩
  | .hbm, ⟨90, _⟩ => ⟨S_, .i32⟩
  | .hbm, ⟨91, _⟩ => ⟨S270336, .i32⟩
  | .hbm, ⟨92, _⟩ => ⟨S270336, .i32⟩
  | .hbm, ⟨93, _⟩ => ⟨S270336, .i32⟩
  | .hbm, ⟨94, _⟩ => ⟨S_, .i32⟩
  | .hbm, ⟨95, _⟩ => ⟨S270336, .i32⟩
  | .hbm, ⟨96, _⟩ => ⟨S270336, .i1⟩
  | .hbm, ⟨97, _⟩ => ⟨S_, .i32⟩
  | .hbm, ⟨98, _⟩ => ⟨S270336, .i32⟩
  | .hbm, ⟨99, _⟩ => ⟨S270336, .i32⟩
  | .hbm, ⟨100, _⟩ => ⟨S270336, .i32⟩
  | .hbm, ⟨101, _⟩ => ⟨S270336x1, .i32⟩
  | .hbm, ⟨102, _⟩ => ⟨S270336x1, .i32⟩
  | .hbm, ⟨103, _⟩ => ⟨S270336x2, .i32⟩
  | .hbm, ⟨104, _⟩ => ⟨S8192x8192, .f32⟩
  | .hbm, ⟨105, _⟩ => ⟨S8192x8192, .bf16⟩
  | .hbm, ⟨106, _⟩ => ⟨S8192x256, .f32⟩
  | .hbm, ⟨107, _⟩ => ⟨S1x256, .f32⟩
  | .hbm, ⟨108, _⟩ => ⟨S8192x256, .f32⟩
  | .hbm, ⟨109, _⟩ => ⟨S8192x256, .f32⟩
  | .hbm, ⟨110, _⟩ => ⟨S1x256, .f32⟩
  | .hbm, ⟨111, _⟩ => ⟨S8192x256, .f32⟩
  | .hbm, ⟨112, _⟩ => ⟨S8192x64, .f32⟩
  | .hbm, ⟨113, _⟩ => ⟨S1x64, .f32⟩
  | .hbm, ⟨114, _⟩ => ⟨S8192x64, .f32⟩
  | .local _ .vmem, ⟨0, _⟩ => ⟨S4x64x16, .f32⟩
  | .local _ .vmem, ⟨1, _⟩ => ⟨S4x64x16, .f32⟩
  | .local _ .vmem, ⟨2, _⟩ => ⟨S4x8192x16, .f32⟩
  | .local _ .vmem, ⟨3, _⟩ => ⟨S4x8192x16, .f32⟩
  | .local _ .vmem, ⟨4, _⟩ => ⟨S4x64x16, .f32⟩
  | .local _ .vmem, ⟨5, _⟩ => ⟨S4x64x16, .f32⟩
  | .local _ .vmem, ⟨6, _⟩ => ⟨S2048x1024, .bf16⟩
  | .local _ .vmem, ⟨7, _⟩ => ⟨S2048x1024, .bf16⟩
  | .local _ .vmem, ⟨8, _⟩ => ⟨S1024x256, .f32⟩
  | .local _ .vmem, ⟨9, _⟩ => ⟨S1024x256, .f32⟩
  | .local _ .vmem, ⟨10, _⟩ => ⟨S1x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x1024, .bf16⟩
  | .local _ .vmem, ⟨15, _⟩ => ⟨S2048x1024, .bf16⟩
  | .local _ .vmem, ⟨16, _⟩ => ⟨S1024x256, .f32⟩
  | .local _ .vmem, ⟨17, _⟩ => ⟨S1024x256, .f32⟩
  | .local _ .vmem, ⟨18, _⟩ => ⟨S1x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x1024, .bf16⟩
  | .local _ .vmem, ⟨23, _⟩ => ⟨S2048x1024, .bf16⟩
  | .local _ .vmem, ⟨24, _⟩ => ⟨S1024x64, .f32⟩
  | .local _ .vmem, ⟨25, _⟩ => ⟨S1024x64, .f32⟩
  | .local _ .vmem, ⟨26, _⟩ => ⟨S1x64, .f32⟩
  | .local _ .vmem, ⟨27, _⟩ => ⟨S2048x64, .f32⟩
  | .local _ .vmem, ⟨28, _⟩ => ⟨S2048x64, .f32⟩
  | .local _ .vmem, ⟨29, _⟩ => ⟨S2048x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_cst_0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_1 : Ref sig .tc := ⟨.hbm, 55, rfl⟩
abbrev main_v39 : Ref sig .tc := ⟨.hbm, 56, rfl⟩
abbrev main_v40 : Ref sig .tc := ⟨.hbm, 57, rfl⟩
abbrev main_cst_2 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_call0_v0 : Ref sig .tc := ⟨.hbm, 63, rfl⟩
abbrev main_call0_v1 : Ref sig .tc := ⟨.hbm, 64, rfl⟩
abbrev main_v44 : Ref sig .tc := ⟨.hbm, 65, rfl⟩
abbrev main_c : Ref sig .tc := ⟨.hbm, 66, rfl⟩
abbrev main_v45 : Ref sig .tc := ⟨.hbm, 67, rfl⟩
abbrev main_v46 : Ref sig .tc := ⟨.hbm, 68, rfl⟩
abbrev main_c_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_5 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_7 : Ref sig .tc := ⟨.hbm, 85, rfl⟩
abbrev main_v60 : Ref sig .tc := ⟨.hbm, 86, rfl⟩
abbrev main_c_8 : Ref sig .tc := ⟨.hbm, 87, rfl⟩
abbrev main_v61 : Ref sig .tc := ⟨.hbm, 88, rfl⟩
abbrev main_v62 : Ref sig .tc := ⟨.hbm, 89, rfl⟩
abbrev main_c_9 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_10 : Ref sig .tc := ⟨.hbm, 94, rfl⟩
abbrev main_v66 : Ref sig .tc := ⟨.hbm, 95, rfl⟩
abbrev main_v67 : Ref sig .tc := ⟨.hbm, 96, rfl⟩
abbrev main_c_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8192x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x8192x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S192x64_S64x192_1_0 : S192x64.Transposes [1, 0] S64x192
  bcast_S192_S1x192_1 : S192.BroadcastsInDim S1x192 (![1] : Fin 1 → Fin S1x192.rank)
  bcast_S1x192_S8192x192_0_1 : S1x192.BroadcastsInDim S8192x192 (![0, 1] : Fin 2 → Fin S8192x192.rank)
  slices_S8192x192_S8192x64_0_0 : S8192x192.Slices ![0, 0] S8192x64
  slices_S8192x192_S8192x64_0_64 : S8192x192.Slices ![0, 64] S8192x64
  slices_S8192x192_S8192x64_0_128 : S8192x192.Slices ![0, 128] S8192x64
  shapeCasts_S8192x64_S8192x4x16 : S8192x64.ShapeCasts S8192x4x16
  transposes_S8192x4x16_S4x8192x16_1_0_2 : S8192x4x16.Transposes [1, 0, 2] S4x8192x16
  inb_S4x64x16_S4x64x16_0_0_0 : ∀ a, (![0, 0, 0] : Fin 3 → Nat) a + S4x64x16.size a ≤ S4x64x16.size a
  h_S4x64x16 : 0 < S4x64x16.numel
  shapeCasts_S4x64x16_S4x64x16 : S4x64x16.ShapeCasts S4x64x16
  bitsLt_bf16_f32 : FTy.bits .bf16 < FTy.bits .f32
  inb_S4x8192x16_S4x8192x16_0_0_0 : ∀ a, (![0, 0, 0] : Fin 3 → Nat) a + S4x8192x16.size a ≤ S4x8192x16.size a
  h_S4x8192x16 : 0 < S4x8192x16.numel
  shapeCasts_S4x8192x16_S4x8192x16 : S4x8192x16.ShapeCasts S4x8192x16
  reduces_S4x64x8192_S4x64 : S4x64x8192.Reduces [2] S4x64
  shapeCasts_S4x64_S4x64x1 : S4x64.ShapeCasts S4x64x1
  broadcasts_S4x64x1_S4x64x8192 : S4x64x1.Broadcasts S4x64x8192
  transposes_S4x8192x16_S8192x4x16_1_0_2 : S4x8192x16.Transposes [1, 0, 2] S8192x4x16
  shapeCasts_S8192x4x16_S8192x64 : S8192x4x16.ShapeCasts S8192x64
  transposes_S64x64_S64x64_1_0 : S64x64.Transposes [1, 0] S64x64
  concatenates_S8192x256_S8192x64_S8192x320_d1 : Shape.Concatenates [S8192x256, S8192x64] S8192x320 1
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S_S8192x8192 : S_.BroadcastsInDim S8192x8192 (![] : Fin 0 → Fin S8192x8192.rank)
  concatenates_S270336x1_S270336x1_S270336x2_d1 : Shape.Concatenates [S270336x1, S270336x1] S270336x2 1
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  dot_S8192x256_S256x64_S8192x64_1_0_0_1_n_n_wf : DotDims.WF S8192x256 S256x64 S8192x64 [1] [0] [0] [1] [] []
  dot_S8192x64_S64x192_S8192x192_1_0_0_1_n_n_wf : DotDims.WF S8192x64 S64x192 S8192x192 [1] [0] [0] [1] [] []
  dot_S4x64x16_S4x8192x16_S4x64x8192_2_2_1_1_0_0_wf : DotDims.WF S4x64x16 S4x8192x16 S4x64x8192 [2] [2] [1] [1] [0] [0]
  dot_S4x64x8192_S4x8192x16_S4x64x16_2_1_1_2_0_0_wf : DotDims.WF S4x64x8192 S4x8192x16 S4x64x16 [2] [1] [1] [2] [0] [0]
  dot_S8192x64_S64x64_S8192x64_1_0_0_1_n_n_wf : DotDims.WF S8192x64 S64x64 S8192x64 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  scatter_S8192x8192_S270336x2_S270336_n_01_01_1_wf : ScatterDims.WF S8192x8192 S270336x2 S270336 [] [0, 1] [0, 1] 1
  dot_S8192x320_S320x256_S8192x256_1_0_0_1_n_n_wf : DotDims.WF S8192x320 S320x256 S8192x256 [1] [0] [0] [1] [] []
  dot_S2048x1024_S1024x256_S2048x256_1_0_0_1_n_n_wf : DotDims.WF S2048x1024 S1024x256 S2048x256 [1] [0] [0] [1] [] []
  dot_S8192x256_S256x256_S8192x256_1_0_0_1_n_n_wf : DotDims.WF S8192x256 S256x256 S8192x256 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x16.size a ≤ S4x8192x16.size a
  hwx0_0 : ∀ i : grid0.Coords, EltTy.bits .f32 = 32 ∨ (Rect.block (s := S4x8192x16) S4x64x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8192x16.size a ≤ S4x8192x16.size a
  hwx0_1 : ∀ i : grid0.Coords, EltTy.bits .f32 = 32 ∨ (Rect.block (s := S4x8192x16) S4x8192x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x8192x16.size a ≤ S4x8192x16.size a
  hwx0_2 : ∀ i : grid0.Coords, EltTy.bits .f32 = 32 ∨ (Rect.block (s := S4x8192x16) S4x8192x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x64x16.size a ≤ S4x8192x16.size a
  hwx0_3 : ∀ i : grid0.Coords, EltTy.bits .f32 = 32 ∨ (Rect.block (s := S4x8192x16) S4x64x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .bf16 = 32 ∨ (Rect.block (s := S8192x8192) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .bf16 = 32 ∨ (Rect.block (s := S8192x8192) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S8192x256.size a
  hwx2_3 : ∀ i : grid2.Coords, EltTy.bits .f32 = 32 ∨ (Rect.block (s := S8192x256) S2048x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x8192.size a
  hwx3_0 : ∀ i : grid3.Coords, EltTy.bits .bf16 = 32 ∨ (Rect.block (s := S8192x8192) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S8192x64.size a
  hwx3_1 : ∀ i : grid3.Coords, EltTy.bits .f32 = 32 ∨ (Rect.block (s := S8192x64) S1024x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x64.size a ≤ S8192x64.size a
  hwx3_3 : ∀ i : grid3.Coords, EltTy.bits .f32 = 32 ∨ (Rect.block (s := S8192x64) S2048x64.size (cc3_transform_3 i) (hinb3_3 i)).WholeWords (EltTy.packing .f32)

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x192_S8192x192_1_0_0_1_n_n : DotDims S8192x64 S64x192 S8192x192 where
  lhsContracting := [1]
  rhsContracting := [0]
  lhsNonContracting := [0]
  rhsNonContracting := [1]
  lhsBatch := []
  rhsBatch := []
  wf := dot_S8192x64_S64x192_S8192x192_1_0_0_1_n_n_wf
def dot_S4x64x16_S4x8192x16_S4x64x8192_2_2_1_1_0_0 : DotDims S4x64x16 S4x8192x16 S4x64x8192 where
  lhsContracting := [2]
  rhsContracting := [2]
  lhsNonContracting := [1]
  rhsNonContracting := [1]
  lhsBatch := [0]
  rhsBatch := [0]
  wf := dot_S4x64x16_S4x8192x16_S4x64x8192_2_2_1_1_0_0_wf
def dot_S4x64x8192_S4x8192x16_S4x64x16_2_1_1_2_0_0 : DotDims S4x64x8192 S4x8192x16 S4x64x16 where
  lhsContracting := [2]
  rhsContracting := [1]
  lhsNonContracting := [1]
  rhsNonContracting := [2]
  lhsBatch := [0]
  rhsBatch := [0]
  wf := dot_S4x64x8192_S4x8192x16_S4x64x16_2_1_1_2_0_0_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S8192x320_S320x256_S8192x256_1_0_0_1_n_n : DotDims S8192x320 S320x256 S8192x256 where
  lhsContracting := [1]
  rhsContracting := [0]
  lhsNonContracting := [0]
  rhsNonContracting := [1]
  lhsBatch := []
  rhsBatch := []
  wf := dot_S8192x320_S320x256_S8192x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v13) S4x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4x8192x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4x8192x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4x64x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v75) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v76) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v77) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v78) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v75) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v80) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v75) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S2x262144 : Shape := ⟨2, ![2, 262144]⟩
abbrev S256x64 : Shape := ⟨2, ![256, 64]⟩
abbrev S64 : Shape := ⟨1, ![64]⟩
abbrev S192x64 : Shape := ⟨2, ![192, 64]⟩
abbrev S192 : Shape := ⟨1, ![192]⟩
abbrev S64x64 : Shape := ⟨2, ![64, 64]⟩
abbrev S320x256 : Shape := ⟨2, ![320, 256]⟩
abbrev S256 : Shape := ⟨1, ![256]⟩
abbrev S256x256 : Shape := ⟨2, ![256, 256]⟩
abbrev S8192x64 : Shape := ⟨2, ![8192, 64]⟩
abbrev S1x64 : Shape := ⟨2, ![1, 64]⟩
abbrev S64x192 : Shape := ⟨2, ![64, 192]⟩
abbrev S8192x192 : Shape := ⟨2, ![8192, 192]⟩
abbrev S1x192 : Shape := ⟨2, ![1, 192]⟩
abbrev S8192x4x16 : Shape := ⟨3, ![8192, 4, 16]⟩
abbrev S4x8192x16 : Shape := ⟨3, ![4, 8192, 16]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S8192x320 : Shape := ⟨2, ![8192, 320]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S270336x1 : Shape := ⟨2, ![270336, 1]⟩
abbrev S270336x256 : Shape := ⟨2, ![270336, 256]⟩
abbrev S1x256 : Shape := ⟨2, ![1, 256]⟩
abbrev S270336x64 : Shape := ⟨2, ![270336, 64]⟩

abbrev nBuf : Space → Nat
  | .hbm => 258
  | .vmem => 0
  | .smem => 0
  | _ => 0

abbrev hbmTy0_0 (i : Nat) : BufTy := match i % 128 with
  | 0 => ⟨S8192x256, .f32⟩
  | 1 => ⟨S2x262144, .i32⟩
  | 2 => ⟨S256x64, .f32⟩
  | 3 => ⟨S64, .f32⟩
  | 4 => ⟨S192x64, .f32⟩
  | 5 => ⟨S192, .f32⟩
  | 6 => ⟨S64x64, .f32⟩
  | 7 => ⟨S64, .f32⟩
  | 8 => ⟨S320x256, .f32⟩
  | 9 => ⟨S256, .f32⟩
  | 10 => ⟨S256x256, .f32⟩
  | 11 => ⟨S256, .f32⟩
  | 12 => ⟨S256x64, .f32⟩
  | 13 => ⟨S64, .f32⟩
  | 14 => ⟨S8192x64, .f32⟩
  | 15 => ⟨S1x64, .f32⟩
  | 16 => ⟨S8192x64, .f32⟩
  | 17 => ⟨S8192x64, .f32⟩
  | 18 => ⟨S64x192, .f32⟩
  | 19 => ⟨S8192x192, .f32⟩
  | 20 => ⟨S1x192, .f32⟩
  | 21 => ⟨S8192x192, .f32⟩
  | 22 => ⟨S8192x192, .f32⟩
  | 23 => ⟨S8192x64, .f32⟩
  | 24 => ⟨S8192x64, .f32⟩
  | 25 => ⟨S8192x64, .f32⟩
  | 26 => ⟨S8192x4x16, .f32⟩
  | 27 => ⟨S4x8192x16, .f32⟩
  | 28 => ⟨S8192x4x16, .f32⟩
  | 29 => ⟨S4x8192x16, .f32⟩
  | 30 => ⟨S8192x4x16, .f32⟩
  | 31 => ⟨S4x8192x16, .f32⟩
  | 32 => ⟨S4x8192x8192, .f32⟩
  | 33 => ⟨S_, .f32⟩
  | 34 => ⟨S_, .f32⟩
  | 35 => ⟨S4x8192x8192, .f32⟩
  | 36 => ⟨S4x8192x8192, .f32⟩
  | 37 => ⟨S_, .f32⟩
  | 38 => ⟨S4x8192, .f32⟩
  | 39 => ⟨S_, .f32⟩
  | 40 => ⟨S4x8192, .f32⟩
  | 41 => ⟨S4x8192, .f32⟩
  | 42 => ⟨S4x8192x1, .f32⟩
  | 43 => ⟨S4x8192x8192, .f32⟩
  | 44 => ⟨S4x8192x8192, .f32⟩
  | 45 => ⟨S4x8192x8192, .f32⟩
  | 46 => ⟨S_, .f32⟩
  | 47 => ⟨S4x8192, .f32⟩
  | 48 => ⟨S4x8192x1, .f32⟩
  | 49 => ⟨S4x8192x8192, .f32⟩
  | 50 => ⟨S4x8192x8192, .f32⟩
  | 51 => ⟨S4x8192x16, .f32⟩
  | 52 => ⟨S8192x4x16, .f32⟩
  | 53 => ⟨S8192x64, .f32⟩
  | 54 => ⟨S64x64, .f32⟩
  | 55 => ⟨S8192x64, .f32⟩
  | 56 => ⟨S1x64, .f32⟩
  | 57 => ⟨S8192x64, .f32⟩
  | 58 => ⟨S8192x64, .f32⟩
  | 59 => ⟨S8192x320, .f32⟩
  | 60 => ⟨S1x262144, .i32⟩
  | 61 => ⟨S262144, .i32⟩
  | 62 => ⟨S8192, .i32⟩
  | 63 => ⟨S270336, .i32⟩
  | 64 => ⟨S1x262144, .i32⟩
  | 65 => ⟨S262144, .i32⟩
  | 66 => ⟨S8192, .i32⟩
  | 67 => ⟨S270336, .i32⟩
  | 68 => ⟨S_, .f32⟩
  | 69 => ⟨S270336, .f32⟩
  | 70 => ⟨S_, .f32⟩
  | 71 => ⟨S8192, .f32⟩
  | 72 => ⟨S270336x1, .i32⟩
  | 73 => ⟨S8192, .f32⟩
  | 74 => ⟨S_, .f32⟩
  | 75 => ⟨S8192, .f32⟩
  | 76 => ⟨S8192, .i1⟩
  | 77 => ⟨S_, .f32⟩
  | 78 => ⟨S8192, .f32⟩
  | 79 => ⟨S8192, .f32⟩
  | 80 => ⟨S8192, .f32⟩
  | 81 => ⟨S_, .f32⟩
  | 82 => ⟨S_, .f32⟩
  | 83 => ⟨S8192, .f32⟩
  | 84 => ⟨S8192, .f32⟩
  | 85 => ⟨S8192x256, .f32⟩
  | 86 => ⟨S_, .i32⟩
  | 87 => ⟨S270336, .i32⟩
  | 88 => ⟨S270336, .i1⟩
  | 89 => ⟨S_, .i32⟩
  | 90 => ⟨S270336, .i32⟩
  | 91 => ⟨S270336, .i32⟩
  | 92 => ⟨S270336, .i32⟩
  | 93 => ⟨S270336x1, .i32⟩
  | 94 => ⟨S270336, .f32⟩
  | 95 => ⟨S_, .i32⟩
  | 96 => ⟨S270336, .i32⟩
  | 97 => ⟨S270336, .i1⟩
  | 98 => ⟨S_, .i32⟩
  | 99 => ⟨S270336, .i32⟩
  | 100 => ⟨S270336, .i32⟩
  | 101 => ⟨S270336, .i32⟩
  | 102 => ⟨S270336x1, .i32⟩
  | 103 => ⟨S270336, .f32⟩
  | 104 => ⟨S270336, .f32⟩
  | 105 => ⟨S270336x1, .f32⟩
  | 106 => ⟨S_, .i32⟩
  | 107 => ⟨S270336, .i32⟩
  | 108 => ⟨S270336, .i1⟩
  | 109 => ⟨S_, .i32⟩
  | 110 => ⟨S270336, .i32⟩
  | 111 => ⟨S270336, .i32⟩
  | 112 => ⟨S270336, .i32⟩
  | 113 => ⟨S270336x1, .i32⟩
  | 114 => ⟨S270336x256, .f32⟩
  | 115 => ⟨S270336x256, .f32⟩
  | 116 => ⟨S270336x256, .f32⟩
  | 117 => ⟨S_, .f32⟩
  | 118 => ⟨S8192x256, .f32⟩
  | 119 => ⟨S270336x1, .i32⟩
  | 120 => ⟨S8192x256, .f32⟩
  | 121 => ⟨S1x256, .f32⟩
  | 122 => ⟨S8192x256, .f32⟩
  | 123 => ⟨S8192x256, .f32⟩
  | 124 => ⟨S_, .f32⟩
  | 125 => ⟨S8192x256, .f32⟩
  | 126 => ⟨S8192x256, .f32⟩
  | 127 => ⟨S1x262144, .i32⟩
  | _ => ⟨S8192x256, .f32⟩

abbrev hbmTy0_1 (i : Nat) : BufTy := match i % 128 with
  | 0 => ⟨S262144, .i32⟩
  | 1 => ⟨S8192, .i32⟩
  | 2 => ⟨S270336, .i32⟩
  | 3 => ⟨S1x262144, .i32⟩
  | 4 => ⟨S262144, .i32⟩
  | 5 => ⟨S8192, .i32⟩
  | 6 => ⟨S270336, .i32⟩
  | 7 => ⟨S_, .f32⟩
  | 8 => ⟨S270336, .f32⟩
  | 9 => ⟨S_, .f32⟩
  | 10 => ⟨S8192, .f32⟩
  | 11 => ⟨S270336x1, .i32⟩
  | 12 => ⟨S8192, .f32⟩
  | 13 => ⟨S_, .f32⟩
  | 14 => ⟨S8192, .f32⟩
  | 15 => ⟨S8192, .i1⟩
  | 16 => ⟨S_, .f32⟩
  | 17 => ⟨S8192, .f32⟩
  | 18 => ⟨S8192, .f32⟩
  | 19 => ⟨S8192, .f32⟩
  | 20 => ⟨S_, .f32⟩
  | 21 => ⟨S_, .f32⟩
  | 22 => ⟨S8192, .f32⟩
  | 23 => ⟨S8192, .f32⟩
  | 24 => ⟨S8192x256, .f32⟩
  | 25 => ⟨S_, .i32⟩
  | 26 => ⟨S270336, .i32⟩
  | 27 => ⟨S270336, .i1⟩
  | 28 => ⟨S_, .i32⟩
  | 29 => ⟨S270336, .i32⟩
  | 30 => ⟨S270336, .i32⟩
  | 31 => ⟨S270336, .i32⟩
  | 32 => ⟨S270336x1, .i32⟩
  | 33 => ⟨S270336, .f32⟩
  | 34 => ⟨S_, .i32⟩
  | 35 => ⟨S270336, .i32⟩
  | 36 => ⟨S270336, .i1⟩
  | 37 => ⟨S_, .i32⟩
  | 38 => ⟨S270336, .i32⟩
  | 39 => ⟨S270336, .i32⟩
  | 40 => ⟨S270336, .i32⟩
  | 41 => ⟨S270336x1, .i32⟩
  | 42 => ⟨S270336, .f32⟩
  | 43 => ⟨S270336, .f32⟩
  | 44 => ⟨S270336x1, .f32⟩
  | 45 => ⟨S_, .i32⟩
  | 46 => ⟨S270336, .i32⟩
  | 47 => ⟨S270336, .i1⟩
  | 48 => ⟨S_, .i32⟩
  | 49 => ⟨S270336, .i32⟩
  | 50 => ⟨S270336, .i32⟩
  | 51 => ⟨S270336, .i32⟩
  | 52 => ⟨S270336x1, .i32⟩
  | 53 => ⟨S270336x256, .f32⟩
  | 54 => ⟨S270336x256, .f32⟩
  | 55 => ⟨S270336x256, .f32⟩
  | 56 => ⟨S_, .f32⟩
  | 57 => ⟨S8192x256, .f32⟩
  | 58 => ⟨S270336x1, .i32⟩
  | 59 => ⟨S8192x256, .f32⟩
  | 60 => ⟨S1x256, .f32⟩
  | 61 => ⟨S8192x256, .f32⟩
  | 62 => ⟨S8192x256, .f32⟩
  | 63 => ⟨S_, .f32⟩
  | 64 => ⟨S8192x256, .f32⟩
  | 65 => ⟨S8192x256, .f32⟩
  | 66 => ⟨S1x262144, .i32⟩
  | 67 => ⟨S262144, .i32⟩
  | 68 => ⟨S8192, .i32⟩
  | 69 => ⟨S270336, .i32⟩
  | 70 => ⟨S1x262144, .i32⟩
  | 71 => ⟨S262144, .i32⟩
  | 72 => ⟨S8192, .i32⟩
  | 73 => ⟨S270336, .i32⟩
  | 74 => ⟨S_, .f32⟩
  | 75 => ⟨S270336, .f32⟩
  | 76 => ⟨S_, .f32⟩
  | 77 => ⟨S8192, .f32⟩
  | 78 => ⟨S270336x1, .i32⟩
  | 79 => ⟨S8192, .f32⟩
  | 80 => ⟨S_, .f32⟩
  | 81 => ⟨S8192, .f32⟩
  | 82 => ⟨S8192, .i1⟩
  | 83 => ⟨S_, .f32⟩
  | 84 => ⟨S8192, .f32⟩
  | 85 => ⟨S8192, .f32⟩
  | 86 => ⟨S8192, .f32⟩
  | 87 => ⟨S_, .f32⟩
  | 88 => ⟨S_, .f32⟩
  | 89 => ⟨S8192, .f32⟩
  | 90 => ⟨S8192, .f32⟩
  | 91 => ⟨S8192x64, .f32⟩
  | 92 => ⟨S_, .i32⟩
  | 93 => ⟨S270336, .i32⟩
  | 94 => ⟨S270336, .i1⟩
  | 95 => ⟨S_, .i32⟩
  | 96 => ⟨S270336, .i32⟩
  | 97 => ⟨S270336, .i32⟩
  | 98 => ⟨S270336, .i32⟩
  | 99 => ⟨S270336x1, .i32⟩
  | 100 => ⟨S270336, .f32⟩
  | 101 => ⟨S_, .i32⟩
  | 102 => ⟨S270336, .i32⟩
  | 103 => ⟨S270336, .i1⟩
  | 104 => ⟨S_, .i32⟩
  | 105 => ⟨S270336, .i32⟩
  | 106 => ⟨S270336, .i32⟩
  | 107 => ⟨S270336, .i32⟩
  | 108 => ⟨S270336x1, .i32⟩
  | 109 => ⟨S270336, .f32⟩
  | 110 => ⟨S270336, .f32⟩
  | 111 => ⟨S270336x1, .f32⟩
  | 112 => ⟨S_, .i32⟩
  | 113 => ⟨S270336, .i32⟩
  | 114 => ⟨S270336, .i1⟩
  | 115 => ⟨S_, .i32⟩
  | 116 => ⟨S270336, .i32⟩
  | 117 => ⟨S270336, .i32⟩
  | 118 => ⟨S270336, .i32⟩
  | 119 => ⟨S270336x1, .i32⟩
  | 120 => ⟨S270336x64, .f32⟩
  | 121 => ⟨S270336x64, .f32⟩
  | 122 => ⟨S270336x64, .f32⟩
  | 123 => ⟨S_, .f32⟩
  | 124 => ⟨S8192x64, .f32⟩
  | 125 => ⟨S270336x1, .i32⟩
  | 126 => ⟨S8192x64, .f32⟩
  | 127 => ⟨S1x64, .f32⟩
  | _ => ⟨S8192x256, .f32⟩

abbrev hbmTy0_2 (i : Nat) : BufTy := match i % 128 with
  | 0 => ⟨S8192x64, .f32⟩
  | 1 => ⟨S8192x64, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_3 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_5 : Ref sig .tc := ⟨.hbm, 74, rfl⟩
abbrev main_v54 : Ref sig .tc := ⟨.hbm, 75, rfl⟩
abbrev main_v55 : Ref sig .tc := ⟨.hbm, 76, rfl⟩
abbrev main_cst_6 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_call0_v0 : Ref sig .tc := ⟨.hbm, 82, rfl⟩
abbrev main_call0_v1 : Ref sig .tc := ⟨.hbm, 83, rfl⟩
abbrev main_v59 : Ref sig .tc := ⟨.hbm, 84, rfl⟩
abbrev main_v60 : Ref sig .tc := ⟨.hbm, 85, rfl⟩
abbrev main_c : Ref sig .tc := ⟨.hbm, 86, rfl⟩
abbrev main_v61 : Ref sig .tc := ⟨.hbm, 87, rfl⟩
abbrev main_v62 : Ref sig .tc := ⟨.hbm, 88, rfl⟩
abbrev main_c_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_9 : Ref sig .tc := ⟨.hbm, 95, rfl⟩
abbrev main_v68 : Ref sig .tc := ⟨.hbm, 96, rfl⟩
abbrev main_v69 : Ref sig .tc := ⟨.hbm, 97, rfl⟩
abbrev main_c_10 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_11 : Ref sig .tc := ⟨.hbm, 106, rfl⟩
abbrev main_v77 : Ref sig .tc := ⟨.hbm, 107, rfl⟩
abbrev main_v78 : Ref sig .tc := ⟨.hbm, 108, rfl⟩
abbrev main_c_12 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_13 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_call1_cst : Ref sig .tc := ⟨.hbm, 124, rfl⟩
abbrev main_call1_v0 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_14 : Ref sig .tc := ⟨.hbm, 135, rfl⟩
abbrev main_v101 : Ref sig .tc := ⟨.hbm, 136, rfl⟩
abbrev main_cst_15 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_16 : Ref sig .tc := ⟨.hbm, 141, rfl⟩
abbrev main_v105 : Ref sig .tc := ⟨.hbm, 142, rfl⟩
abbrev main_v106 : Ref sig .tc := ⟨.hbm, 143, rfl⟩
abbrev main_cst_17 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_18 : Ref sig .tc := ⟨.hbm, 148, rfl⟩
abbrev main_call2_v0 : Ref sig .tc := ⟨.hbm, 149, rfl⟩
abbrev main_call2_v1 : Ref sig .tc := ⟨.hbm, 150, rfl⟩
abbrev main_v110 : Ref sig .tc := ⟨.hbm, 151, rfl⟩
abbrev main_v111 : Ref sig .tc := ⟨.hbm, 152, rfl⟩
abbrev main_c_19 : Ref sig .tc := ⟨.hbm, 153, rfl⟩
abbrev main_v112 : Ref sig .tc := ⟨.hbm, 154, rfl⟩
abbrev main_v113 : Ref sig .tc := ⟨.hbm, 155, rfl⟩
abbrev main_c_20 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_21 : Ref sig .tc := ⟨.hbm, 162, rfl⟩
abbrev main_v119 : Ref sig .tc := ⟨.hbm, 163, rfl⟩
abbrev main_v120 : Ref sig .tc := ⟨.hbm, 164, rfl⟩
abbrev main_c_22 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_c_23 : Ref sig .tc := ⟨.hbm, 173, rfl⟩
abbrev main_v128 : Ref sig .tc := ⟨.hbm, 174, rfl⟩
abbrev main_v129 : Ref sig .tc := ⟨.hbm, 175, rfl⟩
abbrev main_c_24 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_25 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_call3_cst : Ref sig .tc := ⟨.hbm, 191, rfl⟩
abbrev main_call3_v0 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_26 : Ref sig .tc := ⟨.hbm, 202, rfl⟩
abbrev main_v152 : Ref sig .tc := ⟨.hbm, 203, rfl⟩
abbrev main_cst_27 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_28 : Ref sig .tc := ⟨.hbm, 208, rfl⟩
abbrev main_v156 : Ref sig .tc := ⟨.hbm, 209, rfl⟩
abbrev main_v157 : Ref sig .tc := ⟨.hbm, 210, rfl⟩
abbrev main_cst_29 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_30 : Ref sig .tc := ⟨.hbm, 215, rfl⟩
abbrev main_call4_v0 : Ref sig .tc := ⟨.hbm, 216, rfl⟩
abbrev main_call4_v1 : Ref sig .tc := ⟨.hbm, 217, rfl⟩
abbrev main_v161 : Ref sig .tc := ⟨.hbm, 218, rfl⟩
abbrev main_v162 : Ref sig .tc := ⟨.hbm, 219, rfl⟩
abbrev main_c_31 : Ref sig .tc := ⟨.hbm, 220, rfl⟩
abbrev main_v163 : Ref sig .tc := ⟨.hbm, 221, rfl⟩
abbrev main_v164 : Ref sig .tc := ⟨.hbm, 222, rfl⟩
abbrev main_c_32 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_c_33 : Ref sig .tc := ⟨.hbm, 229, rfl⟩
abbrev main_v170 : Ref sig .tc := ⟨.hbm, 230, rfl⟩
abbrev main_v171 : Ref sig .tc := ⟨.hbm, 231, rfl⟩
abbrev main_c_34 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_c_35 : Ref sig .tc := ⟨.hbm, 240, rfl⟩
abbrev main_v179 : Ref sig .tc := ⟨.hbm, 241, rfl⟩
abbrev main_v180 : Ref sig .tc := ⟨.hbm, 242, rfl⟩
abbrev main_c_36 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_cst_37 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S192x64_S64x192_1_0 : S192x64.Transposes [1, 0] S64x192
  bcast_S192_S1x192_1 : S192.BroadcastsInDim S1x192 (![1] : Fin 1 → Fin S1x192.rank)
  bcast_S1x192_S8192x192_0_1 : S1x192.BroadcastsInDim S8192x192 (![0, 1] : Fin 2 → Fin S8192x192.rank)
  slices_S8192x192_S8192x64_0_0 : S8192x192.Slices ![0, 0] S8192x64
  slices_S8192x192_S8192x64_0_64 : S8192x192.Slices ![0, 64] S8192x64
  slices_S8192x192_S8192x64_0_128 : S8192x192.Slices ![0, 128] S8192x64
  shapeCasts_S8192x64_S8192x4x16 : S8192x64.ShapeCasts S8192x4x16
  transposes_S8192x4x16_S4x8192x16_1_0_2 : S8192x4x16.Transposes [1, 0, 2] S4x8192x16
  bcast_S_S4x8192x8192 : S_.BroadcastsInDim S4x8192x8192 (![] : Fin 0 → Fin S4x8192x8192.rank)
  reducesTo_S4x8192x8192_S4x8192_d2 : S4x8192x8192.ReducesTo [2] S4x8192
  h_S_ : 0 < S_.numel
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x8192_0_1_2 : S4x8192x1.BroadcastsInDim S4x8192x8192 (![0, 1, 2] : Fin 3 → Fin S4x8192x8192.rank)
  transposes_S4x8192x16_S8192x4x16_1_0_2 : S4x8192x16.Transposes [1, 0, 2] S8192x4x16
  shapeCasts_S8192x4x16_S8192x64 : S8192x4x16.ShapeCasts S8192x64
  transposes_S64x64_S64x64_1_0 : S64x64.Transposes [1, 0] S64x64
  concatenates_S8192x256_S8192x64_S8192x320_d1 : Shape.Concatenates [S8192x256, S8192x64] S8192x320 1
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  dot_S8192x256_S256x64_S8192x64_1_0_0_1_n_n_wf : DotDims.WF S8192x256 S256x64 S8192x64 [1] [0] [0] [1] [] []
  dot_S8192x64_S64x192_S8192x192_1_0_0_1_n_n_wf : DotDims.WF S8192x64 S64x192 S8192x192 [1] [0] [0] [1] [] []
  dot_S4x8192x16_S4x8192x16_S4x8192x8192_2_2_1_1_0_0_wf : DotDims.WF S4x8192x16 S4x8192x16 S4x8192x8192 [2] [2] [1] [1] [0] [0]
  dot_S4x8192x8192_S4x8192x16_S4x8192x16_2_1_1_2_0_0_wf : DotDims.WF S4x8192x8192 S4x8192x16 S4x8192x16 [2] [1] [1] [2] [0] [0]
  dot_S8192x64_S64x64_S8192x64_1_0_0_1_n_n_wf : DotDims.WF S8192x64 S64x64 S8192x64 [1] [0] [0] [1] [] []
  scatter_S8192_S270336x1_S270336_n_0_0_1_wf : ScatterDims.WF S8192 S270336x1 S270336 [] [0] [0] 1
  dot_S8192x320_S320x256_S8192x256_1_0_0_1_n_n_wf : DotDims.WF S8192x320 S320x256 S8192x256 [1] [0] [0] [1] [] []
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x256_S256x256_S8192x256_1_0_0_1_n_n_wf : DotDims.WF S8192x256 S256x256 S8192x256 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x192_S8192x192_1_0_0_1_n_n : DotDims S8192x64 S64x192 S8192x192 where
  lhsContracting := [1]
  rhsContracting := [0]
  lhsNonContracting := [0]
  rhsNonContracting := [1]
  lhsBatch := []
  rhsBatch := []
  wf := dot_S8192x64_S64x192_S8192x192_1_0_0_1_n_n_wf
def dot_S4x8192x16_S4x8192x16_S4x8192x8192_2_2_1_1_0_0 : DotDims S4x8192x16 S4x8192x16 S4x8192x8192 where
  lhsContracting := [2]
  rhsContracting := [2]
  lhsNonContracting := [1]
  rhsNonContracting := [1]
  lhsBatch := [0]
  rhsBatch := [0]
  wf := dot_S4x8192x16_S4x8192x16_S4x8192x8192_2_2_1_1_0_0_wf
def dot_S4x8192x8192_S4x8192x16_S4x8192x16_2_1_1_2_0_0 : DotDims S4x8192x8192 S4x8192x16 S4x8192x16 where
  lhsContracting := [2]
  rhsContracting := [1]
  lhsNonContracting := [1]
  rhsNonContracting := [2]
  lhsBatch := [0]
  rhsBatch := [0]
  wf := dot_S4x8192x8192_S4x8192x16_S4x8192x16_2_1_1_2_0_0_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def dot_S8192x320_S320x256_S8192x256_1_0_0_1_n_n : DotDims S8192x320 S320x256 S8192x256 where
  lhsContracting := [1]
  rhsContracting := [0]
  lhsNonContracting := [0]
  rhsNonContracting := [1]
  lhsBatch := []
  rhsBatch := []
  wf := dot_S8192x320_S320x256_S8192x256_1_0_0_1_n_n_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf

class Facts : Prop extends Facts₀ where

variable [Facts]
-- ==== Proof.K.Reg0.lean ====
import proofs.«408232_j82188494176334_2_alg».proof.Proof.Gen.Kernel.Launch
import proofs.«408232_j82188494176334_2_alg».proof.Proof.Gen.Kernel.Skeleton
import proofs.«408232_j82188494176334_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem offsets_zero3 : (![0, 0, 0] : Fin 3 → Nat) = fun _ => 0 := funext fun a => by fin_cases a <;> rfl

abbrev wholeQ : Rect S4x64x16 := Rect.unit (s := S4x64x16) ![0, 0, 0] S4x64x16.size inb_S4x64x16_S4x64x16_0_0_0
abbrev wholeKV : Rect S4x8192x16 := Rect.unit (s := S4x8192x16) ![0, 0, 0] S4x8192x16.size inb_S4x8192x16_S4x8192x16_0_0_0

def out0_3 (x0 : Vec F S4x64x16 .f32) (x1 x2 : Vec F S4x8192x16 .f32) : Vec F S4x64x16 .f32 :=
  View.canon [⟨wholeQ, k0_pay1 (View.ld x0 wholeQ) (View.ld x1 wholeKV) (View.ld x2 wholeKV)⟩]

theorem cover0_3 (p0 : Vec F S4x64x16 .f32) (y : S4x64x16.Idx) :
    ∃ pc ∈ ([⟨wholeQ, p0⟩] : List (View.Piece (Elt F) S4x64x16 .f32)), y ∈ pc.1.set :=
  ⟨_, List.mem_singleton_self _, View.mem_set_unit_zero offsets_zero3 inb_S4x64x16_S4x64x16_0_0_0 y⟩

theorem out0_3_eq (x0 : Vec F S4x64x16 .f32) (x1 x2 : Vec F S4x8192x16 .f32) : out0_3 x0 x1 x2 = k0_pay1 x0 x1 x2 := by
  unfold out0_3
  rw [View.canon_unit_zero (S := S4x64x16) offsets_zero3]
  simp only [View.ld_unit_zero (S := S4x64x16) offsets_zero3, View.ld_unit_zero (S := S4x8192x16) offsets_zero3]

set_option maxHeartbeats 1000000 in
theorem sound_kernel0 (c : Dev nD) (E : Set ℕ) (i : grid0.Coords)
    (arg1 : Memref sig .tc .vmem S4x64x16 .f32) (harg1 : arg1.IsWhole) (arg2 : Memref sig .tc .vmem S4x8192x16 .f32) (harg2 : arg2.IsWhole)
    (arg3 : Memref sig .tc .vmem S4x8192x16 .f32) (harg3 : arg3.IsWhole) (arg4 : Memref sig .tc .vmem S4x64x16 .f32) (harg4 : arg4.IsWhole)
    (x0 : Vec F S4x64x16 .f32) (x1 x2 : Vec F S4x8192x16 .f32) (K : PUnit → sProp 𝕄) :
    iprop(owns c arg1 fullShare x0 ∗ owns c arg2 fullShare x1 ∗ owns c arg3 fullShare x2
        ∗ (∃ d, owns c arg4 fullShare d)
        ∗ (iprop(owns c arg1 fullShare x0 ∗ owns c arg2 fullShare x1 ∗ owns c arg3 fullShare x2
            ∗ owns c arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns c (st0_0 t) fullShare ((dat0 V c).before 0 t d))
    ∗ (∃ d, owns c (st0_1 t) fullShare ((dat0 V c).before 1 t d))
    ∗ (∃ d, owns c (st0_2 t) fullShare ((dat0 V c).before 2 t d))
    ∗ (∃ d, owns c (st0_3 t) fullShare ((dat0 V c).before 3 t d)))

def bodyPost0 (c : Dev nD) (t : Fin cfg0.N) : sProp 𝕄 :=
  iprop((dat0 V c).Φ t.succ ∗ (dat0 V c).owesAt () t.succ
    ∗ owns c (st0_0 t) fullShare ((dat0 V c).after 0 t)
    ∗ owns c (st0_1 t) fullShare ((dat0 V c).after 1 t)
    ∗ owns c (st0_2 t) fullShare ((dat0 V c).after 2 t)
    ∗ owns c (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  iframe H0 H1 H2
  isplitl [H3]; · iexists _; iexact H3
  iintro ⟨H0, H1, H2, H3⟩
  iframe HΦ Ho H0 H1 H2
  iexact H3

theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.Reg1Runs.lean ====
import proofs.«408232_j82188494176334_2_alg».proof.Proof.Gen.Kernel.Launch
import proofs.«408232_j82188494176334_2_alg».proof.Proof.Gen.Kernel.Skeleton
import proofs.«408232_j82188494176334_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 := by decide +kernel

abbrev cond1_1 (i : grid1.Coords) : Prop := k1_cond2 i = 1#1
theorem hcond1_1 : ∀ t : Fin cfg1.N, cond1_1 (grid1.coords t) ↔ t.val % 8 = 7 := by decide +kernel

theorem idleAt1_3 : ∀ t : Fin cfg1.N, t.val % 8 ≠ 7 → cfg1.idle 3 (grid1.coords t) = true := by decide +kernel
theorem noFlush1_3 : ∀ t : Fin cfg1.N, t.val % 8 ≠ 7 → (cfg1.win 3).flush t = false := by decide +kernel
theorem liveAt1_3 : ∀ t : Fin cfg1.N, t.val % 8 = 7 → cfg1.idle 3 (grid1.coords t) = false := by decide +kernel

abbrev VO1_3 : View sig .tc .vmem S2048x256 .f32 := (Memref.whole cc1_stg3_0 : Memref sig .tc .vmem S2048x256 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev scM1_0 : Memref sig .tc .vmem S2048x256 .f32 := Memref.whole cc1_scratch0
abbrev VS1_0 : View sig .tc .vmem S2048x256 .f32 := scM1_0.view

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns c scM1_0 fullShare d) ∗ others1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

-- A whole memref read at `x` is its buffer at the contents that read `x`.
private theorem owns_unread {sp : Space} {S : Shape} {e : EltTy} {a : Memref sig .tc sp S e} (ha : a.IsWhole) (c : Dev nD) (x : S.Idx → Elt F e) :
    (owns c a fullShare x : sProp 𝕄) = (a.view.loc c ↦[a.view.set]{fullShare} ha.unread x) := by
  have h₁ : (owns c a fullShare x : sProp 𝕄) ⊢ (a.view.loc c ↦[a.view.set]{fullShare} ha.unread x) := by
    unfold owns; iintro ⟨%f, %hf, H⟩; obtain rfl := ha.eq_unread hf; iexact H
  have h₂ : (a.view.loc c ↦[a.view.set]{fullShare} ha.unread x : sProp 𝕄) ⊢ owns c a fullShare x := by
    unfold owns; iintro H; iexists _; isplitr; · ipureintro; exact ha.read_unread _
    iexact H
  exact BI.equiv_iff.mp ⟨h₁, h₂⟩

variable (c : Dev nD) (i : grid1.Coords) (arg2 : Memref sig .tc .vmem S2048x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

-- One run of the body per control case, on whole memrefs: the inputs come back as they were, the stores as lists of pieces.
set_option maxHeartbeats 1000000 in
noncomputable def kernelRun1_A (hc0 : cond1_0 i) (hc1 : ¬cond1_1 i)
    (x0 : Vec F S2048x1024 .bf16) (x1 : Vec F S1024x256 .f32) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_unread harg2, owns_unread harg3, owns_unread harg4, owns_unread harg5]; unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

set_option maxHeartbeats 1000000 in
noncomputable def kernelRun1_B (hc0 : ¬cond1_0 i) (hc1 : ¬cond1_1 i)
    (x0 : Vec F S2048x1024 .bf16) (x1 : Vec F S1024x256 .f32) (x2 : Vec F S1x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_unread harg2, owns_unread harg3, owns_unread harg4, owns_unread harg5, owns_unread harg6]
    iintro ⟨H0, H1, H2, H3, HS0, Hk⟩
    sl_exec (disch := first | exact hc0 | exact hc1)
    sl_step
    iapply Hk
    iframe H0 H1 H2 H3
    iexists _; iexact HS0

set_option maxHeartbeats 1000000 in
noncomputable def kernelRun1_C (hc0 : ¬cond1_0 i) (hc1 : cond1_1 i)
    (x0 : Vec F S2048x1024 .bf16) (x1 : Vec F S1024x256 .f32) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    rw [owns_unread harg2, owns_unread harg3, owns_unread harg4, owns_unread harg6]; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.Kernel.Gen

end
-- ==== Proof.K.Reg1.lean ====
import proofs.«408232_j82188494176334_2_alg».proof.Proof.K.Reg1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What a list of written pieces leaves in the output block, and (`acc1`) in the accumulator, read back whole.
def out1 (L : List (View.Piece (Elt F) S2048x256 .f32)) : Vec F S2048x256 .f32 :=
  VO1_3.read (Elt F) (VO1_3.writes (Elt F) VO1_3.junk L)

def acc1 (L : List (View.Piece (Elt F) S2048x256 .f32)) : Vec F S2048x256 .f32 :=
  VS1_0.read (Elt F) (VS1_0.writes (Elt F) VS1_0.junk L)

section
variable (c : Dev nD) (i : grid1.Coords) (arg2 : Memref sig .tc .vmem S2048x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

-- The pieces each case writes tile the whole block, so reading them back forgets what was there before.
theorem scover1_A_0 (hc0 : cond1_0 i) (hc1 : ¬cond1_1 i)
    (x0 : Vec F S2048x1024 .bf16) (x1 : Vec F S1024x256 .f32) (x2 : Vec F S1x256 .f32) :
    ∀ y : S2048x256.Idx, ∃ pc ∈ (kernelRun1_A c i arg2 harg2 arg3 harg3 arg4 harg4 arg5 harg5 arg6 harg6 hc0 hc1 x0 x1 x2).2.1, y ∈ pc.1.set :=
  View.cover_of_tiledL _ S2048x256.size (by sl_kernel_rfl)

theorem scover1_B_0 (hc0 : ¬cond1_0 i) (hc1 : ¬cond1_1 i)
    (x0 : Vec F S2048x1024 .bf16) (x1 : Vec F S1024x256 .f32) (x2 : Vec F S1x256 .f32) (xs0 : Vec F S2048x256 .f32) :
    ∀ y : S2048x256.Idx, ∃ pc ∈ (kernelRun1_B c i arg2 harg2 arg3 harg3 arg4 harg4 arg5 harg5 arg6 harg6 hc0 hc1 x0 x1 x2 xs0).2.1, y ∈ pc.1.set :=
  View.cover_of_tiledL _ S2048x256.size (by sl_kernel_rfl)

theorem cover1_C_3 (hc0 : ¬cond1_0 i) (hc1 : cond1_1 i)
    (x0 : Vec F S2048x1024 .bf16) (x1 : Vec F S1024x256 .f32) (x2 : Vec F S1x256 .f32) (xs0 : Vec F S2048x256 .f32) :
    ∀ y : S2048x256.Idx, ∃ pc ∈ (kernelRun1_C c i arg2 harg2 arg3 harg3 arg4 harg4 arg5 harg5 arg6 harg6 hc0 hc1 x0 x1 x2 xs0).1, y ∈ pc.1.set :=
  View.cover_of_tiledL _ S2048x256.size (by sl_kernel_rfl)

theorem scover1_C_0 (hc0 : ¬cond1_0 i) (hc1 : cond1_1 i)
    (x0 : Vec F S2048x1024 .bf16) (x1 : Vec F S1024x256 .f32) (x2 : Vec F S1x256 .f32) (xs0 : Vec F S2048x256 .f32) :
    ∀ y : S2048x256.Idx, ∃ pc ∈ (kernelRun1_C c i arg2 harg2 arg3 harg3 arg4 harg4 arg5 harg5 arg6 harg6 hc0 hc1 x0 x1 x2 xs0).2.1, y ∈ pc.1.set :=
  View.cover_of_tiledL _ S2048x256.size (by sl_kernel_rfl)

end

-- The body's three control cases at grid point `t`: the first, a middle and the last column block of a row block.
def runA1 (c : Dev nD) (t : Fin cfg1.N) (h0 : t.val % 8 = 0) (h1 : ¬t.val % 8 = 7) :=
  kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

def runB1 (c : Dev nD) (t : Fin cfg1.N) (h0 : ¬t.val % 8 = 0) (h1 : ¬t.val % 8 = 7) (xs0 : Vec F S2048x256 .f32) :=
  kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs0

def runC1 (c : Dev nD) (t : Fin cfg1.N) (h0 : ¬t.val % 8 = 0) (h1 : t.val % 8 = 7) (xs0 : Vec F S2048x256 .f32) :=
  kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs0

-- Output block and accumulator after point `n`: the case `n % 8` selects, over the accumulator point `n - 1` left.
def outsAt1 (c : Dev nD) : (n : ℕ) → n < cfg1.N → Vec F S2048x256 .f32 × Vec F S2048x256 .f32
  | 0, hn => (out1 (runA1 V c ⟨0, hn⟩ (Nat.zero_mod _) (by (try dsimp only); omega)).1, acc1 (runA1 V c ⟨0, hn⟩ (Nat.zero_mod _) (by (try dsimp only); omega)).2.1)
  | n + 1, hn =>
    if h0 : (n + 1) % 8 = 0 then
      if h1 : (n + 1) % 8 = 7 then
        False.elim (by omega)
      else
        (out1 (runA1 V c ⟨n + 1, hn⟩ h0 h1).1, acc1 (runA1 V c ⟨n + 1, hn⟩ h0 h1).2.1)
    else
      if h1 : (n + 1) % 8 = 7 then
        (out1 (runC1 V c ⟨n + 1, hn⟩ h0 h1 (outsAt1 c n (Nat.lt_of_succ_lt hn)).2).1, acc1 (runC1 V c ⟨n + 1, hn⟩ h0 h1 (outsAt1 c n (Nat.lt_of_succ_lt hn)).2).2.1)
      else
        (out1 (runB1 V c ⟨n + 1, hn⟩ h0 h1 (outsAt1 c n (Nat.lt_of_succ_lt hn)).2).1, acc1 (runB1 V c ⟨n + 1, hn⟩ h0 h1 (outsAt1 c n (Nat.lt_of_succ_lt hn)).2).2.1)

theorem outsAt1_A (c : Dev nD) (t : Fin cfg1.N) (h0 : t.val % 8 = 0) (h1 : ¬t.val % 8 = 7) :
    outsAt1 V c t.val t.isLt = (out1 (runA1 V c t h0 h1).1, acc1 (runA1 V c t h0 h1).2.1) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1 (runB1 V c t h0 h1 (outsAt1 V c (t.val - 1) (Nat.lt_of_le_of_lt (Nat.sub_le _ _) t.isLt)).2).1, acc1 (runB1 V c t h0 h1 (outsAt1 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1 (runC1 V c t h0 h1 (outsAt1 V c (t.val - 1) (Nat.lt_of_le_of_lt (Nat.sub_le _ _) t.isLt)).2).1, acc1 (runC1 V c t h0 h1 (outsAt1 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

-- The region invariant: from the second point on the accumulator holds what the point before left in it.
def PhiS1 (c : Dev nD) : (n : ℕ) → n ≤ cfg1.N → sProp 𝕄
  | 0, _ => Pipeline.ΦA spec1 c
  | n + 1, hn => iprop(iprop(owns c scM1_0 fullShare ((outsAt1 V c n hn).2) ∗ others1 (F := F) c) ∗ (∃ r, prngReg c r))

theorem PhiS1_pos (c : Dev nD) (n : ℕ) (h : n ≤ cfg1.N) (hz : n ≠ 0) :
    PhiS1 V c n h = iprop(iprop(owns c scM1_0 fullShare ((outsAt1 V c (n - 1) (by omega)).2) ∗ others1 (F := F) c) ∗ (∃ r, prngReg c r)) := by
  cases n with
  | zero => exact absurd rfl hz
  | succ n => rfl

-- Forgetting the accumulator's contents gives the entry form back.
theorem PhiS1_any (c : Dev nD) (n : ℕ) (h : n ≤ cfg1.N) : PhiS1 V c n h ⊢ Pipeline.ΦA spec1 c := by
  cases n with
  | zero => exact Entails.refl _
  | succ n =>
    rw [PhiS1, PhiA1_eq]
    iintro ⟨⟨HS0, HR⟩, Hg⟩
    iframe HR Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem leaves1_0 (c : Dev nD) (t : Fin cfg1.N) :
    (dat1 V c).leavesExact 0 t = owns c (ms1_0 t) fullShare (iblk1 V c 0 t) := by
  rw [← after1_0 V c t]

theorem leaves1_1 (c : Dev nD) (t : Fin cfg1.N) :
    (dat1 V c).leavesExact 1 t = owns c (ms1_1 t) fullShare (iblk1 V c 1 t) := by
  rw [← after1_1 V c t]

theorem leaves1_2 (c : Dev nD) (t : Fin cfg1.N) :
    (dat1 V c).leavesExact 2 t = owns c (ms1_2 t) fullShare (iblk1 V c 2 t) := by
  rw [← after1_2 V c t]

def bodyPre1 (c : Dev nD) (t : Fin cfg1.N) : sProp 𝕄 :=
  iprop((dat1 V c).Φ t.castSucc ∗ (dat1 V c).owesAt () t.castSucc
    ∗ (∃ d, owns c (ms1_0 t) fullShare ((dat1 V c).before 0 t d))
    ∗ (∃ d, owns c (ms1_1 t) fullShare ((dat1 V c).before 1 t d))
    ∗ (∃ d, owns c (ms1_2 t) fullShare ((dat1 V c).before 2 t d))
    ∗ (∃ d, owns c (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- The body at any point: `t % 8` picks the case, its run is framed by the invariant and the windows' blocks.
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1, leaves1_0 V c t, leaves1_1 V c t, leaves1_2 V c t, PhiS1_castSucc V c t]
  have hN : t.val < 32 := lt_of_lt_of_eq t.isLt (show cfg1.N = 32 from N_1)
  by_cases h0 : t.val % 8 = 0
  · by_cases h1 : t.val % 8 = 7
    · exfalso; omega
    · rw [Dat.leavesExact_idle (dat1 V c) 3 t (idleAt1_3 t h1) (noFlush1_3 t h1)]
      rw [outsAt1_A V c t h0 h1]
      unfold acc1; (try dsimp only)
      refine (sep_mono_left (PhiS1_any V c _ _)).trans ?_
      rw [PhiA1_eq]
      iintro ⟨⟨⟨HS0, HR⟩, Hg⟩, Ho, ⟨%d0, H0⟩, ⟨%d1, H1⟩, ⟨%d2, H2⟩, ⟨%d3, H3⟩⟩
      iapply ((runA1 V c t h0 h1).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_A_0 c _ _ _ _ _ _ _ _ _ _ _ _ _ _ _ _)
      iexists _; iexact H3
  · by_cases h1 : t.val % 8 = 7
    · rw [show (dat1 V c).leavesExact 3 t = owns c (ms1_3 t) fullShare ((dat1 V c).after 3 t) from by
        unfold Dat.leavesExact; rw [liveAt1_3 t h1], after1_3]
      rw [outsAt1_C V c t h0 h1]
      unfold out1 acc1; (try dsimp only)
      by_cases hz : t.val = 0
      · exfalso; omega
      · rw [PhiS1_pos V c _ _ hz]
        iintro ⟨⟨⟨HS0, HR⟩, Hg⟩, Ho, ⟨%d0, H0⟩, ⟨%d1, H1⟩, ⟨%d2, H2⟩, ⟨%d3, H3⟩⟩
        iapply ((runC1 V c t h0 h1 _).2.2 Set.univ _)
        iframe H0 H1 H2 HS0
        isplitl [H3]; · iexists _; iexact H3
        iintro ⟨H0, H1, H2, ⟨%e3, H3⟩, ⟨%es0, HS0⟩⟩
        iframe HR Hg Ho H0 H1 H2
        isplitl [HS0]
        · unfold owns; iexists _; isplitr
          swap; · iexact HS0
          ipureintro; exact View.read_writes_of_cover _ _ _ _ _ (scover1_C_0 c _ _ _ _ _ _ _ _ _ _ _ _ _ _ _ _ _)
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t h1) (noFlush1_3 t h1)]
      rw [outsAt1_B V c t h0 h1]
      unfold acc1; (try dsimp only)
      by_cases hz : t.val = 0
      · exfalso; omega
      · rw [PhiS1_pos V c _ _ hz]
        iintro ⟨⟨⟨HS0, HR⟩, Hg⟩, Ho, ⟨%d0, H0⟩, ⟨%d1, H1⟩, ⟨%d2, H2⟩, ⟨%d3, H3⟩⟩
        iapply ((runB1 V c t h0 h1 _).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_B_0 c _ _ _ _ _ _ _ _ _ _ _ _ _ _ _ _ _)
        iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Entails.refl _

theorem hout1 (c : Dev nD) : (dat1 V c).Φ (Fin.last cfg1.N) ⊢ Pipeline.ΦA spec1 c :=
  PhiS1_any V c _ (Nat.le_of_lt_succ (Fin.last cfg1.N).isLt)

end Cert.Kernel.Gen

end
-- ==== Proof.K.Reg2Runs.lean ====
import proofs.«408232_j82188494176334_2_alg».proof.Proof.Gen.Kernel.Launch
import proofs.«408232_j82188494176334_2_alg».proof.Proof.Gen.Kernel.Skeleton
import proofs.«408232_j82188494176334_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 := by decide +kernel

abbrev cond2_1 (i : grid2.Coords) : Prop := k2_cond2 i = 1#1
theorem hcond2_1 : ∀ t : Fin cfg2.N, cond2_1 (grid2.coords t) ↔ t.val % 8 = 7 := by decide +kernel

theorem idleAt2_3 : ∀ t : Fin cfg2.N, t.val % 8 ≠ 7 → cfg2.idle 3 (grid2.coords t) = true := by decide +kernel
theorem noFlush2_3 : ∀ t : Fin cfg2.N, t.val % 8 ≠ 7 → (cfg2.win 3).flush t = false := by decide +kernel
theorem liveAt2_3 : ∀ t : Fin cfg2.N, t.val % 8 = 7 → cfg2.idle 3 (grid2.coords t) = false := by decide +kernel

abbrev VO2_3 : View sig .tc .vmem S2048x256 .f32 := (Memref.whole cc2_stg3_0 : Memref sig .tc .vmem S2048x256 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
abbrev scM2_0 : Memref sig .tc .vmem S2048x256 .f32 := Memref.whole cc2_scratch0
abbrev VS2_0 : View sig .tc .vmem S2048x256 .f32 := scM2_0.view

abbrev others2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns c scM2_0 fullShare d) ∗ others2 (F := F) c) ∗ (∃ r, prngReg c r)) := by
  unfold Pipeline.ΦA
  rw [Pipeline.scopedRest_split_of_list spec2 c [cc2_scratch0] (by decide) (by decide)]
  simp only [bigSepL_singleton, scM2_0, owns_whole]; try rfl

-- A whole memref read at `x` is its buffer at the contents that read `x`.
private theorem owns_unread {sp : Space} {S : Shape} {e : EltTy} {a : Memref sig .tc sp S e} (ha : a.IsWhole) (c : Dev nD) (x : S.Idx → Elt F e) :
    (owns c a fullShare x : sProp 𝕄) = (a.view.loc c ↦[a.view.set]{fullShare} ha.unread x) := by
  have h₁ : (owns c a fullShare x : sProp 𝕄) ⊢ (a.view.loc c ↦[a.view.set]{fullShare} ha.unread x) := by
    unfold owns; iintro ⟨%f, %hf, H⟩; obtain rfl := ha.eq_unread hf; iexact H
  have h₂ : (a.view.loc c ↦[a.view.set]{fullShare} ha.unread x : sProp 𝕄) ⊢ owns c a fullShare x := by
    unfold owns; iintro H; iexists _; isplitr; · ipureintro; exact ha.read_unread _
    iexact H
  exact BI.equiv_iff.mp ⟨h₁, h₂⟩

variable (c : Dev nD) (i : grid2.Coords) (arg2 : Memref sig .tc .vmem S2048x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

-- One run of the body per control case, on whole memrefs: the inputs come back as they were, the stores as lists of pieces.
set_option maxHeartbeats 1000000 in
noncomputable def kernelRun2_A (hc0 : cond2_0 i) (hc1 : ¬cond2_1 i)
    (x0 : Vec F S2048x1024 .bf16) (x1 : Vec F S1024x256 .f32) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    rw [owns_unread harg2, owns_unread harg3, owns_unread harg4, owns_unread harg5]; unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

set_option maxHeartbeats 1000000 in
noncomputable def kernelRun2_B (hc0 : ¬cond2_0 i) (hc1 : ¬cond2_1 i)
    (x0 : Vec F S2048x1024 .bf16) (x1 : Vec F S1024x256 .f32) (x2 : Vec F S1x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    rw [owns_unread harg2, owns_unread harg3, owns_unread harg4, owns_unread harg5, owns_unread harg6]
    iintro ⟨H0, H1, H2, H3, HS0, Hk⟩
    sl_exec (disch := first | exact hc0 | exact hc1)
    sl_step
    iapply Hk
    iframe H0 H1 H2 H3
    iexists _; iexact HS0

set_option maxHeartbeats 1000000 in
noncomputable def kernelRun2_C (hc0 : ¬cond2_0 i) (hc1 : cond2_1 i)
    (x0 : Vec F S2048x1024 .bf16) (x1 : Vec F S1024x256 .f32) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    rw [owns_unread harg2, owns_unread harg3, owns_unread harg4, owns_unread harg6]; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.Kernel.Gen

end
-- ==== Proof.K.Reg2.lean ====
import proofs.«408232_j82188494176334_2_alg».proof.Proof.K.Reg2Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What a list of written pieces leaves in the output block, and (`acc2`) in the accumulator, read back whole.
def out2 (L : List (View.Piece (Elt F) S2048x256 .f32)) : Vec F S2048x256 .f32 :=
  VO2_3.read (Elt F) (VO2_3.writes (Elt F) VO2_3.junk L)

def acc2 (L : List (View.Piece (Elt F) S2048x256 .f32)) : Vec F S2048x256 .f32 :=
  VS2_0.read (Elt F) (VS2_0.writes (Elt F) VS2_0.junk L)

section
variable (c : Dev nD) (i : grid2.Coords) (arg2 : Memref sig .tc .vmem S2048x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

-- The pieces each case writes tile the whole block, so reading them back forgets what was there before.
theorem scover2_A_0 (hc0 : cond2_0 i) (hc1 : ¬cond2_1 i)
    (x0 : Vec F S2048x1024 .bf16) (x1 : Vec F S1024x256 .f32) (x2 : Vec F S1x256 .f32) :
    ∀ y : S2048x256.Idx, ∃ pc ∈ (kernelRun2_A c i arg2 harg2 arg3 harg3 arg4 harg4 arg5 harg5 arg6 harg6 hc0 hc1 x0 x1 x2).2.1, y ∈ pc.1.set :=
  View.cover_of_tiledL _ S2048x256.size (by sl_kernel_rfl)

theorem scover2_B_0 (hc0 : ¬cond2_0 i) (hc1 : ¬cond2_1 i)
    (x0 : Vec F S2048x1024 .bf16) (x1 : Vec F S1024x256 .f32) (x2 : Vec F S1x256 .f32) (xs0 : Vec F S2048x256 .f32) :
    ∀ y : S2048x256.Idx, ∃ pc ∈ (kernelRun2_B c i arg2 harg2 arg3 harg3 arg4 harg4 arg5 harg5 arg6 harg6 hc0 hc1 x0 x1 x2 xs0).2.1, y ∈ pc.1.set :=
  View.cover_of_tiledL _ S2048x256.size (by sl_kernel_rfl)

theorem cover2_C_3 (hc0 : ¬cond2_0 i) (hc1 : cond2_1 i)
    (x0 : Vec F S2048x1024 .bf16) (x1 : Vec F S1024x256 .f32) (x2 : Vec F S1x256 .f32) (xs0 : Vec F S2048x256 .f32) :
    ∀ y : S2048x256.Idx, ∃ pc ∈ (kernelRun2_C c i arg2 harg2 arg3 harg3 arg4 harg4 arg5 harg5 arg6 harg6 hc0 hc1 x0 x1 x2 xs0).1, y ∈ pc.1.set :=
  View.cover_of_tiledL _ S2048x256.size (by sl_kernel_rfl)

theorem scover2_C_0 (hc0 : ¬cond2_0 i) (hc1 : cond2_1 i)
    (x0 : Vec F S2048x1024 .bf16) (x1 : Vec F S1024x256 .f32) (x2 : Vec F S1x256 .f32) (xs0 : Vec F S2048x256 .f32) :
    ∀ y : S2048x256.Idx, ∃ pc ∈ (kernelRun2_C c i arg2 harg2 arg3 harg3 arg4 harg4 arg5 harg5 arg6 harg6 hc0 hc1 x0 x1 x2 xs0).2.1, y ∈ pc.1.set :=
  View.cover_of_tiledL _ S2048x256.size (by sl_kernel_rfl)

end

-- The body's three control cases at grid point `t`: the first, a middle and the last column block of a row block.
def runA2 (c : Dev nD) (t : Fin cfg2.N) (h0 : t.val % 8 = 0) (h1 : ¬t.val % 8 = 7) :=
  kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)

def runB2 (c : Dev nD) (t : Fin cfg2.N) (h0 : ¬t.val % 8 = 0) (h1 : ¬t.val % 8 = 7) (xs0 : Vec F S2048x256 .f32) :=
  kernelRun2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs0

def runC2 (c : Dev nD) (t : Fin cfg2.N) (h0 : ¬t.val % 8 = 0) (h1 : t.val % 8 = 7) (xs0 : Vec F S2048x256 .f32) :=
  kernelRun2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0

-- Output block and accumulator after point `n`: the case `n % 8` selects, over the accumulator point `n - 1` left.
def outsAt2 (c : Dev nD) : (n : ℕ) → n < cfg2.N → Vec F S2048x256 .f32 × Vec F S2048x256 .f32
  | 0, hn => (out2 (runA2 V c ⟨0, hn⟩ (Nat.zero_mod _) (by (try dsimp only); omega)).1, acc2 (runA2 V c ⟨0, hn⟩ (Nat.zero_mod _) (by (try dsimp only); omega)).2.1)
  | n + 1, hn =>
    if h0 : (n + 1) % 8 = 0 then
      if h1 : (n + 1) % 8 = 7 then
        False.elim (by omega)
      else
        (out2 (runA2 V c ⟨n + 1, hn⟩ h0 h1).1, acc2 (runA2 V c ⟨n + 1, hn⟩ h0 h1).2.1)
    else
      if h1 : (n + 1) % 8 = 7 then
        (out2 (runC2 V c ⟨n + 1, hn⟩ h0 h1 (outsAt2 c n (Nat.lt_of_succ_lt hn)).2).1, acc2 (runC2 V c ⟨n + 1, hn⟩ h0 h1 (outsAt2 c n (Nat.lt_of_succ_lt hn)).2).2.1)
      else
        (out2 (runB2 V c ⟨n + 1, hn⟩ h0 h1 (outsAt2 c n (Nat.lt_of_succ_lt hn)).2).1, acc2 (runB2 V c ⟨n + 1, hn⟩ h0 h1 (outsAt2 c n (Nat.lt_of_succ_lt hn)).2).2.1)

theorem outsAt2_A (c : Dev nD) (t : Fin cfg2.N) (h0 : t.val % 8 = 0) (h1 : ¬t.val % 8 = 7) :
    outsAt2 V c t.val t.isLt = (out2 (runA2 V c t h0 h1).1, acc2 (runA2 V c t h0 h1).2.1) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2 (runB2 V c t h0 h1 (outsAt2 V c (t.val - 1) (Nat.lt_of_le_of_lt (Nat.sub_le _ _) t.isLt)).2).1, acc2 (runB2 V c t h0 h1 (outsAt2 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2 (runC2 V c t h0 h1 (outsAt2 V c (t.val - 1) (Nat.lt_of_le_of_lt (Nat.sub_le _ _) t.isLt)).2).1, acc2 (runC2 V c t h0 h1 (outsAt2 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

-- The region invariant: from the second point on the accumulator holds what the point before left in it.
def PhiS2 (c : Dev nD) : (n : ℕ) → n ≤ cfg2.N → sProp 𝕄
  | 0, _ => Pipeline.ΦA spec2 c
  | n + 1, hn => iprop(iprop(owns c scM2_0 fullShare ((outsAt2 V c n hn).2) ∗ others2 (F := F) c) ∗ (∃ r, prngReg c r))

theorem PhiS2_pos (c : Dev nD) (n : ℕ) (h : n ≤ cfg2.N) (hz : n ≠ 0) :
    PhiS2 V c n h = iprop(iprop(owns c scM2_0 fullShare ((outsAt2 V c (n - 1) (by omega)).2) ∗ others2 (F := F) c) ∗ (∃ r, prngReg c r)) := by
  cases n with
  | zero => exact absurd rfl hz
  | succ n => rfl

-- Forgetting the accumulator's contents gives the entry form back.
theorem PhiS2_any (c : Dev nD) (n : ℕ) (h : n ≤ cfg2.N) : PhiS2 V c n h ⊢ Pipeline.ΦA spec2 c := by
  cases n with
  | zero => exact Entails.refl _
  | succ n =>
    rw [PhiS2, PhiA2_eq]
    iintro ⟨⟨HS0, HR⟩, Hg⟩
    iframe HR Hg
    iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem leaves2_0 (c : Dev nD) (t : Fin cfg2.N) :
    (dat2 V c).leavesExact 0 t = owns c (ms2_0 t) fullShare (iblk2 V c 0 t) := by
  rw [← after2_0 V c t]

theorem leaves2_1 (c : Dev nD) (t : Fin cfg2.N) :
    (dat2 V c).leavesExact 1 t = owns c (ms2_1 t) fullShare (iblk2 V c 1 t) := by
  rw [← after2_1 V c t]

theorem leaves2_2 (c : Dev nD) (t : Fin cfg2.N) :
    (dat2 V c).leavesExact 2 t = owns c (ms2_2 t) fullShare (iblk2 V c 2 t) := by
  rw [← after2_2 V c t]

def bodyPre2 (c : Dev nD) (t : Fin cfg2.N) : sProp 𝕄 :=
  iprop((dat2 V c).Φ t.castSucc ∗ (dat2 V c).owesAt () t.castSucc
    ∗ (∃ d, owns c (ms2_0 t) fullShare ((dat2 V c).before 0 t d))
    ∗ (∃ d, owns c (ms2_1 t) fullShare ((dat2 V c).before 1 t d))
    ∗ (∃ d, owns c (ms2_2 t) fullShare ((dat2 V c).before 2 t d))
    ∗ (∃ d, owns c (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

-- The body at any point: `t % 8` picks the case, its run is framed by the invariant and the windows' blocks.
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2, leaves2_0 V c t, leaves2_1 V c t, leaves2_2 V c t, PhiS2_castSucc V c t]
  have hN : t.val < 32 := lt_of_lt_of_eq t.isLt (show cfg2.N = 32 from N_2)
  by_cases h0 : t.val % 8 = 0
  · by_cases h1 : t.val % 8 = 7
    · exfalso; omega
    · rw [Dat.leavesExact_idle (dat2 V c) 3 t (idleAt2_3 t h1) (noFlush2_3 t h1)]
      rw [outsAt2_A V c t h0 h1]
      unfold acc2; (try dsimp only)
      refine (sep_mono_left (PhiS2_any V c _ _)).trans ?_
      rw [PhiA2_eq]
      iintro ⟨⟨⟨HS0, HR⟩, Hg⟩, Ho, ⟨%d0, H0⟩, ⟨%d1, H1⟩, ⟨%d2, H2⟩, ⟨%d3, H3⟩⟩
      iapply ((runA2 V c t h0 h1).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover2_A_0 c _ _ _ _ _ _ _ _ _ _ _ _ _ _ _ _)
      iexists _; iexact H3
  · by_cases h1 : t.val % 8 = 7
    · rw [show (dat2 V c).leavesExact 3 t = owns c (ms2_3 t) fullShare ((dat2 V c).after 3 t) from by
        unfold Dat.leavesExact; rw [liveAt2_3 t h1], after2_3]
      rw [outsAt2_C V c t h0 h1]
      unfold out2 acc2; (try dsimp only)
      by_cases hz : t.val = 0
      · exfalso; omega
      · rw [PhiS2_pos V c _ _ hz]
        iintro ⟨⟨⟨HS0, HR⟩, Hg⟩, Ho, ⟨%d0, H0⟩, ⟨%d1, H1⟩, ⟨%d2, H2⟩, ⟨%d3, H3⟩⟩
        iapply ((runC2 V c t h0 h1 _).2.2 Set.univ _)
        iframe H0 H1 H2 HS0
        isplitl [H3]; · iexists _; iexact H3
        iintro ⟨H0, H1, H2, ⟨%e3, H3⟩, ⟨%es0, HS0⟩⟩
        iframe HR Hg Ho H0 H1 H2
        isplitl [HS0]
        · unfold owns; iexists _; isplitr
          swap; · iexact HS0
          ipureintro; exact View.read_writes_of_cover _ _ _ _ _ (scover2_C_0 c _ _ _ _ _ _ _ _ _ _ _ _ _ _ _ _ _)
        unfold owns; iexists _; isplitr
        swap; · iexact H3
        ipureintro; exact View.read_writes_of_cover _ _ _ _ _ (cover2_C_3 c _ _ _ _ _ _ _ _ _ _ _ _ _ _ _ _ _)
    · rw [Dat.leavesExact_idle (dat2 V c) 3 t (idleAt2_3 t h1) (noFlush2_3 t h1)]
      rw [outsAt2_B V c t h0 h1]
      unfold acc2; (try dsimp only)
      by_cases hz : t.val = 0
      · exfalso; omega
      · rw [PhiS2_pos V c _ _ hz]
        iintro ⟨⟨⟨HS0, HR⟩, Hg⟩, Ho, ⟨%d0, H0⟩, ⟨%d1, H1⟩, ⟨%d2, H2⟩, ⟨%d3, H3⟩⟩
        iapply ((runB2 V c t h0 h1 _).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover2_B_0 c _ _ _ _ _ _ _ _ _ _ _ _ _ _ _ _ _)
        iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 :=
  Entails.refl _

theorem hout2 (c : Dev nD) : (dat2 V c).Φ (Fin.last cfg2.N) ⊢ Pipeline.ΦA spec2 c :=
  PhiS2_any V c _ (Nat.le_of_lt_succ (Fin.last cfg2.N).isLt)

end Cert.Kernel.Gen

end
-- ==== Proof.K.Reg3Runs.lean ====
import proofs.«408232_j82188494176334_2_alg».proof.Proof.Gen.Kernel.Launch
import proofs.«408232_j82188494176334_2_alg».proof.Proof.Gen.Kernel.Skeleton
import proofs.«408232_j82188494176334_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 := by decide +kernel

abbrev cond3_1 (i : grid3.Coords) : Prop := k3_cond2 i = 1#1
theorem hcond3_1 : ∀ t : Fin cfg3.N, cond3_1 (grid3.coords t) ↔ t.val % 8 = 7 := by decide +kernel

theorem idleAt3_3 : ∀ t : Fin cfg3.N, t.val % 8 ≠ 7 → cfg3.idle 3 (grid3.coords t) = true := by decide +kernel
theorem noFlush3_3 : ∀ t : Fin cfg3.N, t.val % 8 ≠ 7 → (cfg3.win 3).flush t = false := by decide +kernel
theorem liveAt3_3 : ∀ t : Fin cfg3.N, t.val % 8 = 7 → cfg3.idle 3 (grid3.coords t) = false := by decide +kernel

abbrev VO3_3 : View sig .tc .vmem S2048x64 .f32 := (Memref.whole cc3_stg3_0 : Memref sig .tc .vmem S2048x64 .f32).view
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x64 .f32 := win3_3.stage (cfg3.slots t 3)
abbrev hs3_3 (t : Fin cfg3.N) : (ms3_3 t).IsWhole := hstage3_3 ((cfg3.slots t 3).cast nbuf3_3)
abbrev scM3_0 : Memref sig .tc .vmem S2048x64 .f32 := Memref.whole cc3_scratch0
abbrev VS3_0 : View sig .tc .vmem S2048x64 .f32 := scM3_0.view

abbrev others3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns c scM3_0 fullShare d) ∗ others3 (F := F) c) ∗ (∃ r, prngReg c r)) := by
  unfold Pipeline.ΦA
  rw [Pipeline.scopedRest_split_of_list spec3 c [cc3_scratch0] (by decide) (by decide)]
  simp only [bigSepL_singleton, scM3_0, owns_whole]; try rfl

-- A whole memref read at `x` is its buffer at the contents that read `x`.
private theorem owns_unread {sp : Space} {S : Shape} {e : EltTy} {a : Memref sig .tc sp S e} (ha : a.IsWhole) (c : Dev nD) (x : S.Idx → Elt F e) :
    (owns c a fullShare x : sProp 𝕄) = (a.view.loc c ↦[a.view.set]{fullShare} ha.unread x) := by
  have h₁ : (owns c a fullShare x : sProp 𝕄) ⊢ (a.view.loc c ↦[a.view.set]{fullShare} ha.unread x) := by
    unfold owns; iintro ⟨%f, %hf, H⟩; obtain rfl := ha.eq_unread hf; iexact H
  have h₂ : (a.view.loc c ↦[a.view.set]{fullShare} ha.unread x : sProp 𝕄) ⊢ owns c a fullShare x := by
    unfold owns; iintro H; iexists _; isplitr; · ipureintro; exact ha.read_unread _
    iexact H
  exact BI.equiv_iff.mp ⟨h₁, h₂⟩

variable (c : Dev nD) (i : grid3.Coords) (arg2 : Memref sig .tc .vmem S2048x1024 .bf16) (harg2 : arg2.IsWhole) (arg3 : Memref sig .tc .vmem S1024x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)

-- One run of the body per control case, on whole memrefs: the inputs come back as they were, the stores as lists of pieces.
set_option maxHeartbeats 1000000 in
noncomputable def kernelRun3_A (hc0 : cond3_0 i) (hc1 : ¬cond3_1 i)
    (x0 : Vec F S2048x1024 .bf16) (x1 : Vec F S1024x64 .f32) (x2 : Vec F S1x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    rw [owns_unread harg2, owns_unread harg3, owns_unread harg4, owns_unread harg5]; unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

set_option maxHeartbeats 1000000 in
noncomputable def kernelRun3_B (hc0 : ¬cond3_0 i) (hc1 : ¬cond3_1 i)
    (x0 : Vec F S2048x1024 .bf16) (x1 : Vec F S1024x64 .f32) (x2 : Vec F S1x64 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    rw [owns_unread harg2, owns_unread harg3, owns_unread harg4, owns_unread harg5, owns_unread harg6]
    iintro ⟨H0, H1, H2, H3, HS0, Hk⟩
    sl_exec (disch := first | exact hc0 | exact hc1)
    sl_step
    iapply Hk
    iframe H0 H1 H2 H3
    iexists _; iexact HS0

set_option maxHeartbeats 1000000 in
noncomputable def kernelRun3_C (hc0 : ¬cond3_0 i) (hc1 : cond3_1 i)
    (x0 : Vec F S2048x1024 .bf16) (x1 : Vec F S1024x64 .f32) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    rw [owns_unread harg2, owns_unread harg3, owns_unread harg4, owns_unread harg6]; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.Kernel.Gen

end
-- ==== Proof.K.Reg3.lean ====
import proofs.«408232_j82188494176334_2_alg».proof.Proof.K.Reg3Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What a list of written pieces leaves in the output block, and (`acc3`) in the accumulator, read back whole.
def out3 (L : List (View.Piece (Elt F) S2048x64 .f32)) : Vec F S2048x64 .f32 :=
  VO3_3.read (Elt F) (VO3_3.writes (Elt F) VO3_3.junk L)

def acc3 (L : List (View.Piece (Elt F) S2048x64 .f32)) : Vec F S2048x64 .f32 :=
  VS3_0.read (Elt F) (VS3_0.writes (Elt F) VS3_0.junk L)

section
variable (c : Dev nD) (i : grid3.Coords) (arg2 : Memref sig .tc .vmem S2048x1024 .bf16) (harg2 : arg2.IsWhole) (arg3 : Memref sig .tc .vmem S1024x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)

-- The pieces each case writes tile the whole block, so reading them back forgets what was there before.
theorem scover3_A_0 (hc0 : cond3_0 i) (hc1 : ¬cond3_1 i)
    (x0 : Vec F S2048x1024 .bf16) (x1 : Vec F S1024x64 .f32) (x2 : Vec F S1x64 .f32) :
    ∀ y : S2048x64.Idx, ∃ pc ∈ (kernelRun3_A c i arg2 harg2 arg3 harg3 arg4 harg4 arg5 harg5 arg6 harg6 hc0 hc1 x0 x1 x2).2.1, y ∈ pc.1.set :=
  View.cover_of_tiledL _ S2048x64.size (by sl_kernel_rfl)

theorem scover3_B_0 (hc0 : ¬cond3_0 i) (hc1 : ¬cond3_1 i)
    (x0 : Vec F S2048x1024 .bf16) (x1 : Vec F S1024x64 .f32) (x2 : Vec F S1x64 .f32) (xs0 : Vec F S2048x64 .f32) :
    ∀ y : S2048x64.Idx, ∃ pc ∈ (kernelRun3_B c i arg2 harg2 arg3 harg3 arg4 harg4 arg5 harg5 arg6 harg6 hc0 hc1 x0 x1 x2 xs0).2.1, y ∈ pc.1.set :=
  View.cover_of_tiledL _ S2048x64.size (by sl_kernel_rfl)

theorem cover3_C_3 (hc0 : ¬cond3_0 i) (hc1 : cond3_1 i)
    (x0 : Vec F S2048x1024 .bf16) (x1 : Vec F S1024x64 .f32) (x2 : Vec F S1x64 .f32) (xs0 : Vec F S2048x64 .f32) :
    ∀ y : S2048x64.Idx, ∃ pc ∈ (kernelRun3_C c i arg2 harg2 arg3 harg3 arg4 harg4 arg5 harg5 arg6 harg6 hc0 hc1 x0 x1 x2 xs0).1, y ∈ pc.1.set :=
  View.cover_of_tiledL _ S2048x64.size (by sl_kernel_rfl)

theorem scover3_C_0 (hc0 : ¬cond3_0 i) (hc1 : cond3_1 i)
    (x0 : Vec F S2048x1024 .bf16) (x1 : Vec F S1024x64 .f32) (x2 : Vec F S1x64 .f32) (xs0 : Vec F S2048x64 .f32) :
    ∀ y : S2048x64.Idx, ∃ pc ∈ (kernelRun3_C c i arg2 harg2 arg3 harg3 arg4 harg4 arg5 harg5 arg6 harg6 hc0 hc1 x0 x1 x2 xs0).2.1, y ∈ pc.1.set :=
  View.cover_of_tiledL _ S2048x64.size (by sl_kernel_rfl)

end

-- The body's three control cases at grid point `t`: the first, a middle and the last column block of a row block.
def runA3 (c : Dev nD) (t : Fin cfg3.N) (h0 : t.val % 8 = 0) (h1 : ¬t.val % 8 = 7) :=
  kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)

def runB3 (c : Dev nD) (t : Fin cfg3.N) (h0 : ¬t.val % 8 = 0) (h1 : ¬t.val % 8 = 7) (xs0 : Vec F S2048x64 .f32) :=
  kernelRun3_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) xs0

def runC3 (c : Dev nD) (t : Fin cfg3.N) (h0 : ¬t.val % 8 = 0) (h1 : t.val % 8 = 7) (xs0 : Vec F S2048x64 .f32) :=
  kernelRun3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) xs0

-- Output block and accumulator after point `n`: the case `n % 8` selects, over the accumulator point `n - 1` left.
def outsAt3 (c : Dev nD) : (n : ℕ) → n < cfg3.N → Vec F S2048x64 .f32 × Vec F S2048x64 .f32
  | 0, hn => (out3 (runA3 V c ⟨0, hn⟩ (Nat.zero_mod _) (by (try dsimp only); omega)).1, acc3 (runA3 V c ⟨0, hn⟩ (Nat.zero_mod _) (by (try dsimp only); omega)).2.1)
  | n + 1, hn =>
    if h0 : (n + 1) % 8 = 0 then
      if h1 : (n + 1) % 8 = 7 then
        False.elim (by omega)
      else
        (out3 (runA3 V c ⟨n + 1, hn⟩ h0 h1).1, acc3 (runA3 V c ⟨n + 1, hn⟩ h0 h1).2.1)
    else
      if h1 : (n + 1) % 8 = 7 then
        (out3 (runC3 V c ⟨n + 1, hn⟩ h0 h1 (outsAt3 c n (Nat.lt_of_succ_lt hn)).2).1, acc3 (runC3 V c ⟨n + 1, hn⟩ h0 h1 (outsAt3 c n (Nat.lt_of_succ_lt hn)).2).2.1)
      else
        (out3 (runB3 V c ⟨n + 1, hn⟩ h0 h1 (outsAt3 c n (Nat.lt_of_succ_lt hn)).2).1, acc3 (runB3 V c ⟨n + 1, hn⟩ h0 h1 (outsAt3 c n (Nat.lt_of_succ_lt hn)).2).2.1)

theorem outsAt3_A (c : Dev nD) (t : Fin cfg3.N) (h0 : t.val % 8 = 0) (h1 : ¬t.val % 8 = 7) :
    outsAt3 V c t.val t.isLt = (out3 (runA3 V c t h0 h1).1, acc3 (runA3 V c t h0 h1).2.1) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3 (runB3 V c t h0 h1 (outsAt3 V c (t.val - 1) (Nat.lt_of_le_of_lt (Nat.sub_le _ _) t.isLt)).2).1, acc3 (runB3 V c t h0 h1 (outsAt3 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3 (runC3 V c t h0 h1 (outsAt3 V c (t.val - 1) (Nat.lt_of_le_of_lt (Nat.sub_le _ _) t.isLt)).2).1, acc3 (runC3 V c t h0 h1 (outsAt3 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

-- The region invariant: from the second point on the accumulator holds what the point before left in it.
def PhiS3 (c : Dev nD) : (n : ℕ) → n ≤ cfg3.N → sProp 𝕄
  | 0, _ => Pipeline.ΦA spec3 c
  | n + 1, hn => iprop(iprop(owns c scM3_0 fullShare ((outsAt3 V c n hn).2) ∗ others3 (F := F) c) ∗ (∃ r, prngReg c r))

theorem PhiS3_pos (c : Dev nD) (n : ℕ) (h : n ≤ cfg3.N) (hz : n ≠ 0) :
    PhiS3 V c n h = iprop(iprop(owns c scM3_0 fullShare ((outsAt3 V c (n - 1) (by omega)).2) ∗ others3 (F := F) c) ∗ (∃ r, prngReg c r)) := by
  cases n with
  | zero => exact absurd rfl hz
  | succ n => rfl

-- Forgetting the accumulator's contents gives the entry form back.
theorem PhiS3_any (c : Dev nD) (n : ℕ) (h : n ≤ cfg3.N) : PhiS3 V c n h ⊢ Pipeline.ΦA spec3 c := by
  cases n with
  | zero => exact Entails.refl _
  | succ n =>
    rw [PhiS3, PhiA3_eq]
    iintro ⟨⟨HS0, HR⟩, Hg⟩
    iframe HR Hg
    iexists _; iexact HS0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem leaves3_0 (c : Dev nD) (t : Fin cfg3.N) :
    (dat3 V c).leavesExact 0 t = owns c (ms3_0 t) fullShare (iblk3 V c 0 t) := by
  rw [← after3_0 V c t]

theorem leaves3_1 (c : Dev nD) (t : Fin cfg3.N) :
    (dat3 V c).leavesExact 1 t = owns c (ms3_1 t) fullShare (iblk3 V c 1 t) := by
  rw [← after3_1 V c t]

theorem leaves3_2 (c : Dev nD) (t : Fin cfg3.N) :
    (dat3 V c).leavesExact 2 t = owns c (ms3_2 t) fullShare (iblk3 V c 2 t) := by
  rw [← after3_2 V c t]

def bodyPre3 (c : Dev nD) (t : Fin cfg3.N) : sProp 𝕄 :=
  iprop((dat3 V c).Φ t.castSucc ∗ (dat3 V c).owesAt () t.castSucc
    ∗ (∃ d, owns c (ms3_0 t) fullShare ((dat3 V c).before 0 t d))
    ∗ (∃ d, owns c (ms3_1 t) fullShare ((dat3 V c).before 1 t d))
    ∗ (∃ d, owns c (ms3_2 t) fullShare ((dat3 V c).before 2 t d))
    ∗ (∃ d, owns c (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

-- The body at any point: `t % 8` picks the case, its run is framed by the invariant and the windows' blocks.
set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3, leaves3_0 V c t, leaves3_1 V c t, leaves3_2 V c t, PhiS3_castSucc V c t]
  have hN : t.val < 32 := lt_of_lt_of_eq t.isLt (show cfg3.N = 32 from N_3)
  by_cases h0 : t.val % 8 = 0
  · by_cases h1 : t.val % 8 = 7
    · exfalso; omega
    · rw [Dat.leavesExact_idle (dat3 V c) 3 t (idleAt3_3 t h1) (noFlush3_3 t h1)]
      rw [outsAt3_A V c t h0 h1]
      unfold acc3; (try dsimp only)
      refine (sep_mono_left (PhiS3_any V c _ _)).trans ?_
      rw [PhiA3_eq]
      iintro ⟨⟨⟨HS0, HR⟩, Hg⟩, Ho, ⟨%d0, H0⟩, ⟨%d1, H1⟩, ⟨%d2, H2⟩, ⟨%d3, H3⟩⟩
      iapply ((runA3 V c t h0 h1).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover3_A_0 c _ _ _ _ _ _ _ _ _ _ _ _ _ _ _ _)
      iexists _; iexact H3
  · by_cases h1 : t.val % 8 = 7
    · rw [show (dat3 V c).leavesExact 3 t = owns c (ms3_3 t) fullShare ((dat3 V c).after 3 t) from by
        unfold Dat.leavesExact; rw [liveAt3_3 t h1], after3_3]
      rw [outsAt3_C V c t h0 h1]
      unfold out3 acc3; (try dsimp only)
      by_cases hz : t.val = 0
      · exfalso; omega
      · rw [PhiS3_pos V c _ _ hz]
        iintro ⟨⟨⟨HS0, HR⟩, Hg⟩, Ho, ⟨%d0, H0⟩, ⟨%d1, H1⟩, ⟨%d2, H2⟩, ⟨%d3, H3⟩⟩
        iapply ((runC3 V c t h0 h1 _).2.2 Set.univ _)
        iframe H0 H1 H2 HS0
        isplitl [H3]; · iexists _; iexact H3
        iintro ⟨H0, H1, H2, ⟨%e3, H3⟩, ⟨%es0, HS0⟩⟩
        iframe HR Hg Ho H0 H1 H2
        isplitl [HS0]
        · unfold owns; iexists _; isplitr
          swap; · iexact HS0
          ipureintro; exact View.read_writes_of_cover _ _ _ _ _ (scover3_C_0 c _ _ _ _ _ _ _ _ _ _ _ _ _ _ _ _ _)
        unfold owns; iexists _; isplitr
        swap; · iexact H3
        ipureintro; exact View.read_writes_of_cover _ _ _ _ _ (cover3_C_3 c _ _ _ _ _ _ _ _ _ _ _ _ _ _ _ _ _)
    · rw [Dat.leavesExact_idle (dat3 V c) 3 t (idleAt3_3 t h1) (noFlush3_3 t h1)]
      rw [outsAt3_B V c t h0 h1]
      unfold acc3; (try dsimp only)
      by_cases hz : t.val = 0
      · exfalso; omega
      · rw [PhiS3_pos V c _ _ hz]
        iintro ⟨⟨⟨HS0, HR⟩, Hg⟩, Ho, ⟨%d0, H0⟩, ⟨%d1, H1⟩, ⟨%d2, H2⟩, ⟨%d3, H3⟩⟩
        iapply ((runB3 V c t h0 h1 _).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover3_B_0 c _ _ _ _ _ _ _ _ _ _ _ _ _ _ _ _ _)
        iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  Entails.refl _

theorem hout3 (c : Dev nD) : (dat3 V c).Φ (Fin.last cfg3.N) ⊢ Pipeline.ΦA spec3 c :=
  PhiS3_any V c _ (Nat.le_of_lt_succ (Fin.last cfg3.N).isLt)

end Cert.Kernel.Gen

end
-- ==== Proof.K.Fold.lean ====
import proofs.«408232_j82188494176334_2_alg».proof.Proof.K.Reg0
import proofs.«408232_j82188494176334_2_alg».proof.Proof.K.Reg1
import proofs.«408232_j82188494176334_2_alg».proof.Proof.K.Reg2
import proofs.«408232_j82188494176334_2_alg».proof.Proof.K.Reg3

set_option maxRecDepth 16384

noncomputable section

namespace Cert.Kernel.Gen

open Idealize.ShloMosaic Idealize.ShloMosaic.TcCoe Idealize.SL.Sem
open Idealize.ShloMosaic.Pipeline (Dat)

variable {F : FTy → Type} [FloatOps F]

-- A line whose operations each write one reference of a list keeps every reference outside the list.
theorem kept {ops : List (HloOp τ sig (Elt F))} {W : List (Ref sig .tc)}
    (h : ops.map HloOp.writes = W.map fun r => {Proc.devRef (τ := τ) .tc r}) (V : Valuation τ sig (Elt F))
    {r : Ref sig .tc} (hr : r ∉ W) : StableHlo.after ops V (Proc.devRef .tc r) = V (Proc.devRef .tc r) :=
  StableHlo.after_of_writes_sub ops V (List.forall_iff_forall_mem.mpr fun op hop => by
    obtain ⟨y, hy, e⟩ := List.mem_map.mp (h ▸ List.mem_map_of_mem (f := HloOp.writes) hop)
    exact e ▸ Finset.singleton_subset_iff.mpr (List.mem_toFinset.mpr (List.mem_map_of_mem hy))) hr

abbrev hostOps0_wrote : List (Ref sig .tc) := [main_v0, main_v1, main_v2, main_v3, main_v4, main_v5, main_v6, main_v7, main_v8, main_v9, main_v10, main_v11, main_v12, main_v13, main_v14, main_v15, main_v16, main_v17]
abbrev hostOps1_wrote : List (Ref sig .tc) := [main_v19, main_v20, main_v21, main_v22, main_v23, main_v24, main_v25, main_v26, main_v27, main_v28, main_v29, main_v30, main_v31, main_v32, main_v33, main_v34, main_cst, main_v35, main_cst_0, main_v36, main_v37, main_v38, main_cst_1, main_v39, main_v40, main_cst_2, main_v41, main_v42, main_v43, main_cst_3]
abbrev hostOps1_1_wrote : List (Ref sig .tc) := [main_call0_v0, main_call0_v1, main_v44]
abbrev hostOps1_2_wrote : List (Ref sig .tc) := [main_c, main_v45, main_v46, main_c_4, main_v47, main_v48, main_v49, main_v50, main_v51, main_c_5, main_v52, main_v53, main_c_6, main_v54, main_v55, main_v56, main_v57, main_v58, main_v59, main_cst_7, main_v60, main_c_8, main_v61, main_v62, main_c_9, main_v63, main_v64, main_v65, main_c_10, main_v66, main_v67, main_c_11, main_v68, main_v69, main_v70, main_v71, main_v72, main_v73, main_v74, main_v75, main_v76, main_v77]
abbrev hostOps2_wrote : List (Ref sig .tc) := [main_v79, main_v80]
abbrev hostOps3_wrote : List (Ref sig .tc) := [main_v82, main_v83]

abbrev noTables : (p : Fin 4) → (pcfgs (F := F) p).Adm := fun p => (cfgs p).toPCfg_adm
abbrev atTc (W : Dev nD → Valuation τ sig (Elt F)) : (c : Dev nD) → (b : Ref sig .tc) → Buf (Elt F) ((c : Thread nD τ).loc b) :=
  fun c b => W c b

section Region
variable (p : Fin 4) (d : (c : Dev nD) → Dat τ (Elt F) Unit ℕ (UR sig nD τ) ℕ (Pipeline.pin (pcfgs (F := F)) noTables p) c)
  (V : Dev nD → Valuation τ sig (Elt F)) (c : Dev nD)

local notation "cfgₚ" => Pipeline.pin (pcfgs (F := F)) noTables p

-- A region's exit contents: its window arrays at their final contents, every other buffer as entered.
def exitW : Valuation τ sig (Elt F) := Pipeline.withArrays (cfgₚ).spec c (V c) fun w => (d c).arrAt w (cfgₚ).N

theorem exitW_arr (lf : Pipeline.LaunchFacts (nD := nD) (τ := τ) cfgs p) (w : Fin (cfgₚ).W) :
    exitW p d V c (Proc.devRef .tc (Pipeline.arrRef (cfgₚ).spec w)) = (d c).arrAt w (cfgₚ).N :=
  Pipeline.withArrays_arr (cfgₚ).spec lf.win.arr_inj c _ _ w

theorem exitW_of_ne (b : Ref sig .tc) (hb : ∀ w, Pipeline.arrRef (cfgₚ).spec w ≠ b) :
    exitW p d V c (Proc.devRef .tc b) = V c (Proc.devRef .tc b) :=
  Pipeline.withArrays_of_ne (cfgₚ).spec c _ _ b hb

end Region

variable (m : (ℓ : Loc nD τ sig) → Buf (Elt F) ℓ) (ρ : Dev nD → PrngReg)

abbrev W0 : Dev nD → Valuation τ sig (Elt F) := fun c b => (s₀ m ρ).mem ((c : Dev nD), b)
abbrev W1 := fun c => StableHlo.after hostOps0 (W0 m ρ c)
abbrev V1 := atTc (W1 m ρ)
abbrev W2 := exitW 0 (dat0 (V1 m ρ)) (W1 m ρ)
abbrev W3 := fun c => StableHlo.after hostOps1 (W2 m ρ c)
abbrev W4 := fun c => StableHlo.after hostOps1_1 (W3 m ρ c)
abbrev W5 := fun c => StableHlo.after hostOps1_2 (W4 m ρ c)
abbrev V5 := atTc (W5 m ρ)
abbrev W6 := exitW 1 (dat1 (V5 m ρ)) (W5 m ρ)
abbrev W7 := fun c => StableHlo.after hostOps2 (W6 m ρ c)
abbrev V7 := atTc (W7 m ρ)
abbrev W8 := exitW 2 (dat2 (V7 m ρ)) (W7 m ρ)
abbrev W9 := fun c => StableHlo.after hostOps3 (W8 m ρ c)
abbrev V9 : (c : Dev nD) → (b : Ref sig .tc) → Buf (Elt F) ((c : Thread nD τ).loc b) := fun c b => W9 m ρ c b
abbrev W10 := exitW 3 (dat3 (V9 m ρ)) (W9 m ρ)

-- A reference that is unscoped, that no stretch writes and that no region has among its window arrays.
abbrev Free (r : Ref sig .tc) : Prop :=
  ¬ (Proc.devRef .tc r : DevRef τ sig).isScoped ∧ r ∉ hostOps0_wrote ∧ (∀ w, Pipeline.arrRef spec0 w ≠ r) ∧ r ∉ hostOps1_wrote
    ∧ r ∉ hostOps1_1_wrote ∧ r ∉ hostOps1_2_wrote ∧ (∀ w, Pipeline.arrRef spec1 w ≠ r) ∧ r ∉ hostOps2_wrote
    ∧ (∀ w, Pipeline.arrRef spec2 w ≠ r) ∧ r ∉ hostOps3_wrote ∧ ∀ w, Pipeline.arrRef spec3 w ≠ r

-- Such a reference holds its launch contents at every region's exit: the boundaries walked back one by one.
theorem free (r : Ref sig .tc) (h : Free r) (c : Dev nD) :
    W2 m ρ c (Proc.devRef .tc r) = W0 m ρ c (Proc.devRef .tc r) ∧ W4 m ρ c (Proc.devRef .tc r) = W0 m ρ c (Proc.devRef .tc r)
      ∧ W6 m ρ c (Proc.devRef .tc r) = W0 m ρ c (Proc.devRef .tc r) ∧ W8 m ρ c (Proc.devRef .tc r) = W0 m ρ c (Proc.devRef .tc r)
      ∧ W10 m ρ c (Proc.devRef .tc r) = W0 m ρ c (Proc.devRef .tc r) := by
  obtain ⟨-, h0, a0, h1, h11, h12, a1, h2, a2, h3, a3⟩ := h
  have e2 : W2 m ρ c (Proc.devRef .tc r) = _ := (exitW_of_ne 0 _ _ c r a0).trans (kept rfl _ h0)
  have e4 : W4 m ρ c (Proc.devRef .tc r) = _ := (kept rfl _ h11).trans ((kept rfl _ h1).trans e2)
  have e6 : W6 m ρ c (Proc.devRef .tc r) = _ := (exitW_of_ne 1 _ _ c r a1).trans ((kept rfl _ h12).trans e4)
  have e8 : W8 m ρ c (Proc.devRef .tc r) = _ := (exitW_of_ne 2 _ _ c r a2).trans ((kept rfl _ h2).trans e6)
  exact ⟨e2, e4, e6, e8, (exitW_of_ne 3 _ _ c r a3).trans ((kept rfl _ h3).trans e8)⟩

end Cert.Kernel.Gen

end
-- ==== Proof.K.Run.lean ====
import proofs.«408232_j82188494176334_2_alg».proof.Proof.K.Fold

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

def dataAt : (p : Fin 4) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V5 m ρ) c
  | ⟨2, _⟩ => fun c => dat2 (V7 m ρ) c
  | ⟨3, _⟩ => fun c => dat3 (V9 m ρ) c
abbrev noVariants : Variants := Variants.none
abbrev noPairs : GSem nD τ sig → Finset Unit := fun _ => ∅
abbrev lvl0 : GSem nD τ sig → Unit → ℕ := fun _ _ => 0
abbrev riding (c : Dev nD) : sProp 𝕄 := iprop((∃ r, prngReg c r) ∗ ∃ W, owes (c : Thread nD τ) (0 : CellTallies nD τ sig Unit) W)
-- Between two items a core holds every unscoped buffer at the boundary's contents, its generator register, and owes nothing.
abbrev between (W : Dev nD → Valuation τ sig (Elt F)) (c : Dev nD) : sProp 𝕄 :=
  iprop(StableHlo.held (c : Thread nD τ) (Pipeline.ucRefs τ sig) (W c) ∗ riding c)

abbrev hostStretch (ops : List (HloOp τ sig (Elt F))) (hsub : ops.Forall fun op => op.bufs ⊆ StableHlo.tcRefs τ sig)
    (hfresh : ops.map HloOp.fresh = ops.map fun _ => ∅) (W : Dev nD → Valuation τ sig (Elt F)) :
    Pipeline.HostSeg (Name := ℕ) (U := UR sig nD τ) (pcfgs (F := F)) defs₀ noVariants noPairs lvl0 :=
  Pipeline.HostSeg.ofOps _ _ _ _ _ (Pipeline.ucRefs τ sig) ops
    (fun op h => Pipeline.sub_ucRefs op ((List.forall_iff_forall_mem.mp hsub) op h))
    (List.map_inj_left.mp hfresh) W riding

section Region

variable (p : Fin 4)
  (pd : (p : Fin 4) → (c : Dev nD) → Dat τ (Elt F) Unit ℕ (UR sig nD τ) ℕ (Pipeline.pin (pcfgs (F := F)) noTables p) c)
  (Win : Dev nD → Valuation τ sig (Elt F))

local notation "cfgₚ" => Pipeline.pin (pcfgs (F := F)) noTables p

set_option backward.isDefEq.respectTransparency.types false in
-- A region as a segment from `between Win` to `between` its exit contents: at entry its arrays are split out of the unscoped buffers, at exit put back.
def regionOver (lf : Pipeline.LaunchFacts (nD := nD) (τ := τ) cfgs p)
    (hA : ∀ c w, (pd p c).A w = atTc Win c (Pipeline.arrRef (cfgₚ).spec w))
    (hbody : ∀ c, BodyObligation (pd p c) (defs₀ (F := F)) Variants.none () Set.univ)
    (hΦin : ∀ c, (Pipeline.ΦA (cfgₚ).spec c : sProp 𝕄) ⊢ (pd p c).Φ 0)
    (hΦout : ∀ c, (pd p c).Φ (Fin.last (cfgₚ).N) ⊢ (Pipeline.ΦA (cfgₚ).spec c : sProp 𝕄))
    (hq : ∀ c w, (pd p c).q w = fullShare := by exact fun _ _ => rfl)
    (howed : ∀ c t, (pd p c).owed t = 0 := by exact fun _ _ => rfl)
    (hrec : ∀ c t, (pd p c).recorded t = Set.univ := by exact fun _ _ => rfl) :
    Pipeline.RegionSeg (pcfgs (F := F)) noTables pd () defs₀ noVariants noPairs lvl0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noPairs lvl0 p howed
  pre := between Win
  post := between (exitW p (pd p) Win)
  X c := iprop(∃ r, prngReg c r)
  Y c := iprop(∃ r, prngReg c r)
  Z c := Pipeline.unscopedRest (Ix := Unit) (Name := ℕ) (U := UR sig nD τ) (Lvl := ℕ) (cfgₚ).spec c (atTc Win c)
  hentry c := by
    rw [Pipeline.ownSems0_none]
    have hsplit := Pipeline.arrays_of_unscopedBufs (p := p) (pcfgs (F := F)) noTables pd lf.win lf.arr_whole c
      ((pd p c).share_full (hq c)) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    refine .trans ?_ (hΦin c)
    unfold Pipeline.ΦA
    iintro ⟨Hp, -, Hr⟩
    isplitl [Hr]; · iexact Hr
    iexact Hp
  hout c := by
    rw [Pipeline.ownSems0_none]
    refine .trans (hΦout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) noTables (Ix := Unit) (Name := ℕ) (U := UR sig nD τ) (Lvl := ℕ)
      lf.win lf.arr_whole c pd ((pd p c).share_full (hq c))
      (atTc Win c) (atTc (exitW p (pd p) Win) c) ((pd p c).arrAt · (cfgₚ).N) (fun w => (exitW_arr p (pd p) Win c lf w).symm)
      fun b hb => exitW_of_ne p (pd p) Win c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Region

set_option backward.isDefEq.respectTransparency.types false in
def reg : (p : Fin 4) → Pipeline.RegionSeg (pcfgs (F := F)) noTables (dataAt m ρ) () defs₀ noVariants noPairs lvl0 p
  | ⟨0, _⟩ => regionOver 0 (dataAt m ρ) (W1 m ρ) launch0 (A_eq0 (V1 m ρ)) (body_obligation0 (V1 m ρ)) (fun _ => .rfl) (fun _ => .rfl)
  | ⟨1, _⟩ => regionOver 1 (dataAt m ρ) (W5 m ρ) launch1 (A_eq1 (V5 m ρ)) (body_obligation1 (V5 m ρ)) (hin1 (V5 m ρ)) (hout1 (V5 m ρ))
  | ⟨2, _⟩ => regionOver 2 (dataAt m ρ) (W7 m ρ) launch2 (A_eq2 (V7 m ρ)) (body_obligation2 (V7 m ρ)) (hin2 (V7 m ρ)) (hout2 (V7 m ρ))
  | ⟨3, _⟩ => regionOver 3 (dataAt m ρ) (W9 m ρ) launch3 (A_eq3 (V9 m ρ)) (body_obligation3 (V9 m ρ)) (hin3 (V9 m ρ)) (hout3 (V9 m ρ))

abbrev mainSegs : List (Pipeline.Seg (pcfgs (F := F)) noTables (dataAt m ρ) () defs₀ noVariants noPairs lvl0) :=
  [ .host (hostStretch hostOps0 hostOps0_sub rfl (W0 m ρ)),
    .region (reg m ρ 0),
    .host (hostStretch hostOps1 hostOps1_sub rfl (W2 m ρ)),
    .host (hostStretch hostOps1_1 hostOps1_1_sub rfl (W3 m ρ)),
    .host (hostStretch hostOps1_2 hostOps1_2_sub rfl (W4 m ρ)),
    .region (reg m ρ 1),
    .host (hostStretch hostOps2 hostOps2_sub rfl (W6 m ρ)),
    .region (reg m ρ 2),
    .host (hostStretch hostOps3 hostOps3_sub rfl (W8 m ρ)),
    .region (reg m ρ 3) ]

theorem main_is_segs (c : Dev nD) : main (F := F) c = Pipeline.Seg.run (mainSegs m ρ) := by
  rw [main_chain c, Pipeline.Seg.run_eq_chain]
  rfl

abbrev endState (c : Dev nD) : sProp 𝕄 := iprop(StableHlo.held (c : Thread nD τ) (Pipeline.ucRefs τ sig) (W10 m ρ c) ∗ ∃ r, prngReg c r)

set_option backward.isDefEq.respectTransparency.types false in
-- The launch of the ten segments: every weakly fair run of @main ends, nothing faulting, in a memory with any property that follows from every unscoped buffer holding its `W10` contents.
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W10 m ρ c b) → Q (⟨⟩, s)) :
    θ_run defs (onTc (τ := τ) (main (F := F))) ⟨m, fun _ => 0, ρ⟩ Q :=
  Pipeline.θ_run_regions_kit (pcfgs (F := F)) noTables (dataAt m ρ) () cellOf_inj emb₁ defs₀ noVariants noPairs lvl0 m ρ main (mainSegs m ρ)
    (fun c Q => by rw [main_is_segs m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (W0 m ρ)) (Tₙ := endState m ρ)
    (hch := ⟨fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach noPairs lvl0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

theorem run_value : θ_run defs (onTc (τ := τ) (main (F := F))) ⟨m, fun _ => 0, ρ⟩ (fun r => ∀ c : Dev nD,
      r.2.mem ((c.tc : Thread nD τ).loc main_v84) = (dat3 (V9 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_post m ρ fun s h c => by
    have e (r : Ref sig .tc) (hr : ¬ (Proc.devRef .tc r : DevRef τ sig).isScoped) :=
      h c _ (Finset.mem_filter.mpr ⟨StableHlo.devRef_mem_tcRefs r, hr⟩)
    refine ⟨(e main_v84 (by decide)).trans (exitW_arr 3 _ _ c launch3 3), ?_⟩
    repeat' apply And.intro
    all_goals exact (e _ (by decide)).trans (free m ρ _ (by decide) c).2.2.2.2

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  (θ_run defs _ _).mono (fun _ h c => (h c).2) (run_value m ρ)

end Cert.Kernel.Gen

end
-- ==== Proof.KI.Reg0.lean ====
import proofs.«408232_j82188494176334_2_alg».proof.Proof.Gen.KernelIdeal.Launch
import proofs.«408232_j82188494176334_2_alg».proof.Proof.Gen.KernelIdeal.Skeleton
import proofs.«408232_j82188494176334_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem offsets_zero3 : (![0, 0, 0] : Fin 3 → Nat) = fun _ => 0 := funext fun a => by fin_cases a <;> rfl

abbrev wholeQ : Rect S4x64x16 := Rect.unit (s := S4x64x16) ![0, 0, 0] S4x64x16.size inb_S4x64x16_S4x64x16_0_0_0
abbrev wholeKV : Rect S4x8192x16 := Rect.unit (s := S4x8192x16) ![0, 0, 0] S4x8192x16.size inb_S4x8192x16_S4x8192x16_0_0_0

def out0_3 (x0 : Vec F S4x64x16 .f32) (x1 x2 : Vec F S4x8192x16 .f32) : Vec F S4x64x16 .f32 :=
  View.canon [⟨wholeQ, k0_pay1 (View.ld x0 wholeQ) (View.ld x1 wholeKV) (View.ld x2 wholeKV)⟩]

theorem cover0_3 (p0 : Vec F S4x64x16 .f32) (y : S4x64x16.Idx) :
    ∃ pc ∈ ([⟨wholeQ, p0⟩] : List (View.Piece (Elt F) S4x64x16 .f32)), y ∈ pc.1.set :=
  ⟨_, List.mem_singleton_self _, View.mem_set_unit_zero offsets_zero3 inb_S4x64x16_S4x64x16_0_0_0 y⟩

theorem out0_3_eq (x0 : Vec F S4x64x16 .f32) (x1 x2 : Vec F S4x8192x16 .f32) : out0_3 x0 x1 x2 = k0_pay1 x0 x1 x2 := by
  unfold out0_3
  rw [View.canon_unit_zero (S := S4x64x16) offsets_zero3]
  simp only [View.ld_unit_zero (S := S4x64x16) offsets_zero3, View.ld_unit_zero (S := S4x8192x16) offsets_zero3]

set_option maxHeartbeats 1000000 in
theorem sound_kernel0 (c : Dev nD) (E : Set ℕ) (i : grid0.Coords)
    (arg1 : Memref sig .tc .vmem S4x64x16 .f32) (harg1 : arg1.IsWhole) (arg2 : Memref sig .tc .vmem S4x8192x16 .f32) (harg2 : arg2.IsWhole)
    (arg3 : Memref sig .tc .vmem S4x8192x16 .f32) (harg3 : arg3.IsWhole) (arg4 : Memref sig .tc .vmem S4x64x16 .f32) (harg4 : arg4.IsWhole)
    (x0 : Vec F S4x64x16 .f32) (x1 x2 : Vec F S4x8192x16 .f32) (K : PUnit → sProp 𝕄) :
    iprop(owns c arg1 fullShare x0 ∗ owns c arg2 fullShare x1 ∗ owns c arg3 fullShare x2
        ∗ (∃ d, owns c arg4 fullShare d)
        ∗ (iprop(owns c arg1 fullShare x0 ∗ owns c arg2 fullShare x1 ∗ owns c arg3 fullShare x2
            ∗ owns c arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns c (st0_0 t) fullShare ((dat0 V c).before 0 t d))
    ∗ (∃ d, owns c (st0_1 t) fullShare ((dat0 V c).before 1 t d))
    ∗ (∃ d, owns c (st0_2 t) fullShare ((dat0 V c).before 2 t d))
    ∗ (∃ d, owns c (st0_3 t) fullShare ((dat0 V c).before 3 t d)))

def bodyPost0 (c : Dev nD) (t : Fin cfg0.N) : sProp 𝕄 :=
  iprop((dat0 V c).Φ t.succ ∗ (dat0 V c).owesAt () t.succ
    ∗ owns c (st0_0 t) fullShare ((dat0 V c).after 0 t)
    ∗ owns c (st0_1 t) fullShare ((dat0 V c).after 1 t)
    ∗ owns c (st0_2 t) fullShare ((dat0 V c).after 2 t)
    ∗ owns c (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  iframe H0 H1 H2
  isplitl [H3]; · iexists _; iexact H3
  iintro ⟨H0, H1, H2, H3⟩
  iframe HΦ Ho H0 H1 H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Reg1Runs.lean ====
import proofs.«408232_j82188494176334_2_alg».proof.Proof.Gen.KernelIdeal.Launch
import proofs.«408232_j82188494176334_2_alg».proof.Proof.Gen.KernelIdeal.Skeleton
import proofs.«408232_j82188494176334_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 := by decide +kernel

abbrev cond1_1 (i : grid1.Coords) : Prop := k1_cond2 i = 1#1
theorem hcond1_1 : ∀ t : Fin cfg1.N, cond1_1 (grid1.coords t) ↔ t.val % 8 = 7 := by decide +kernel

theorem idleAt1_3 : ∀ t : Fin cfg1.N, t.val % 8 ≠ 7 → cfg1.idle 3 (grid1.coords t) = true := by decide +kernel
theorem noFlush1_3 : ∀ t : Fin cfg1.N, t.val % 8 ≠ 7 → (cfg1.win 3).flush t = false := by decide +kernel
theorem liveAt1_3 : ∀ t : Fin cfg1.N, t.val % 8 = 7 → cfg1.idle 3 (grid1.coords t) = false := by decide +kernel

abbrev VO1_3 : View sig .tc .vmem S2048x256 .f32 := (Memref.whole cc1_stg3_0 : Memref sig .tc .vmem S2048x256 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev scM1_0 : Memref sig .tc .vmem S2048x256 .f32 := Memref.whole cc1_scratch0
abbrev VS1_0 : View sig .tc .vmem S2048x256 .f32 := scM1_0.view

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns c scM1_0 fullShare d) ∗ others1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

-- A whole memref read at `x` is its buffer at the contents that read `x`.
private theorem owns_unread {sp : Space} {S : Shape} {e : EltTy} {a : Memref sig .tc sp S e} (ha : a.IsWhole) (c : Dev nD) (x : S.Idx → Elt F e) :
    (owns c a fullShare x : sProp 𝕄) = (a.view.loc c ↦[a.view.set]{fullShare} ha.unread x) := by
  have h₁ : (owns c a fullShare x : sProp 𝕄) ⊢ (a.view.loc c ↦[a.view.set]{fullShare} ha.unread x) := by
    unfold owns; iintro ⟨%f, %hf, H⟩; obtain rfl := ha.eq_unread hf; iexact H
  have h₂ : (a.view.loc c ↦[a.view.set]{fullShare} ha.unread x : sProp 𝕄) ⊢ owns c a fullShare x := by
    unfold owns; iintro H; iexists _; isplitr; · ipureintro; exact ha.read_unread _
    iexact H
  exact BI.equiv_iff.mp ⟨h₁, h₂⟩

variable (c : Dev nD) (i : grid1.Coords) (arg2 : Memref sig .tc .vmem S2048x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

-- One run of the body per control case, on whole memrefs: the inputs come back as they were, the stores as lists of pieces.
set_option maxHeartbeats 1000000 in
noncomputable def kernelRun1_A (hc0 : cond1_0 i) (hc1 : ¬cond1_1 i)
    (x0 : Vec F S2048x1024 .bf16) (x1 : Vec F S1024x256 .f32) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_unread harg2, owns_unread harg3, owns_unread harg4, owns_unread harg5]; unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

set_option maxHeartbeats 1000000 in
noncomputable def kernelRun1_B (hc0 : ¬cond1_0 i) (hc1 : ¬cond1_1 i)
    (x0 : Vec F S2048x1024 .bf16) (x1 : Vec F S1024x256 .f32) (x2 : Vec F S1x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_unread harg2, owns_unread harg3, owns_unread harg4, owns_unread harg5, owns_unread harg6]
    iintro ⟨H0, H1, H2, H3, HS0, Hk⟩
    sl_exec (disch := first | exact hc0 | exact hc1)
    sl_step
    iapply Hk
    iframe H0 H1 H2 H3
    iexists _; iexact HS0

set_option maxHeartbeats 1000000 in
noncomputable def kernelRun1_C (hc0 : ¬cond1_0 i) (hc1 : cond1_1 i)
    (x0 : Vec F S2048x1024 .bf16) (x1 : Vec F S1024x256 .f32) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    rw [owns_unread harg2, owns_unread harg3, owns_unread harg4, owns_unread harg6]; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.KernelIdeal.Gen

end
-- ==== Proof.KI.Reg1.lean ====
import proofs.«408232_j82188494176334_2_alg».proof.Proof.KI.Reg1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What a list of written pieces leaves in the output block, and (`acc1`) in the accumulator, read back whole.
def out1 (L : List (View.Piece (Elt F) S2048x256 .f32)) : Vec F S2048x256 .f32 :=
  VO1_3.read (Elt F) (VO1_3.writes (Elt F) VO1_3.junk L)

def acc1 (L : List (View.Piece (Elt F) S2048x256 .f32)) : Vec F S2048x256 .f32 :=
  VS1_0.read (Elt F) (VS1_0.writes (Elt F) VS1_0.junk L)

section
variable (c : Dev nD) (i : grid1.Coords) (arg2 : Memref sig .tc .vmem S2048x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

-- The pieces each case writes tile the whole block, so reading them back forgets what was there before.
theorem scover1_A_0 (hc0 : cond1_0 i) (hc1 : ¬cond1_1 i)
    (x0 : Vec F S2048x1024 .bf16) (x1 : Vec F S1024x256 .f32) (x2 : Vec F S1x256 .f32) :
    ∀ y : S2048x256.Idx, ∃ pc ∈ (kernelRun1_A c i arg2 harg2 arg3 harg3 arg4 harg4 arg5 harg5 arg6 harg6 hc0 hc1 x0 x1 x2).2.1, y ∈ pc.1.set :=
  View.cover_of_tiledL _ S2048x256.size (by sl_kernel_rfl)

theorem scover1_B_0 (hc0 : ¬cond1_0 i) (hc1 : ¬cond1_1 i)
    (x0 : Vec F S2048x1024 .bf16) (x1 : Vec F S1024x256 .f32) (x2 : Vec F S1x256 .f32) (xs0 : Vec F S2048x256 .f32) :
    ∀ y : S2048x256.Idx, ∃ pc ∈ (kernelRun1_B c i arg2 harg2 arg3 harg3 arg4 harg4 arg5 harg5 arg6 harg6 hc0 hc1 x0 x1 x2 xs0).2.1, y ∈ pc.1.set :=
  View.cover_of_tiledL _ S2048x256.size (by sl_kernel_rfl)

theorem cover1_C_3 (hc0 : ¬cond1_0 i) (hc1 : cond1_1 i)
    (x0 : Vec F S2048x1024 .bf16) (x1 : Vec F S1024x256 .f32) (x2 : Vec F S1x256 .f32) (xs0 : Vec F S2048x256 .f32) :
    ∀ y : S2048x256.Idx, ∃ pc ∈ (kernelRun1_C c i arg2 harg2 arg3 harg3 arg4 harg4 arg5 harg5 arg6 harg6 hc0 hc1 x0 x1 x2 xs0).1, y ∈ pc.1.set :=
  View.cover_of_tiledL _ S2048x256.size (by sl_kernel_rfl)

theorem scover1_C_0 (hc0 : ¬cond1_0 i) (hc1 : cond1_1 i)
    (x0 : Vec F S2048x1024 .bf16) (x1 : Vec F S1024x256 .f32) (x2 : Vec F S1x256 .f32) (xs0 : Vec F S2048x256 .f32) :
    ∀ y : S2048x256.Idx, ∃ pc ∈ (kernelRun1_C c i arg2 harg2 arg3 harg3 arg4 harg4 arg5 harg5 arg6 harg6 hc0 hc1 x0 x1 x2 xs0).2.1, y ∈ pc.1.set :=
  View.cover_of_tiledL _ S2048x256.size (by sl_kernel_rfl)

end

-- The body's three control cases at grid point `t`: the first, a middle and the last column block of a row block.
def runA1 (c : Dev nD) (t : Fin cfg1.N) (h0 : t.val % 8 = 0) (h1 : ¬t.val % 8 = 7) :=
  kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

def runB1 (c : Dev nD) (t : Fin cfg1.N) (h0 : ¬t.val % 8 = 0) (h1 : ¬t.val % 8 = 7) (xs0 : Vec F S2048x256 .f32) :=
  kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs0

def runC1 (c : Dev nD) (t : Fin cfg1.N) (h0 : ¬t.val % 8 = 0) (h1 : t.val % 8 = 7) (xs0 : Vec F S2048x256 .f32) :=
  kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs0

-- Output block and accumulator after point `n`: the case `n % 8` selects, over the accumulator point `n - 1` left.
def outsAt1 (c : Dev nD) : (n : ℕ) → n < cfg1.N → Vec F S2048x256 .f32 × Vec F S2048x256 .f32
  | 0, hn => (out1 (runA1 V c ⟨0, hn⟩ (Nat.zero_mod _) (by (try dsimp only); omega)).1, acc1 (runA1 V c ⟨0, hn⟩ (Nat.zero_mod _) (by (try dsimp only); omega)).2.1)
  | n + 1, hn =>
    if h0 : (n + 1) % 8 = 0 then
      if h1 : (n + 1) % 8 = 7 then
        False.elim (by omega)
      else
        (out1 (runA1 V c ⟨n + 1, hn⟩ h0 h1).1, acc1 (runA1 V c ⟨n + 1, hn⟩ h0 h1).2.1)
    else
      if h1 : (n + 1) % 8 = 7 then
        (out1 (runC1 V c ⟨n + 1, hn⟩ h0 h1 (outsAt1 c n (Nat.lt_of_succ_lt hn)).2).1, acc1 (runC1 V c ⟨n + 1, hn⟩ h0 h1 (outsAt1 c n (Nat.lt_of_succ_lt hn)).2).2.1)
      else
        (out1 (runB1 V c ⟨n + 1, hn⟩ h0 h1 (outsAt1 c n (Nat.lt_of_succ_lt hn)).2).1, acc1 (runB1 V c ⟨n + 1, hn⟩ h0 h1 (outsAt1 c n (Nat.lt_of_succ_lt hn)).2).2.1)

theorem outsAt1_A (c : Dev nD) (t : Fin cfg1.N) (h0 : t.val % 8 = 0) (h1 : ¬t.val % 8 = 7) :
    outsAt1 V c t.val t.isLt = (out1 (runA1 V c t h0 h1).1, acc1 (runA1 V c t h0 h1).2.1) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1 (runB1 V c t h0 h1 (outsAt1 V c (t.val - 1) (Nat.lt_of_le_of_lt (Nat.sub_le _ _) t.isLt)).2).1, acc1 (runB1 V c t h0 h1 (outsAt1 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1 (runC1 V c t h0 h1 (outsAt1 V c (t.val - 1) (Nat.lt_of_le_of_lt (Nat.sub_le _ _) t.isLt)).2).1, acc1 (runC1 V c t h0 h1 (outsAt1 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

-- The region invariant: from the second point on the accumulator holds what the point before left in it.
def PhiS1 (c : Dev nD) : (n : ℕ) → n ≤ cfg1.N → sProp 𝕄
  | 0, _ => Pipeline.ΦA spec1 c
  | n + 1, hn => iprop(iprop(owns c scM1_0 fullShare ((outsAt1 V c n hn).2) ∗ others1 (F := F) c) ∗ (∃ r, prngReg c r))

theorem PhiS1_pos (c : Dev nD) (n : ℕ) (h : n ≤ cfg1.N) (hz : n ≠ 0) :
    PhiS1 V c n h = iprop(iprop(owns c scM1_0 fullShare ((outsAt1 V c (n - 1) (by omega)).2) ∗ others1 (F := F) c) ∗ (∃ r, prngReg c r)) := by
  cases n with
  | zero => exact absurd rfl hz
  | succ n => rfl

-- Forgetting the accumulator's contents gives the entry form back.
theorem PhiS1_any (c : Dev nD) (n : ℕ) (h : n ≤ cfg1.N) : PhiS1 V c n h ⊢ Pipeline.ΦA spec1 c := by
  cases n with
  | zero => exact Entails.refl _
  | succ n =>
    rw [PhiS1, PhiA1_eq]
    iintro ⟨⟨HS0, HR⟩, Hg⟩
    iframe HR Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem leaves1_0 (c : Dev nD) (t : Fin cfg1.N) :
    (dat1 V c).leavesExact 0 t = owns c (ms1_0 t) fullShare (iblk1 V c 0 t) := by
  rw [← after1_0 V c t]

theorem leaves1_1 (c : Dev nD) (t : Fin cfg1.N) :
    (dat1 V c).leavesExact 1 t = owns c (ms1_1 t) fullShare (iblk1 V c 1 t) := by
  rw [← after1_1 V c t]

theorem leaves1_2 (c : Dev nD) (t : Fin cfg1.N) :
    (dat1 V c).leavesExact 2 t = owns c (ms1_2 t) fullShare (iblk1 V c 2 t) := by
  rw [← after1_2 V c t]

def bodyPre1 (c : Dev nD) (t : Fin cfg1.N) : sProp 𝕄 :=
  iprop((dat1 V c).Φ t.castSucc ∗ (dat1 V c).owesAt () t.castSucc
    ∗ (∃ d, owns c (ms1_0 t) fullShare ((dat1 V c).before 0 t d))
    ∗ (∃ d, owns c (ms1_1 t) fullShare ((dat1 V c).before 1 t d))
    ∗ (∃ d, owns c (ms1_2 t) fullShare ((dat1 V c).before 2 t d))
    ∗ (∃ d, owns c (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- The body at any point: `t % 8` picks the case, its run is framed by the invariant and the windows' blocks.
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1, leaves1_0 V c t, leaves1_1 V c t, leaves1_2 V c t, PhiS1_castSucc V c t]
  have hN : t.val < 32 := lt_of_lt_of_eq t.isLt (show cfg1.N = 32 from N_1)
  by_cases h0 : t.val % 8 = 0
  · by_cases h1 : t.val % 8 = 7
    · exfalso; omega
    · rw [Dat.leavesExact_idle (dat1 V c) 3 t (idleAt1_3 t h1) (noFlush1_3 t h1)]
      rw [outsAt1_A V c t h0 h1]
      unfold acc1; (try dsimp only)
      refine (sep_mono_left (PhiS1_any V c _ _)).trans ?_
      rw [PhiA1_eq]
      iintro ⟨⟨⟨HS0, HR⟩, Hg⟩, Ho, ⟨%d0, H0⟩, ⟨%d1, H1⟩, ⟨%d2, H2⟩, ⟨%d3, H3⟩⟩
      iapply ((runA1 V c t h0 h1).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_A_0 c _ _ _ _ _ _ _ _ _ _ _ _ _ _ _ _)
      iexists _; iexact H3
  · by_cases h1 : t.val % 8 = 7
    · rw [show (dat1 V c).leavesExact 3 t = owns c (ms1_3 t) fullShare ((dat1 V c).after 3 t) from by
        unfold Dat.leavesExact; rw [liveAt1_3 t h1], after1_3]
      rw [outsAt1_C V c t h0 h1]
      unfold out1 acc1; (try dsimp only)
      by_cases hz : t.val = 0
      · exfalso; omega
      · rw [PhiS1_pos V c _ _ hz]
        iintro ⟨⟨⟨HS0, HR⟩, Hg⟩, Ho, ⟨%d0, H0⟩, ⟨%d1, H1⟩, ⟨%d2, H2⟩, ⟨%d3, H3⟩⟩
        iapply ((runC1 V c t h0 h1 _).2.2 Set.univ _)
        iframe H0 H1 H2 HS0
        isplitl [H3]; · iexists _; iexact H3
        iintro ⟨H0, H1, H2, ⟨%e3, H3⟩, ⟨%es0, HS0⟩⟩
        iframe HR Hg Ho H0 H1 H2
        isplitl [HS0]
        · unfold owns; iexists _; isplitr
          swap; · iexact HS0
          ipureintro; exact View.read_writes_of_cover _ _ _ _ _ (scover1_C_0 c _ _ _ _ _ _ _ _ _ _ _ _ _ _ _ _ _)
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t h1) (noFlush1_3 t h1)]
      rw [outsAt1_B V c t h0 h1]
      unfold acc1; (try dsimp only)
      by_cases hz : t.val = 0
      · exfalso; omega
      · rw [PhiS1_pos V c _ _ hz]
        iintro ⟨⟨⟨HS0, HR⟩, Hg⟩, Ho, ⟨%d0, H0⟩, ⟨%d1, H1⟩, ⟨%d2, H2⟩, ⟨%d3, H3⟩⟩
        iapply ((runB1 V c t h0 h1 _).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_B_0 c _ _ _ _ _ _ _ _ _ _ _ _ _ _ _ _ _)
        iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Entails.refl _

theorem hout1 (c : Dev nD) : (dat1 V c).Φ (Fin.last cfg1.N) ⊢ Pipeline.ΦA spec1 c :=
  PhiS1_any V c _ (Nat.le_of_lt_succ (Fin.last cfg1.N).isLt)

end Cert.KernelIdeal.Gen

end
-- ==== Proof.KI.Reg2Runs.lean ====
import proofs.«408232_j82188494176334_2_alg».proof.Proof.Gen.KernelIdeal.Launch
import proofs.«408232_j82188494176334_2_alg».proof.Proof.Gen.KernelIdeal.Skeleton
import proofs.«408232_j82188494176334_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 := by decide +kernel

abbrev cond2_1 (i : grid2.Coords) : Prop := k2_cond2 i = 1#1
theorem hcond2_1 : ∀ t : Fin cfg2.N, cond2_1 (grid2.coords t) ↔ t.val % 8 = 7 := by decide +kernel

theorem idleAt2_3 : ∀ t : Fin cfg2.N, t.val % 8 ≠ 7 → cfg2.idle 3 (grid2.coords t) = true := by decide +kernel
theorem noFlush2_3 : ∀ t : Fin cfg2.N, t.val % 8 ≠ 7 → (cfg2.win 3).flush t = false := by decide +kernel
theorem liveAt2_3 : ∀ t : Fin cfg2.N, t.val % 8 = 7 → cfg2.idle 3 (grid2.coords t) = false := by decide +kernel

abbrev VO2_3 : View sig .tc .vmem S2048x256 .f32 := (Memref.whole cc2_stg3_0 : Memref sig .tc .vmem S2048x256 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
abbrev scM2_0 : Memref sig .tc .vmem S2048x256 .f32 := Memref.whole cc2_scratch0
abbrev VS2_0 : View sig .tc .vmem S2048x256 .f32 := scM2_0.view

abbrev others2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns c scM2_0 fullShare d) ∗ others2 (F := F) c) ∗ (∃ r, prngReg c r)) := by
  unfold Pipeline.ΦA
  rw [Pipeline.scopedRest_split_of_list spec2 c [cc2_scratch0] (by decide) (by decide)]
  simp only [bigSepL_singleton, scM2_0, owns_whole]; try rfl

-- A whole memref read at `x` is its buffer at the contents that read `x`.
private theorem owns_unread {sp : Space} {S : Shape} {e : EltTy} {a : Memref sig .tc sp S e} (ha : a.IsWhole) (c : Dev nD) (x : S.Idx → Elt F e) :
    (owns c a fullShare x : sProp 𝕄) = (a.view.loc c ↦[a.view.set]{fullShare} ha.unread x) := by
  have h₁ : (owns c a fullShare x : sProp 𝕄) ⊢ (a.view.loc c ↦[a.view.set]{fullShare} ha.unread x) := by
    unfold owns; iintro ⟨%f, %hf, H⟩; obtain rfl := ha.eq_unread hf; iexact H
  have h₂ : (a.view.loc c ↦[a.view.set]{fullShare} ha.unread x : sProp 𝕄) ⊢ owns c a fullShare x := by
    unfold owns; iintro H; iexists _; isplitr; · ipureintro; exact ha.read_unread _
    iexact H
  exact BI.equiv_iff.mp ⟨h₁, h₂⟩

variable (c : Dev nD) (i : grid2.Coords) (arg2 : Memref sig .tc .vmem S2048x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

-- One run of the body per control case, on whole memrefs: the inputs come back as they were, the stores as lists of pieces.
set_option maxHeartbeats 1000000 in
noncomputable def kernelRun2_A (hc0 : cond2_0 i) (hc1 : ¬cond2_1 i)
    (x0 : Vec F S2048x1024 .bf16) (x1 : Vec F S1024x256 .f32) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    rw [owns_unread harg2, owns_unread harg3, owns_unread harg4, owns_unread harg5]; unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

set_option maxHeartbeats 1000000 in
noncomputable def kernelRun2_B (hc0 : ¬cond2_0 i) (hc1 : ¬cond2_1 i)
    (x0 : Vec F S2048x1024 .bf16) (x1 : Vec F S1024x256 .f32) (x2 : Vec F S1x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    rw [owns_unread harg2, owns_unread harg3, owns_unread harg4, owns_unread harg5, owns_unread harg6]
    iintro ⟨H0, H1, H2, H3, HS0, Hk⟩
    sl_exec (disch := first | exact hc0 | exact hc1)
    sl_step
    iapply Hk
    iframe H0 H1 H2 H3
    iexists _; iexact HS0

set_option maxHeartbeats 1000000 in
noncomputable def kernelRun2_C (hc0 : ¬cond2_0 i) (hc1 : cond2_1 i)
    (x0 : Vec F S2048x1024 .bf16) (x1 : Vec F S1024x256 .f32) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    rw [owns_unread harg2, owns_unread harg3, owns_unread harg4, owns_unread harg6]; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.KernelIdeal.Gen

end
-- ==== Proof.KI.Reg2.lean ====
import proofs.«408232_j82188494176334_2_alg».proof.Proof.KI.Reg2Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What a list of written pieces leaves in the output block, and (`acc2`) in the accumulator, read back whole.
def out2 (L : List (View.Piece (Elt F) S2048x256 .f32)) : Vec F S2048x256 .f32 :=
  VO2_3.read (Elt F) (VO2_3.writes (Elt F) VO2_3.junk L)

def acc2 (L : List (View.Piece (Elt F) S2048x256 .f32)) : Vec F S2048x256 .f32 :=
  VS2_0.read (Elt F) (VS2_0.writes (Elt F) VS2_0.junk L)

section
variable (c : Dev nD) (i : grid2.Coords) (arg2 : Memref sig .tc .vmem S2048x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

-- The pieces each case writes tile the whole block, so reading them back forgets what was there before.
theorem scover2_A_0 (hc0 : cond2_0 i) (hc1 : ¬cond2_1 i)
    (x0 : Vec F S2048x1024 .bf16) (x1 : Vec F S1024x256 .f32) (x2 : Vec F S1x256 .f32) :
    ∀ y : S2048x256.Idx, ∃ pc ∈ (kernelRun2_A c i arg2 harg2 arg3 harg3 arg4 harg4 arg5 harg5 arg6 harg6 hc0 hc1 x0 x1 x2).2.1, y ∈ pc.1.set :=
  View.cover_of_tiledL _ S2048x256.size (by sl_kernel_rfl)

theorem scover2_B_0 (hc0 : ¬cond2_0 i) (hc1 : ¬cond2_1 i)
    (x0 : Vec F S2048x1024 .bf16) (x1 : Vec F S1024x256 .f32) (x2 : Vec F S1x256 .f32) (xs0 : Vec F S2048x256 .f32) :
    ∀ y : S2048x256.Idx, ∃ pc ∈ (kernelRun2_B c i arg2 harg2 arg3 harg3 arg4 harg4 arg5 harg5 arg6 harg6 hc0 hc1 x0 x1 x2 xs0).2.1, y ∈ pc.1.set :=
  View.cover_of_tiledL _ S2048x256.size (by sl_kernel_rfl)

theorem cover2_C_3 (hc0 : ¬cond2_0 i) (hc1 : cond2_1 i)
    (x0 : Vec F S2048x1024 .bf16) (x1 : Vec F S1024x256 .f32) (x2 : Vec F S1x256 .f32) (xs0 : Vec F S2048x256 .f32) :
    ∀ y : S2048x256.Idx, ∃ pc ∈ (kernelRun2_C c i arg2 harg2 arg3 harg3 arg4 harg4 arg5 harg5 arg6 harg6 hc0 hc1 x0 x1 x2 xs0).1, y ∈ pc.1.set :=
  View.cover_of_tiledL _ S2048x256.size (by sl_kernel_rfl)

theorem scover2_C_0 (hc0 : ¬cond2_0 i) (hc1 : cond2_1 i)
    (x0 : Vec F S2048x1024 .bf16) (x1 : Vec F S1024x256 .f32) (x2 : Vec F S1x256 .f32) (xs0 : Vec F S2048x256 .f32) :
    ∀ y : S2048x256.Idx, ∃ pc ∈ (kernelRun2_C c i arg2 harg2 arg3 harg3 arg4 harg4 arg5 harg5 arg6 harg6 hc0 hc1 x0 x1 x2 xs0).2.1, y ∈ pc.1.set :=
  View.cover_of_tiledL _ S2048x256.size (by sl_kernel_rfl)

end

-- The body's three control cases at grid point `t`: the first, a middle and the last column block of a row block.
def runA2 (c : Dev nD) (t : Fin cfg2.N) (h0 : t.val % 8 = 0) (h1 : ¬t.val % 8 = 7) :=
  kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)

def runB2 (c : Dev nD) (t : Fin cfg2.N) (h0 : ¬t.val % 8 = 0) (h1 : ¬t.val % 8 = 7) (xs0 : Vec F S2048x256 .f32) :=
  kernelRun2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs0

def runC2 (c : Dev nD) (t : Fin cfg2.N) (h0 : ¬t.val % 8 = 0) (h1 : t.val % 8 = 7) (xs0 : Vec F S2048x256 .f32) :=
  kernelRun2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0

-- Output block and accumulator after point `n`: the case `n % 8` selects, over the accumulator point `n - 1` left.
def outsAt2 (c : Dev nD) : (n : ℕ) → n < cfg2.N → Vec F S2048x256 .f32 × Vec F S2048x256 .f32
  | 0, hn => (out2 (runA2 V c ⟨0, hn⟩ (Nat.zero_mod _) (by (try dsimp only); omega)).1, acc2 (runA2 V c ⟨0, hn⟩ (Nat.zero_mod _) (by (try dsimp only); omega)).2.1)
  | n + 1, hn =>
    if h0 : (n + 1) % 8 = 0 then
      if h1 : (n + 1) % 8 = 7 then
        False.elim (by omega)
      else
        (out2 (runA2 V c ⟨n + 1, hn⟩ h0 h1).1, acc2 (runA2 V c ⟨n + 1, hn⟩ h0 h1).2.1)
    else
      if h1 : (n + 1) % 8 = 7 then
        (out2 (runC2 V c ⟨n + 1, hn⟩ h0 h1 (outsAt2 c n (Nat.lt_of_succ_lt hn)).2).1, acc2 (runC2 V c ⟨n + 1, hn⟩ h0 h1 (outsAt2 c n (Nat.lt_of_succ_lt hn)).2).2.1)
      else
        (out2 (runB2 V c ⟨n + 1, hn⟩ h0 h1 (outsAt2 c n (Nat.lt_of_succ_lt hn)).2).1, acc2 (runB2 V c ⟨n + 1, hn⟩ h0 h1 (outsAt2 c n (Nat.lt_of_succ_lt hn)).2).2.1)

theorem outsAt2_A (c : Dev nD) (t : Fin cfg2.N) (h0 : t.val % 8 = 0) (h1 : ¬t.val % 8 = 7) :
    outsAt2 V c t.val t.isLt = (out2 (runA2 V c t h0 h1).1, acc2 (runA2 V c t h0 h1).2.1) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2 (runB2 V c t h0 h1 (outsAt2 V c (t.val - 1) (Nat.lt_of_le_of_lt (Nat.sub_le _ _) t.isLt)).2).1, acc2 (runB2 V c t h0 h1 (outsAt2 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2 (runC2 V c t h0 h1 (outsAt2 V c (t.val - 1) (Nat.lt_of_le_of_lt (Nat.sub_le _ _) t.isLt)).2).1, acc2 (runC2 V c t h0 h1 (outsAt2 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

-- The region invariant: from the second point on the accumulator holds what the point before left in it.
def PhiS2 (c : Dev nD) : (n : ℕ) → n ≤ cfg2.N → sProp 𝕄
  | 0, _ => Pipeline.ΦA spec2 c
  | n + 1, hn => iprop(iprop(owns c scM2_0 fullShare ((outsAt2 V c n hn).2) ∗ others2 (F := F) c) ∗ (∃ r, prngReg c r))

theorem PhiS2_pos (c : Dev nD) (n : ℕ) (h : n ≤ cfg2.N) (hz : n ≠ 0) :
    PhiS2 V c n h = iprop(iprop(owns c scM2_0 fullShare ((outsAt2 V c (n - 1) (by omega)).2) ∗ others2 (F := F) c) ∗ (∃ r, prngReg c r)) := by
  cases n with
  | zero => exact absurd rfl hz
  | succ n => rfl

-- Forgetting the accumulator's contents gives the entry form back.
theorem PhiS2_any (c : Dev nD) (n : ℕ) (h : n ≤ cfg2.N) : PhiS2 V c n h ⊢ Pipeline.ΦA spec2 c := by
  cases n with
  | zero => exact Entails.refl _
  | succ n =>
    rw [PhiS2, PhiA2_eq]
    iintro ⟨⟨HS0, HR⟩, Hg⟩
    iframe HR Hg
    iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem leaves2_0 (c : Dev nD) (t : Fin cfg2.N) :
    (dat2 V c).leavesExact 0 t = owns c (ms2_0 t) fullShare (iblk2 V c 0 t) := by
  rw [← after2_0 V c t]

theorem leaves2_1 (c : Dev nD) (t : Fin cfg2.N) :
    (dat2 V c).leavesExact 1 t = owns c (ms2_1 t) fullShare (iblk2 V c 1 t) := by
  rw [← after2_1 V c t]

theorem leaves2_2 (c : Dev nD) (t : Fin cfg2.N) :
    (dat2 V c).leavesExact 2 t = owns c (ms2_2 t) fullShare (iblk2 V c 2 t) := by
  rw [← after2_2 V c t]

def bodyPre2 (c : Dev nD) (t : Fin cfg2.N) : sProp 𝕄 :=
  iprop((dat2 V c).Φ t.castSucc ∗ (dat2 V c).owesAt () t.castSucc
    ∗ (∃ d, owns c (ms2_0 t) fullShare ((dat2 V c).before 0 t d))
    ∗ (∃ d, owns c (ms2_1 t) fullShare ((dat2 V c).before 1 t d))
    ∗ (∃ d, owns c (ms2_2 t) fullShare ((dat2 V c).before 2 t d))
    ∗ (∃ d, owns c (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

-- The body at any point: `t % 8` picks the case, its run is framed by the invariant and the windows' blocks.
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2, leaves2_0 V c t, leaves2_1 V c t, leaves2_2 V c t, PhiS2_castSucc V c t]
  have hN : t.val < 32 := lt_of_lt_of_eq t.isLt (show cfg2.N = 32 from N_2)
  by_cases h0 : t.val % 8 = 0
  · by_cases h1 : t.val % 8 = 7
    · exfalso; omega
    · rw [Dat.leavesExact_idle (dat2 V c) 3 t (idleAt2_3 t h1) (noFlush2_3 t h1)]
      rw [outsAt2_A V c t h0 h1]
      unfold acc2; (try dsimp only)
      refine (sep_mono_left (PhiS2_any V c _ _)).trans ?_
      rw [PhiA2_eq]
      iintro ⟨⟨⟨HS0, HR⟩, Hg⟩, Ho, ⟨%d0, H0⟩, ⟨%d1, H1⟩, ⟨%d2, H2⟩, ⟨%d3, H3⟩⟩
      iapply ((runA2 V c t h0 h1).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover2_A_0 c _ _ _ _ _ _ _ _ _ _ _ _ _ _ _ _)
      iexists _; iexact H3
  · by_cases h1 : t.val % 8 = 7
    · rw [show (dat2 V c).leavesExact 3 t = owns c (ms2_3 t) fullShare ((dat2 V c).after 3 t) from by
        unfold Dat.leavesExact; rw [liveAt2_3 t h1], after2_3]
      rw [outsAt2_C V c t h0 h1]
      unfold out2 acc2; (try dsimp only)
      by_cases hz : t.val = 0
      · exfalso; omega
      · rw [PhiS2_pos V c _ _ hz]
        iintro ⟨⟨⟨HS0, HR⟩, Hg⟩, Ho, ⟨%d0, H0⟩, ⟨%d1, H1⟩, ⟨%d2, H2⟩, ⟨%d3, H3⟩⟩
        iapply ((runC2 V c t h0 h1 _).2.2 Set.univ _)
        iframe H0 H1 H2 HS0
        isplitl [H3]; · iexists _; iexact H3
        iintro ⟨H0, H1, H2, ⟨%e3, H3⟩, ⟨%es0, HS0⟩⟩
        iframe HR Hg Ho H0 H1 H2
        isplitl [HS0]
        · unfold owns; iexists _; isplitr
          swap; · iexact HS0
          ipureintro; exact View.read_writes_of_cover _ _ _ _ _ (scover2_C_0 c _ _ _ _ _ _ _ _ _ _ _ _ _ _ _ _ _)
        unfold owns; iexists _; isplitr
        swap; · iexact H3
        ipureintro; exact View.read_writes_of_cover _ _ _ _ _ (cover2_C_3 c _ _ _ _ _ _ _ _ _ _ _ _ _ _ _ _ _)
    · rw [Dat.leavesExact_idle (dat2 V c) 3 t (idleAt2_3 t h1) (noFlush2_3 t h1)]
      rw [outsAt2_B V c t h0 h1]
      unfold acc2; (try dsimp only)
      by_cases hz : t.val = 0
      · exfalso; omega
      · rw [PhiS2_pos V c _ _ hz]
        iintro ⟨⟨⟨HS0, HR⟩, Hg⟩, Ho, ⟨%d0, H0⟩, ⟨%d1, H1⟩, ⟨%d2, H2⟩, ⟨%d3, H3⟩⟩
        iapply ((runB2 V c t h0 h1 _).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover2_B_0 c _ _ _ _ _ _ _ _ _ _ _ _ _ _ _ _ _)
        iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 :=
  Entails.refl _

theorem hout2 (c : Dev nD) : (dat2 V c).Φ (Fin.last cfg2.N) ⊢ Pipeline.ΦA spec2 c :=
  PhiS2_any V c _ (Nat.le_of_lt_succ (Fin.last cfg2.N).isLt)

end Cert.KernelIdeal.Gen

end
-- ==== Proof.KI.Reg3Runs.lean ====
import proofs.«408232_j82188494176334_2_alg».proof.Proof.Gen.KernelIdeal.Launch
import proofs.«408232_j82188494176334_2_alg».proof.Proof.Gen.KernelIdeal.Skeleton
import proofs.«408232_j82188494176334_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 := by decide +kernel

abbrev cond3_1 (i : grid3.Coords) : Prop := k3_cond2 i = 1#1
theorem hcond3_1 : ∀ t : Fin cfg3.N, cond3_1 (grid3.coords t) ↔ t.val % 8 = 7 := by decide +kernel

theorem idleAt3_3 : ∀ t : Fin cfg3.N, t.val % 8 ≠ 7 → cfg3.idle 3 (grid3.coords t) = true := by decide +kernel
theorem noFlush3_3 : ∀ t : Fin cfg3.N, t.val % 8 ≠ 7 → (cfg3.win 3).flush t = false := by decide +kernel
theorem liveAt3_3 : ∀ t : Fin cfg3.N, t.val % 8 = 7 → cfg3.idle 3 (grid3.coords t) = false := by decide +kernel

abbrev VO3_3 : View sig .tc .vmem S2048x64 .f32 := (Memref.whole cc3_stg3_0 : Memref sig .tc .vmem S2048x64 .f32).view
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x64 .f32 := win3_3.stage (cfg3.slots t 3)
abbrev hs3_3 (t : Fin cfg3.N) : (ms3_3 t).IsWhole := hstage3_3 ((cfg3.slots t 3).cast nbuf3_3)
abbrev scM3_0 : Memref sig .tc .vmem S2048x64 .f32 := Memref.whole cc3_scratch0
abbrev VS3_0 : View sig .tc .vmem S2048x64 .f32 := scM3_0.view

abbrev others3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns c scM3_0 fullShare d) ∗ others3 (F := F) c) ∗ (∃ r, prngReg c r)) := by
  unfold Pipeline.ΦA
  rw [Pipeline.scopedRest_split_of_list spec3 c [cc3_scratch0] (by decide) (by decide)]
  simp only [bigSepL_singleton, scM3_0, owns_whole]; try rfl

-- A whole memref read at `x` is its buffer at the contents that read `x`.
private theorem owns_unread {sp : Space} {S : Shape} {e : EltTy} {a : Memref sig .tc sp S e} (ha : a.IsWhole) (c : Dev nD) (x : S.Idx → Elt F e) :
    (owns c a fullShare x : sProp 𝕄) = (a.view.loc c ↦[a.view.set]{fullShare} ha.unread x) := by
  have h₁ : (owns c a fullShare x : sProp 𝕄) ⊢ (a.view.loc c ↦[a.view.set]{fullShare} ha.unread x) := by
    unfold owns; iintro ⟨%f, %hf, H⟩; obtain rfl := ha.eq_unread hf; iexact H
  have h₂ : (a.view.loc c ↦[a.view.set]{fullShare} ha.unread x : sProp 𝕄) ⊢ owns c a fullShare x := by
    unfold owns; iintro H; iexists _; isplitr; · ipureintro; exact ha.read_unread _
    iexact H
  exact BI.equiv_iff.mp ⟨h₁, h₂⟩

variable (c : Dev nD) (i : grid3.Coords) (arg2 : Memref sig .tc .vmem S2048x1024 .bf16) (harg2 : arg2.IsWhole) (arg3 : Memref sig .tc .vmem S1024x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)

-- One run of the body per control case, on whole memrefs: the inputs come back as they were, the stores as lists of pieces.
set_option maxHeartbeats 1000000 in
noncomputable def kernelRun3_A (hc0 : cond3_0 i) (hc1 : ¬cond3_1 i)
    (x0 : Vec F S2048x1024 .bf16) (x1 : Vec F S1024x64 .f32) (x2 : Vec F S1x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    rw [owns_unread harg2, owns_unread harg3, owns_unread harg4, owns_unread harg5]; unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

set_option maxHeartbeats 1000000 in
noncomputable def kernelRun3_B (hc0 : ¬cond3_0 i) (hc1 : ¬cond3_1 i)
    (x0 : Vec F S2048x1024 .bf16) (x1 : Vec F S1024x64 .f32) (x2 : Vec F S1x64 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    rw [owns_unread harg2, owns_unread harg3, owns_unread harg4, owns_unread harg5, owns_unread harg6]
    iintro ⟨H0, H1, H2, H3, HS0, Hk⟩
    sl_exec (disch := first | exact hc0 | exact hc1)
    sl_step
    iapply Hk
    iframe H0 H1 H2 H3
    iexists _; iexact HS0

set_option maxHeartbeats 1000000 in
noncomputable def kernelRun3_C (hc0 : ¬cond3_0 i) (hc1 : cond3_1 i)
    (x0 : Vec F S2048x1024 .bf16) (x1 : Vec F S1024x64 .f32) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    rw [owns_unread harg2, owns_unread harg3, owns_unread harg4, owns_unread harg6]; unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.KernelIdeal.Gen

end
-- ==== Proof.KI.Reg3.lean ====
import proofs.«408232_j82188494176334_2_alg».proof.Proof.KI.Reg3Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- What a list of written pieces leaves in the output block, and (`acc3`) in the accumulator, read back whole.
def out3 (L : List (View.Piece (Elt F) S2048x64 .f32)) : Vec F S2048x64 .f32 :=
  VO3_3.read (Elt F) (VO3_3.writes (Elt F) VO3_3.junk L)

def acc3 (L : List (View.Piece (Elt F) S2048x64 .f32)) : Vec F S2048x64 .f32 :=
  VS3_0.read (Elt F) (VS3_0.writes (Elt F) VS3_0.junk L)

section
variable (c : Dev nD) (i : grid3.Coords) (arg2 : Memref sig .tc .vmem S2048x1024 .bf16) (harg2 : arg2.IsWhole) (arg3 : Memref sig .tc .vmem S1024x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)

-- The pieces each case writes tile the whole block, so reading them back forgets what was there before.
theorem scover3_A_0 (hc0 : cond3_0 i) (hc1 : ¬cond3_1 i)
    (x0 : Vec F S2048x1024 .bf16) (x1 : Vec F S1024x64 .f32) (x2 : Vec F S1x64 .f32) :
    ∀ y : S2048x64.Idx, ∃ pc ∈ (kernelRun3_A c i arg2 harg2 arg3 harg3 arg4 harg4 arg5 harg5 arg6 harg6 hc0 hc1 x0 x1 x2).2.1, y ∈ pc.1.set :=
  View.cover_of_tiledL _ S2048x64.size (by sl_kernel_rfl)

theorem scover3_B_0 (hc0 : ¬cond3_0 i) (hc1 : ¬cond3_1 i)
    (x0 : Vec F S2048x1024 .bf16) (x1 : Vec F S1024x64 .f32) (x2 : Vec F S1x64 .f32) (xs0 : Vec F S2048x64 .f32) :
    ∀ y : S2048x64.Idx, ∃ pc ∈ (kernelRun3_B c i arg2 harg2 arg3 harg3 arg4 harg4 arg5 harg5 arg6 harg6 hc0 hc1 x0 x1 x2 xs0).2.1, y ∈ pc.1.set :=
  View.cover_of_tiledL _ S2048x64.size (by sl_kernel_rfl)

theorem cover3_C_3 (hc0 : ¬cond3_0 i) (hc1 : cond3_1 i)
    (x0 : Vec F S2048x1024 .bf16) (x1 : Vec F S1024x64 .f32) (x2 : Vec F S1x64 .f32) (xs0 : Vec F S2048x64 .f32) :
    ∀ y : S2048x64.Idx, ∃ pc ∈ (kernelRun3_C c i arg2 harg2 arg3 harg3 arg4 harg4 arg5 harg5 arg6 harg6 hc0 hc1 x0 x1 x2 xs0).1, y ∈ pc.1.set :=
  View.cover_of_tiledL _ S2048x64.size (by sl_kernel_rfl)

theorem scover3_C_0 (hc0 : ¬cond3_0 i) (hc1 : cond3_1 i)
    (x0 : Vec F S2048x1024 .bf16) (x1 : Vec F S1024x64 .f32) (x2 : Vec F S1x64 .f32) (xs0 : Vec F S2048x64 .f32) :
    ∀ y : S2048x64.Idx, ∃ pc ∈ (kernelRun3_C c i arg2 harg2 arg3 harg3 arg4 harg4 arg5 harg5 arg6 harg6 hc0 hc1 x0 x1 x2 xs0).2.1, y ∈ pc.1.set :=
  View.cover_of_tiledL _ S2048x64.size (by sl_kernel_rfl)

end

-- The body's three control cases at grid point `t`: the first, a middle and the last column block of a row block.
def runA3 (c : Dev nD) (t : Fin cfg3.N) (h0 : t.val % 8 = 0) (h1 : ¬t.val % 8 = 7) :=
  kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)

def runB3 (c : Dev nD) (t : Fin cfg3.N) (h0 : ¬t.val % 8 = 0) (h1 : ¬t.val % 8 = 7) (xs0 : Vec F S2048x64 .f32) :=
  kernelRun3_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) xs0

def runC3 (c : Dev nD) (t : Fin cfg3.N) (h0 : ¬t.val % 8 = 0) (h1 : t.val % 8 = 7) (xs0 : Vec F S2048x64 .f32) :=
  kernelRun3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) xs0

-- Output block and accumulator after point `n`: the case `n % 8` selects, over the accumulator point `n - 1` left.
def outsAt3 (c : Dev nD) : (n : ℕ) → n < cfg3.N → Vec F S2048x64 .f32 × Vec F S2048x64 .f32
  | 0, hn => (out3 (runA3 V c ⟨0, hn⟩ (Nat.zero_mod _) (by (try dsimp only); omega)).1, acc3 (runA3 V c ⟨0, hn⟩ (Nat.zero_mod _) (by (try dsimp only); omega)).2.1)
  | n + 1, hn =>
    if h0 : (n + 1) % 8 = 0 then
      if h1 : (n + 1) % 8 = 7 then
        False.elim (by omega)
      else
        (out3 (runA3 V c ⟨n + 1, hn⟩ h0 h1).1, acc3 (runA3 V c ⟨n + 1, hn⟩ h0 h1).2.1)
    else
      if h1 : (n + 1) % 8 = 7 then
        (out3 (runC3 V c ⟨n + 1, hn⟩ h0 h1 (outsAt3 c n (Nat.lt_of_succ_lt hn)).2).1, acc3 (runC3 V c ⟨n + 1, hn⟩ h0 h1 (outsAt3 c n (Nat.lt_of_succ_lt hn)).2).2.1)
      else
        (out3 (runB3 V c ⟨n + 1, hn⟩ h0 h1 (outsAt3 c n (Nat.lt_of_succ_lt hn)).2).1, acc3 (runB3 V c ⟨n + 1, hn⟩ h0 h1 (outsAt3 c n (Nat.lt_of_succ_lt hn)).2).2.1)

theorem outsAt3_A (c : Dev nD) (t : Fin cfg3.N) (h0 : t.val % 8 = 0) (h1 : ¬t.val % 8 = 7) :
    outsAt3 V c t.val t.isLt = (out3 (runA3 V c t h0 h1).1, acc3 (runA3 V c t h0 h1).2.1) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3 (runB3 V c t h0 h1 (outsAt3 V c (t.val - 1) (Nat.lt_of_le_of_lt (Nat.sub_le _ _) t.isLt)).2).1, acc3 (runB3 V c t h0 h1 (outsAt3 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3 (runC3 V c t h0 h1 (outsAt3 V c (t.val - 1) (Nat.lt_of_le_of_lt (Nat.sub_le _ _) t.isLt)).2).1, acc3 (runC3 V c t h0 h1 (outsAt3 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

-- The region invariant: from the second point on the accumulator holds what the point before left in it.
def PhiS3 (c : Dev nD) : (n : ℕ) → n ≤ cfg3.N → sProp 𝕄
  | 0, _ => Pipeline.ΦA spec3 c
  | n + 1, hn => iprop(iprop(owns c scM3_0 fullShare ((outsAt3 V c n hn).2) ∗ others3 (F := F) c) ∗ (∃ r, prngReg c r))

theorem PhiS3_pos (c : Dev nD) (n : ℕ) (h : n ≤ cfg3.N) (hz : n ≠ 0) :
    PhiS3 V c n h = iprop(iprop(owns c scM3_0 fullShare ((outsAt3 V c (n - 1) (by omega)).2) ∗ others3 (F := F) c) ∗ (∃ r, prngReg c r)) := by
  cases n with
  | zero => exact absurd rfl hz
  | succ n => rfl

-- Forgetting the accumulator's contents gives the entry form back.
theorem PhiS3_any (c : Dev nD) (n : ℕ) (h : n ≤ cfg3.N) : PhiS3 V c n h ⊢ Pipeline.ΦA spec3 c := by
  cases n with
  | zero => exact Entails.refl _
  | succ n =>
    rw [PhiS3, PhiA3_eq]
    iintro ⟨⟨HS0, HR⟩, Hg⟩
    iframe HR Hg
    iexists _; iexact HS0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem leaves3_0 (c : Dev nD) (t : Fin cfg3.N) :
    (dat3 V c).leavesExact 0 t = owns c (ms3_0 t) fullShare (iblk3 V c 0 t) := by
  rw [← after3_0 V c t]

theorem leaves3_1 (c : Dev nD) (t : Fin cfg3.N) :
    (dat3 V c).leavesExact 1 t = owns c (ms3_1 t) fullShare (iblk3 V c 1 t) := by
  rw [← after3_1 V c t]

theorem leaves3_2 (c : Dev nD) (t : Fin cfg3.N) :
    (dat3 V c).leavesExact 2 t = owns c (ms3_2 t) fullShare (iblk3 V c 2 t) := by
  rw [← after3_2 V c t]

def bodyPre3 (c : Dev nD) (t : Fin cfg3.N) : sProp 𝕄 :=
  iprop((dat3 V c).Φ t.castSucc ∗ (dat3 V c).owesAt () t.castSucc
    ∗ (∃ d, owns c (ms3_0 t) fullShare ((dat3 V c).before 0 t d))
    ∗ (∃ d, owns c (ms3_1 t) fullShare ((dat3 V c).before 1 t d))
    ∗ (∃ d, owns c (ms3_2 t) fullShare ((dat3 V c).before 2 t d))
    ∗ (∃ d, owns c (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

-- The body at any point: `t % 8` picks the case, its run is framed by the invariant and the windows' blocks.
set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3, leaves3_0 V c t, leaves3_1 V c t, leaves3_2 V c t, PhiS3_castSucc V c t]
  have hN : t.val < 32 := lt_of_lt_of_eq t.isLt (show cfg3.N = 32 from N_3)
  by_cases h0 : t.val % 8 = 0
  · by_cases h1 : t.val % 8 = 7
    · exfalso; omega
    · rw [Dat.leavesExact_idle (dat3 V c) 3 t (idleAt3_3 t h1) (noFlush3_3 t h1)]
      rw [outsAt3_A V c t h0 h1]
      unfold acc3; (try dsimp only)
      refine (sep_mono_left (PhiS3_any V c _ _)).trans ?_
      rw [PhiA3_eq]
      iintro ⟨⟨⟨HS0, HR⟩, Hg⟩, Ho, ⟨%d0, H0⟩, ⟨%d1, H1⟩, ⟨%d2, H2⟩, ⟨%d3, H3⟩⟩
      iapply ((runA3 V c t h0 h1).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover3_A_0 c _ _ _ _ _ _ _ _ _ _ _ _ _ _ _ _)
      iexists _; iexact H3
  · by_cases h1 : t.val % 8 = 7
    · rw [show (dat3 V c).leavesExact 3 t = owns c (ms3_3 t) fullShare ((dat3 V c).after 3 t) from by
        unfold Dat.leavesExact; rw [liveAt3_3 t h1], after3_3]
      rw [outsAt3_C V c t h0 h1]
      unfold out3 acc3; (try dsimp only)
      by_cases hz : t.val = 0
      · exfalso; omega
      · rw [PhiS3_pos V c _ _ hz]
        iintro ⟨⟨⟨HS0, HR⟩, Hg⟩, Ho, ⟨%d0, H0⟩, ⟨%d1, H1⟩, ⟨%d2, H2⟩, ⟨%d3, H3⟩⟩
        iapply ((runC3 V c t h0 h1 _).2.2 Set.univ _)
        iframe H0 H1 H2 HS0
        isplitl [H3]; · iexists _; iexact H3
        iintro ⟨H0, H1, H2, ⟨%e3, H3⟩, ⟨%es0, HS0⟩⟩
        iframe HR Hg Ho H0 H1 H2
        isplitl [HS0]
        · unfold owns; iexists _; isplitr
          swap; · iexact HS0
          ipureintro; exact View.read_writes_of_cover _ _ _ _ _ (scover3_C_0 c _ _ _ _ _ _ _ _ _ _ _ _ _ _ _ _ _)
        unfold owns; iexists _; isplitr
        swap; · iexact H3
        ipureintro; exact View.read_writes_of_cover _ _ _ _ _ (cover3_C_3 c _ _ _ _ _ _ _ _ _ _ _ _ _ _ _ _ _)
    · rw [Dat.leavesExact_idle (dat3 V c) 3 t (idleAt3_3 t h1) (noFlush3_3 t h1)]
      rw [outsAt3_B V c t h0 h1]
      unfold acc3; (try dsimp only)
      by_cases hz : t.val = 0
      · exfalso; omega
      · rw [PhiS3_pos V c _ _ hz]
        iintro ⟨⟨⟨HS0, HR⟩, Hg⟩, Ho, ⟨%d0, H0⟩, ⟨%d1, H1⟩, ⟨%d2, H2⟩, ⟨%d3, H3⟩⟩
        iapply ((runB3 V c t h0 h1 _).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover3_B_0 c _ _ _ _ _ _ _ _ _ _ _ _ _ _ _ _ _)
        iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  Entails.refl _

theorem hout3 (c : Dev nD) : (dat3 V c).Φ (Fin.last cfg3.N) ⊢ Pipeline.ΦA spec3 c :=
  PhiS3_any V c _ (Nat.le_of_lt_succ (Fin.last cfg3.N).isLt)

end Cert.KernelIdeal.Gen

end
-- ==== Proof.KI.Fold.lean ====
import proofs.«408232_j82188494176334_2_alg».proof.Proof.KI.Reg0
import proofs.«408232_j82188494176334_2_alg».proof.Proof.KI.Reg1
import proofs.«408232_j82188494176334_2_alg».proof.Proof.KI.Reg2
import proofs.«408232_j82188494176334_2_alg».proof.Proof.KI.Reg3

set_option maxRecDepth 16384

noncomputable section

namespace Cert.KernelIdeal.Gen

open Idealize.ShloMosaic Idealize.ShloMosaic.TcCoe Idealize.SL.Sem
open Idealize.ShloMosaic.Pipeline (Dat)

variable {F : FTy → Type} [FloatOps F]

-- A line whose operations each write one reference of a list keeps every reference outside the list.
theorem kept {ops : List (HloOp τ sig (Elt F))} {W : List (Ref sig .tc)}
    (h : ops.map HloOp.writes = W.map fun r => {Proc.devRef (τ := τ) .tc r}) (V : Valuation τ sig (Elt F))
    {r : Ref sig .tc} (hr : r ∉ W) : StableHlo.after ops V (Proc.devRef .tc r) = V (Proc.devRef .tc r) :=
  StableHlo.after_of_writes_sub ops V (List.forall_iff_forall_mem.mpr fun op hop => by
    obtain ⟨y, hy, e⟩ := List.mem_map.mp (h ▸ List.mem_map_of_mem (f := HloOp.writes) hop)
    exact e ▸ Finset.singleton_subset_iff.mpr (List.mem_toFinset.mpr (List.mem_map_of_mem hy))) hr

abbrev hostOps0_wrote : List (Ref sig .tc) := [main_v0, main_v1, main_v2, main_v3, main_v4, main_v5, main_v6, main_v7, main_v8, main_v9, main_v10, main_v11, main_v12, main_v13, main_v14, main_v15, main_v16, main_v17]
abbrev hostOps1_wrote : List (Ref sig .tc) := [main_v19, main_v20, main_v21, main_v22, main_v23, main_v24, main_v25, main_v26, main_v27, main_v28, main_v29, main_v30, main_v31, main_v32, main_v33, main_v34, main_cst, main_v35, main_cst_0, main_v36, main_v37, main_v38, main_cst_1, main_v39, main_v40, main_cst_2, main_v41, main_v42, main_v43, main_cst_3]
abbrev hostOps1_1_wrote : List (Ref sig .tc) := [main_call0_v0, main_call0_v1, main_v44]
abbrev hostOps1_2_wrote : List (Ref sig .tc) := [main_c, main_v45, main_v46, main_c_4, main_v47, main_v48, main_v49, main_v50, main_v51, main_c_5, main_v52, main_v53, main_c_6, main_v54, main_v55, main_v56, main_v57, main_v58, main_v59, main_cst_7, main_v60, main_c_8, main_v61, main_v62, main_c_9, main_v63, main_v64, main_v65, main_c_10, main_v66, main_v67, main_c_11, main_v68, main_v69, main_v70, main_v71, main_v72, main_v73, main_v74, main_v75, main_v76, main_v77]
abbrev hostOps2_wrote : List (Ref sig .tc) := [main_v79, main_v80]
abbrev hostOps3_wrote : List (Ref sig .tc) := [main_v82, main_v83]

abbrev noTables : (p : Fin 4) → (pcfgs (F := F) p).Adm := fun p => (cfgs p).toPCfg_adm
abbrev atTc (W : Dev nD → Valuation τ sig (Elt F)) : (c : Dev nD) → (b : Ref sig .tc) → Buf (Elt F) ((c : Thread nD τ).loc b) :=
  fun c b => W c b

section Region
variable (p : Fin 4) (d : (c : Dev nD) → Dat τ (Elt F) Unit ℕ (UR sig nD τ) ℕ (Pipeline.pin (pcfgs (F := F)) noTables p) c)
  (V : Dev nD → Valuation τ sig (Elt F)) (c : Dev nD)

local notation "cfgₚ" => Pipeline.pin (pcfgs (F := F)) noTables p

-- A region's exit contents: its window arrays at their final contents, every other buffer as entered.
def exitW : Valuation τ sig (Elt F) := Pipeline.withArrays (cfgₚ).spec c (V c) fun w => (d c).arrAt w (cfgₚ).N

theorem exitW_arr (lf : Pipeline.LaunchFacts (nD := nD) (τ := τ) cfgs p) (w : Fin (cfgₚ).W) :
    exitW p d V c (Proc.devRef .tc (Pipeline.arrRef (cfgₚ).spec w)) = (d c).arrAt w (cfgₚ).N :=
  Pipeline.withArrays_arr (cfgₚ).spec lf.win.arr_inj c _ _ w

theorem exitW_of_ne (b : Ref sig .tc) (hb : ∀ w, Pipeline.arrRef (cfgₚ).spec w ≠ b) :
    exitW p d V c (Proc.devRef .tc b) = V c (Proc.devRef .tc b) :=
  Pipeline.withArrays_of_ne (cfgₚ).spec c _ _ b hb

end Region

variable (m : (ℓ : Loc nD τ sig) → Buf (Elt F) ℓ) (ρ : Dev nD → PrngReg)

abbrev W0 : Dev nD → Valuation τ sig (Elt F) := fun c b => (s₀ m ρ).mem ((c : Dev nD), b)
abbrev W1 := fun c => StableHlo.after hostOps0 (W0 m ρ c)
abbrev V1 := atTc (W1 m ρ)
abbrev W2 := exitW 0 (dat0 (V1 m ρ)) (W1 m ρ)
abbrev W3 := fun c => StableHlo.after hostOps1 (W2 m ρ c)
abbrev W4 := fun c => StableHlo.after hostOps1_1 (W3 m ρ c)
abbrev W5 := fun c => StableHlo.after hostOps1_2 (W4 m ρ c)
abbrev V5 := atTc (W5 m ρ)
abbrev W6 := exitW 1 (dat1 (V5 m ρ)) (W5 m ρ)
abbrev W7 := fun c => StableHlo.after hostOps2 (W6 m ρ c)
abbrev V7 := atTc (W7 m ρ)
abbrev W8 := exitW 2 (dat2 (V7 m ρ)) (W7 m ρ)
abbrev W9 := fun c => StableHlo.after hostOps3 (W8 m ρ c)
abbrev V9 : (c : Dev nD) → (b : Ref sig .tc) → Buf (Elt F) ((c : Thread nD τ).loc b) := fun c b => W9 m ρ c b
abbrev W10 := exitW 3 (dat3 (V9 m ρ)) (W9 m ρ)

-- A reference that is unscoped, that no stretch writes and that no region has among its window arrays.
abbrev Free (r : Ref sig .tc) : Prop :=
  ¬ (Proc.devRef .tc r : DevRef τ sig).isScoped ∧ r ∉ hostOps0_wrote ∧ (∀ w, Pipeline.arrRef spec0 w ≠ r) ∧ r ∉ hostOps1_wrote
    ∧ r ∉ hostOps1_1_wrote ∧ r ∉ hostOps1_2_wrote ∧ (∀ w, Pipeline.arrRef spec1 w ≠ r) ∧ r ∉ hostOps2_wrote
    ∧ (∀ w, Pipeline.arrRef spec2 w ≠ r) ∧ r ∉ hostOps3_wrote ∧ ∀ w, Pipeline.arrRef spec3 w ≠ r

-- Such a reference holds its launch contents at every region's exit: the boundaries walked back one by one.
theorem free (r : Ref sig .tc) (h : Free r) (c : Dev nD) :
    W2 m ρ c (Proc.devRef .tc r) = W0 m ρ c (Proc.devRef .tc r) ∧ W4 m ρ c (Proc.devRef .tc r) = W0 m ρ c (Proc.devRef .tc r)
      ∧ W6 m ρ c (Proc.devRef .tc r) = W0 m ρ c (Proc.devRef .tc r) ∧ W8 m ρ c (Proc.devRef .tc r) = W0 m ρ c (Proc.devRef .tc r)
      ∧ W10 m ρ c (Proc.devRef .tc r) = W0 m ρ c (Proc.devRef .tc r) := by
  obtain ⟨-, h0, a0, h1, h11, h12, a1, h2, a2, h3, a3⟩ := h
  have e2 : W2 m ρ c (Proc.devRef .tc r) = _ := (exitW_of_ne 0 _ _ c r a0).trans (kept rfl _ h0)
  have e4 : W4 m ρ c (Proc.devRef .tc r) = _ := (kept rfl _ h11).trans ((kept rfl _ h1).trans e2)
  have e6 : W6 m ρ c (Proc.devRef .tc r) = _ := (exitW_of_ne 1 _ _ c r a1).trans ((kept rfl _ h12).trans e4)
  have e8 : W8 m ρ c (Proc.devRef .tc r) = _ := (exitW_of_ne 2 _ _ c r a2).trans ((kept rfl _ h2).trans e6)
  exact ⟨e2, e4, e6, e8, (exitW_of_ne 3 _ _ c r a3).trans ((kept rfl _ h3).trans e8)⟩

end Cert.KernelIdeal.Gen

end
-- ==== Proof.KI.Run.lean ====
import proofs.«408232_j82188494176334_2_alg».proof.Proof.KI.Fold

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

def dataAt : (p : Fin 4) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V5 m ρ) c
  | ⟨2, _⟩ => fun c => dat2 (V7 m ρ) c
  | ⟨3, _⟩ => fun c => dat3 (V9 m ρ) c
abbrev noVariants : Variants := Variants.none
abbrev noPairs : GSem nD τ sig → Finset Unit := fun _ => ∅
abbrev lvl0 : GSem nD τ sig → Unit → ℕ := fun _ _ => 0
abbrev riding (c : Dev nD) : sProp 𝕄 := iprop((∃ r, prngReg c r) ∗ ∃ W, owes (c : Thread nD τ) (0 : CellTallies nD τ sig Unit) W)
-- Between two items a core holds every unscoped buffer at the boundary's contents, its generator register, and owes nothing.
abbrev between (W : Dev nD → Valuation τ sig (Elt F)) (c : Dev nD) : sProp 𝕄 :=
  iprop(StableHlo.held (c : Thread nD τ) (Pipeline.ucRefs τ sig) (W c) ∗ riding c)

abbrev hostStretch (ops : List (HloOp τ sig (Elt F))) (hsub : ops.Forall fun op => op.bufs ⊆ StableHlo.tcRefs τ sig)
    (hfresh : ops.map HloOp.fresh = ops.map fun _ => ∅) (W : Dev nD → Valuation τ sig (Elt F)) :
    Pipeline.HostSeg (Name := ℕ) (U := UR sig nD τ) (pcfgs (F := F)) defs₀ noVariants noPairs lvl0 :=
  Pipeline.HostSeg.ofOps _ _ _ _ _ (Pipeline.ucRefs τ sig) ops
    (fun op h => Pipeline.sub_ucRefs op ((List.forall_iff_forall_mem.mp hsub) op h))
    (List.map_inj_left.mp hfresh) W riding

section Region

variable (p : Fin 4)
  (pd : (p : Fin 4) → (c : Dev nD) → Dat τ (Elt F) Unit ℕ (UR sig nD τ) ℕ (Pipeline.pin (pcfgs (F := F)) noTables p) c)
  (Win : Dev nD → Valuation τ sig (Elt F))

local notation "cfgₚ" => Pipeline.pin (pcfgs (F := F)) noTables p

set_option backward.isDefEq.respectTransparency.types false in
-- A region as a segment from `between Win` to `between` its exit contents: at entry its arrays are split out of the unscoped buffers, at exit put back.
def regionOver (lf : Pipeline.LaunchFacts (nD := nD) (τ := τ) cfgs p)
    (hA : ∀ c w, (pd p c).A w = atTc Win c (Pipeline.arrRef (cfgₚ).spec w))
    (hbody : ∀ c, BodyObligation (pd p c) (defs₀ (F := F)) Variants.none () Set.univ)
    (hΦin : ∀ c, (Pipeline.ΦA (cfgₚ).spec c : sProp 𝕄) ⊢ (pd p c).Φ 0)
    (hΦout : ∀ c, (pd p c).Φ (Fin.last (cfgₚ).N) ⊢ (Pipeline.ΦA (cfgₚ).spec c : sProp 𝕄))
    (hq : ∀ c w, (pd p c).q w = fullShare := by exact fun _ _ => rfl)
    (howed : ∀ c t, (pd p c).owed t = 0 := by exact fun _ _ => rfl)
    (hrec : ∀ c t, (pd p c).recorded t = Set.univ := by exact fun _ _ => rfl) :
    Pipeline.RegionSeg (pcfgs (F := F)) noTables pd () defs₀ noVariants noPairs lvl0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noPairs lvl0 p howed
  pre := between Win
  post := between (exitW p (pd p) Win)
  X c := iprop(∃ r, prngReg c r)
  Y c := iprop(∃ r, prngReg c r)
  Z c := Pipeline.unscopedRest (Ix := Unit) (Name := ℕ) (U := UR sig nD τ) (Lvl := ℕ) (cfgₚ).spec c (atTc Win c)
  hentry c := by
    rw [Pipeline.ownSems0_none]
    have hsplit := Pipeline.arrays_of_unscopedBufs (p := p) (pcfgs (F := F)) noTables pd lf.win lf.arr_whole c
      ((pd p c).share_full (hq c)) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    refine .trans ?_ (hΦin c)
    unfold Pipeline.ΦA
    iintro ⟨Hp, -, Hr⟩
    isplitl [Hr]; · iexact Hr
    iexact Hp
  hout c := by
    rw [Pipeline.ownSems0_none]
    refine .trans (hΦout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) noTables (Ix := Unit) (Name := ℕ) (U := UR sig nD τ) (Lvl := ℕ)
      lf.win lf.arr_whole c pd ((pd p c).share_full (hq c))
      (atTc Win c) (atTc (exitW p (pd p) Win) c) ((pd p c).arrAt · (cfgₚ).N) (fun w => (exitW_arr p (pd p) Win c lf w).symm)
      fun b hb => exitW_of_ne p (pd p) Win c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Region

set_option backward.isDefEq.respectTransparency.types false in
def reg : (p : Fin 4) → Pipeline.RegionSeg (pcfgs (F := F)) noTables (dataAt m ρ) () defs₀ noVariants noPairs lvl0 p
  | ⟨0, _⟩ => regionOver 0 (dataAt m ρ) (W1 m ρ) launch0 (A_eq0 (V1 m ρ)) (body_obligation0 (V1 m ρ)) (fun _ => .rfl) (fun _ => .rfl)
  | ⟨1, _⟩ => regionOver 1 (dataAt m ρ) (W5 m ρ) launch1 (A_eq1 (V5 m ρ)) (body_obligation1 (V5 m ρ)) (hin1 (V5 m ρ)) (hout1 (V5 m ρ))
  | ⟨2, _⟩ => regionOver 2 (dataAt m ρ) (W7 m ρ) launch2 (A_eq2 (V7 m ρ)) (body_obligation2 (V7 m ρ)) (hin2 (V7 m ρ)) (hout2 (V7 m ρ))
  | ⟨3, _⟩ => regionOver 3 (dataAt m ρ) (W9 m ρ) launch3 (A_eq3 (V9 m ρ)) (body_obligation3 (V9 m ρ)) (hin3 (V9 m ρ)) (hout3 (V9 m ρ))

abbrev mainSegs : List (Pipeline.Seg (pcfgs (F := F)) noTables (dataAt m ρ) () defs₀ noVariants noPairs lvl0) :=
  [ .host (hostStretch hostOps0 hostOps0_sub rfl (W0 m ρ)),
    .region (reg m ρ 0),
    .host (hostStretch hostOps1 hostOps1_sub rfl (W2 m ρ)),
    .host (hostStretch hostOps1_1 hostOps1_1_sub rfl (W3 m ρ)),
    .host (hostStretch hostOps1_2 hostOps1_2_sub rfl (W4 m ρ)),
    .region (reg m ρ 1),
    .host (hostStretch hostOps2 hostOps2_sub rfl (W6 m ρ)),
    .region (reg m ρ 2),
    .host (hostStretch hostOps3 hostOps3_sub rfl (W8 m ρ)),
    .region (reg m ρ 3) ]

theorem main_is_segs (c : Dev nD) : main (F := F) c = Pipeline.Seg.run (mainSegs m ρ) := by
  rw [main_chain c, Pipeline.Seg.run_eq_chain]
  rfl

abbrev endState (c : Dev nD) : sProp 𝕄 := iprop(StableHlo.held (c : Thread nD τ) (Pipeline.ucRefs τ sig) (W10 m ρ c) ∗ ∃ r, prngReg c r)

set_option backward.isDefEq.respectTransparency.types false in
-- The launch of the ten segments: every weakly fair run of @main ends, nothing faulting, in a memory with any property that follows from every unscoped buffer holding its `W10` contents.
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W10 m ρ c b) → Q (⟨⟩, s)) :
    θ_run defs (onTc (τ := τ) (main (F := F))) ⟨m, fun _ => 0, ρ⟩ Q :=
  Pipeline.θ_run_regions_kit (pcfgs (F := F)) noTables (dataAt m ρ) () cellOf_inj emb₁ defs₀ noVariants noPairs lvl0 m ρ main (mainSegs m ρ)
    (fun c Q => by rw [main_is_segs m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (W0 m ρ)) (Tₙ := endState m ρ)
    (hch := ⟨fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach noPairs lvl0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

theorem run_value : θ_run defs (onTc (τ := τ) (main (F := F))) ⟨m, fun _ => 0, ρ⟩ (fun r => ∀ c : Dev nD,
      r.2.mem ((c.tc : Thread nD τ).loc main_v84) = (dat3 (V9 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_post m ρ fun s h c => by
    have e (r : Ref sig .tc) (hr : ¬ (Proc.devRef .tc r : DevRef τ sig).isScoped) :=
      h c _ (Finset.mem_filter.mpr ⟨StableHlo.devRef_mem_tcRefs r, hr⟩)
    refine ⟨(e main_v84 (by decide)).trans (exitW_arr 3 _ _ c launch3 3), ?_⟩
    repeat' apply And.intro
    all_goals exact (e _ (by decide)).trans (free m ρ _ (by decide) c).2.2.2.2

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  (θ_run defs _ _).mono (fun _ h c => (h c).2) (run_value m ρ)

end Cert.KernelIdeal.Gen

end
-- ==== Proof.Stages.lean ====
import proofs.«408232_j82188494176334_2_alg».proof.Proof.Gen.ReferenceIdeal

noncomputable section

namespace Cert.Stages

open Cert.ReferenceIdeal Cert.ReferenceIdeal.Gen Idealize.ShloMosaic Idealize.ShloMosaic.TcCoe

variable {F : FTy → Type} [FloatOps F]

def proj (x : FVec F S8192x256 .f32) (pw : FVec F S256x64 .f32) (pb : FVec F S64 .f32) (iw : FVec F S192x64 .f32)
    (ib : FVec F S192 .f32) : FVec F S8192x192 .f32 :=
  addf (Host.dotGeneral dot_S8192x64_S64x192_S8192x192_1_0_0_1_n_n none
      (addf (Host.dotGeneral dot_S8192x256_S256x64_S8192x64_1_0_0_1_n_n none x pw)
        (broadcastInDim S8192x64 ![0, 1] bcast_S1x64_S8192x64_0_1 (broadcastInDim S1x64 ![1] bcast_S64_S1x64_1 pb)))
      (transpose S64x192 [1, 0] iw transposes_S192x64_S64x192_1_0))
    (broadcastInDim S8192x192 ![0, 1] bcast_S1x192_S8192x192_0_1 (broadcastInDim S1x192 ![1] bcast_S192_S1x192_1 ib))

def headsQ (y : FVec F S8192x192 .f32) : FVec F S4x8192x16 .f32 :=
  transpose S4x8192x16 [1, 0, 2] (shapeCast _ (extractStridedSlice S8192x64 ![0, 0] y slices_S8192x192_S8192x64_0_0) shapeCasts_S8192x64_S8192x4x16) transposes_S8192x4x16_S4x8192x16_1_0_2
def headsK (y : FVec F S8192x192 .f32) : FVec F S4x8192x16 .f32 :=
  transpose S4x8192x16 [1, 0, 2] (shapeCast _ (extractStridedSlice S8192x64 ![0, 64] y slices_S8192x192_S8192x64_0_64) shapeCasts_S8192x64_S8192x4x16) transposes_S8192x4x16_S4x8192x16_1_0_2
def headsV (y : FVec F S8192x192 .f32) : FVec F S4x8192x16 .f32 :=
  transpose S4x8192x16 [1, 0, 2] (shapeCast _ (extractStridedSlice S8192x64 ![0, 128] y slices_S8192x192_S8192x64_0_128) shapeCasts_S8192x64_S8192x4x16) transposes_S8192x4x16_S4x8192x16_1_0_2

def attnR (q k v : FVec F S4x8192x16 .f32) : FVec F S4x8192x16 .f32 :=
  let s : FVec F S4x8192x8192 .f32 :=
    Host.divf (Host.dotGeneral dot_S4x8192x16_S4x8192x16_S4x8192x8192_2_2_1_1_0_0 none q k)
      (broadcastInDim S4x8192x8192 ![] bcast_S_S4x8192x8192 (Host.sqrt (constant S_ .f32 0x41800000#32)))
  let mx : FVec F S4x8192 .f32 :=
    maximumf (broadcastInDim S4x8192 ![] bcast_S_S4x8192 (constant S_ .f32 0xFF800000#32))
      (Host.reduce FloatOps.maximumf s (constant S_ .f32 0xFF800000#32) reducesTo_S4x8192x8192_S4x8192_d2 h_S_)
  let e : FVec F S4x8192x8192 .f32 :=
    Host.exp (subf s (broadcastInDim S4x8192x8192 ![0, 1, 2] bcast_S4x8192x1_S4x8192x8192_0_1_2
      (broadcastInDim S4x8192x1 ![0, 1] bcast_S4x8192_S4x8192x1_0_1 mx)))
  let l : FVec F S4x8192 .f32 := Host.reduceAdd e (constant S_ .f32 0x00000000#32) reducesTo_S4x8192x8192_S4x8192_d2 h_S_
  Host.dotGeneral dot_S4x8192x8192_S4x8192x16_S4x8192x16_2_1_1_2_0_0 none
    (Host.divf e (broadcastInDim S4x8192x8192 ![0, 1, 2] bcast_S4x8192x1_S4x8192x8192_0_1_2
      (broadcastInDim S4x8192x1 ![0, 1] bcast_S4x8192_S4x8192x1_0_1 l)))
    v

def postAttn (a : FVec F S4x8192x16 .f32) (x : FVec F S8192x256 .f32) (wo : FVec F S64x64 .f32) (bo : FVec F S64 .f32)
    (w1 : FVec F S320x256 .f32) : FVec F S8192x256 .f32 :=
  Host.dotGeneral dot_S8192x320_S320x256_S8192x256_1_0_0_1_n_n none
    (concatenate S8192x320 1 [⟨S8192x256, x⟩, ⟨S8192x64,
      addf (Host.dotGeneral dot_S8192x64_S64x64_S8192x64_1_0_0_1_n_n none
              (shapeCast _ (transpose S8192x4x16 [1, 0, 2] a transposes_S4x8192x16_S8192x4x16_1_0_2) shapeCasts_S8192x4x16_S8192x64)
              (transpose S64x64 [1, 0] wo transposes_S64x64_S64x64_1_0))
           (broadcastInDim S8192x64 ![0, 1] bcast_S1x64_S8192x64_0_1 (broadcastInDim S1x64 ![1] bcast_S64_S1x64_1 bo))⟩]
      concatenates_S8192x256_S8192x64_S8192x320_d1)
    w1

def normIdx (v : IVec S270336 32) : IVec S270336x1 32 :=
  broadcastInDim S270336x1 ![0] bcast_S270336_S270336x1_0
    (select (cmpi .slt v (broadcastInDim S270336 ![] bcast_S_S270336 (constantI S_ 32 0#32)))
      (addi v (broadcastInDim S270336 ![] bcast_S_S270336 (constantI S_ 32 8192#32))) v)

def nrmR (src dst : IVec S270336 32) (dinv : FVec F S8192 .f32) : FVec F S270336 .f32 :=
  mulf (Host.gather gather_S8192_S270336x1_S270336_n_0_n_n_0_1_1 dinv (normIdx src))
    (Host.gather gather_S8192_S270336x1_S270336_n_0_n_n_0_1_1 dinv (normIdx dst))

def layerR256 (src dst : IVec S270336 32) (dinv : FVec F S8192 .f32) (hw : FVec F S8192x256 .f32) (b : FVec F S256 .f32) :
    FVec F S8192x256 .f32 :=
  addf
    (Host.scatterAdd scatter_S8192x256_S270336x1_S270336x256_1_0_0_1
      (broadcastInDim S8192x256 ![] bcast_S_S8192x256 (constant S_ .f32 0x00000000#32))
      (broadcastInDim S270336x1 ![0] bcast_S270336_S270336x1_0 dst)
      (mulf (Host.gather gather_S8192x256_S270336x1_S270336x256_1_0_n_n_0_1_1256 hw (normIdx src))
        (broadcastInDim S270336x256 ![0, 1] bcast_S270336x1_S270336x256_0_1
          (broadcastInDim S270336x1 ![0] bcast_S270336_S270336x1_0 (nrmR src dst dinv)))))
    (broadcastInDim S8192x256 ![0, 1] bcast_S1x256_S8192x256_0_1 (broadcastInDim S1x256 ![1] bcast_S256_S1x256_1 b))

def layerR64 (src dst : IVec S270336 32) (dinv : FVec F S8192 .f32) (hw : FVec F S8192x64 .f32) (b : FVec F S64 .f32) :
    FVec F S8192x64 .f32 :=
  addf
    (Host.scatterAdd scatter_S8192x64_S270336x1_S270336x64_1_0_0_1
      (broadcastInDim S8192x64 ![] bcast_S_S8192x64 (constant S_ .f32 0x00000000#32))
      (broadcastInDim S270336x1 ![0] bcast_S270336_S270336x1_0 dst)
      (mulf (Host.gather gather_S8192x64_S270336x1_S270336x64_1_0_n_n_0_1_164 hw (normIdx src))
        (broadcastInDim S270336x64 ![0, 1] bcast_S270336x1_S270336x64_0_1
          (broadcastInDim S270336x1 ![0] bcast_S270336_S270336x1_0 (nrmR src dst dinv)))))
    (broadcastInDim S8192x64 ![0, 1] bcast_S1x64_S8192x64_0_1 (broadcastInDim S1x64 ![1] bcast_S64_S1x64_1 b))

def reluR256 (y : FVec F S8192x256 .f32) : FVec F S8192x256 .f32 :=
  maximumf y (broadcastInDim S8192x256 ![] bcast_S_S8192x256 (constant S_ .f32 0x00000000#32))

def dot256 (h : FVec F S8192x256 .f32) (w : FVec F S256x256 .f32) : FVec F S8192x256 .f32 :=
  Host.dotGeneral dot_S8192x256_S256x256_S8192x256_1_0_0_1_n_n none h w
def dot64 (h : FVec F S8192x256 .f32) (w : FVec F S256x64 .f32) : FVec F S8192x64 .f32 :=
  Host.dotGeneral dot_S8192x256_S256x64_S8192x64_1_0_0_1_n_n none h w

def dinvR (dst : IVec S270336 32) : FVec F S8192 .f32 :=
  let deg : FVec F S8192 .f32 :=
    Host.scatterAdd scatter_S8192_S270336x1_S270336_n_0_0_1
      (broadcastInDim S8192 ![] bcast_S_S8192 (constant S_ .f32 0x00000000#32))
      (broadcastInDim S270336x1 ![0] bcast_S270336_S270336x1_0 dst)
      (broadcastInDim S270336 ![] bcast_S_S270336 (constant S_ .f32 0x3F800000#32))
  select (cmpf .ogt deg (broadcastInDim S8192 ![] bcast_S_S8192 (constant S_ .f32 0x00000000#32)))
    (Host.rsqrt (maximumf deg (broadcastInDim S8192 ![] bcast_S_S8192 (constant S_ .f32 0x2B8CBCCC#32))))
    (broadcastInDim S8192 ![] bcast_S_S8192 (id (constant S_ .f32 0x00000000#32)))

def srcIdx (ei : IVec S2x262144 32) : IVec S270336 32 :=
  concatenate S270336 0 [⟨S262144, (shapeCast _ (extractStridedSlice S1x262144 ![0, 0] ei slices_S2x262144_S1x262144_0_0) shapeCasts_S1x262144_S262144)⟩,
    ⟨S8192, (iotaInDim S8192 32 0)⟩] concatenates_S262144_S8192_S270336_d0
def dstIdx (ei : IVec S2x262144 32) : IVec S270336 32 :=
  concatenate S270336 0 [⟨S262144, (shapeCast _ (extractStridedSlice S1x262144 ![1, 0] ei slices_S2x262144_S1x262144_1_0) shapeCasts_S1x262144_S262144)⟩,
    ⟨S8192, (iotaInDim S8192 32 0)⟩] concatenates_S262144_S8192_S270336_d0

end Cert.Stages

end
-- ==== Proof.KI.StagesK.lean ====
import proofs.«408232_j82188494176334_2_alg».proof.Proof.Gen.KernelIdeal
import proofs.«408232_j82188494176334_2_alg».proof.Proof.Stages

noncomputable section

namespace Cert.StagesK

open Cert.KernelIdeal Cert.KernelIdeal.Gen Idealize.ShloMosaic Idealize.ShloMosaic.TcCoe

variable {F : FTy → Type} [FloatOps F]

-- the kernel program's host stages are the reference's stage functions, at the same extents
def proj (x : FVec F S8192x256 .f32) (pw : FVec F S256x64 .f32) (pb : FVec F S64 .f32) (iw : FVec F S192x64 .f32)
    (ib : FVec F S192 .f32) : FVec F S8192x192 .f32 :=
  Cert.Stages.proj x pw pb iw ib

def headsQ (y : FVec F S8192x192 .f32) : FVec F S4x8192x16 .f32 := Cert.Stages.headsQ y
def headsK (y : FVec F S8192x192 .f32) : FVec F S4x8192x16 .f32 := Cert.Stages.headsK y
def headsV (y : FVec F S8192x192 .f32) : FVec F S4x8192x16 .f32 := Cert.Stages.headsV y

def postAttn (a : FVec F S4x8192x16 .f32) (x : FVec F S8192x256 .f32) (wo : FVec F S64x64 .f32) (bo : FVec F S64 .f32)
    (w1 : FVec F S320x256 .f32) : FVec F S8192x256 .f32 :=
  Cert.Stages.postAttn a x wo bo w1

def dot256 (h : FVec F S8192x256 .f32) (w : FVec F S256x256 .f32) : FVec F S8192x256 .f32 := Cert.Stages.dot256 h w
def dot64 (h : FVec F S8192x256 .f32) (w : FVec F S256x64 .f32) : FVec F S8192x64 .f32 := Cert.Stages.dot64 h w

def dinvR (dst : IVec S270336 32) : FVec F S8192 .f32 := Cert.Stages.dinvR dst

def srcIdx (ei : IVec S2x262144 32) : IVec S270336 32 := Cert.Stages.srcIdx ei
def dstIdx (ei : IVec S2x262144 32) : IVec S270336 32 := Cert.Stages.dstIdx ei

def brow256 (b : FVec F S256 .f32) : FVec F S1x256 .f32 := shapeCast _ b shapeCasts_S256_S1x256
def brow64 (b : FVec F S64 .f32) : FVec F S1x64 .f32 := shapeCast _ b shapeCasts_S64_S1x64

end Cert.StagesK

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev A3 (a b c : Nat) : Type := (⟨3, ![a, b, c]⟩ : Shape).Idx → EReal
abbrev A2 (a b : Nat) : Type := (⟨2, ![a, b]⟩ : Shape).Idx → EReal
abbrev A1 (a : Nat) : Type := (⟨1, ![a]⟩ : Shape).Idx → EReal

def score (q k : A3 4 8192 16) (h : Fin 4) (n m : Fin 8192) : EReal :=
  (∑ d : Fin 16, q (ix3 h n d) * k (ix3 h m d)) * Ideal.ofBits .f32 0x3E800000#32

def rowMax (q k : A3 4 8192 16) (h : Fin 4) (n : Fin 8192) : EReal :=
  (Finset.univ : Finset (Fin 8192)).fold max (Ideal.ofBits .f32 0xFF800000#32) (fun m => score q k h n m)

def expo (q k : A3 4 8192 16) (h : Fin 4) (n m : Fin 8192) : EReal :=
  Ideal.exp (score q k h n m - rowMax q k h n)

def rowSum (q k : A3 4 8192 16) (h : Fin 4) (n : Fin 8192) : EReal :=
  ∑ m : Fin 8192, expo q k h n m

def attnAt (q k v : A3 4 8192 16) (h : Fin 4) (n : Fin 8192) (d : Fin 16) : EReal :=
  ∑ m : Fin 8192, Ideal.div (expo q k h n m) (rowSum q k h n) * v (ix3 h m d)

def attn (q k v : A3 4 8192 16) : A3 4 8192 16 := fun i => attnAt q k v (i 0) (i 1) (i 2)

theorem attn_apply (q k v : A3 4 8192 16) (h : Fin 4) (n : Fin 8192) (d : Fin 16) :
    attn q k v (ix3 h n d) = attnAt q k v h n d := rfl

def denseAt {C : Nat} (A : A2 8192 8192) (X : A2 8192 C) (b : A2 1 C) (i : Fin 8192) (f : Fin C) : EReal :=
  (∑ j : Fin 8192, A (ix2 i j) * X (ix2 j f)) + b (ix2 0 f)

def dense {C : Nat} (A : A2 8192 8192) (X : A2 8192 C) (b : A2 1 C) : A2 8192 C := fun i => denseAt A X b (i 0) (i 1)

def denseRelu {C : Nat} (A : A2 8192 8192) (X : A2 8192 C) (b : A2 1 C) : A2 8192 C :=
  fun i => max (denseAt A X b (i 0) (i 1)) (Ideal.ofBits .f32 0x00000000#32)

def rowOfWord (w : BitVec 32) : Fin 8192 := ⟨min w.toInt.toNat (8192 - 1), by omega⟩

def adj {E : Nat} (dstw srcw : Fin E → BitVec 32) (nrm : Fin E → EReal) : A2 8192 8192 := fun i =>
  ∑ e ∈ Finset.univ.filter (fun e : Fin E => (dstw e).toInt = ((i 0).val : ℤ) ∧ (srcw e).toInt = ((i 1).val : ℤ)), nrm e

def sparseAt {E C : Nat} (dstw srcw : Fin E → BitVec 32) (nrm : Fin E → EReal) (X : A2 8192 C) (b : A2 1 C)
    (i : Fin 8192) (f : Fin C) : EReal :=
  (∑ e ∈ Finset.univ.filter (fun e : Fin E => (dstw e).toInt = (i.val : ℤ)), X (ix2 (rowOfWord (srcw e)) f) * nrm e)
    + b (ix2 0 f)

def sparse {E C : Nat} (dstw srcw : Fin E → BitVec 32) (nrm : Fin E → EReal) (X : A2 8192 C) (b : A2 1 C) : A2 8192 C :=
  fun i => sparseAt dstw srcw nrm X b (i 0) (i 1)

def sparseRelu {E C : Nat} (dstw srcw : Fin E → BitVec 32) (nrm : Fin E → EReal) (X : A2 8192 C) (b : A2 1 C) : A2 8192 C :=
  fun i => max (sparseAt dstw srcw nrm X b (i 0) (i 1)) (Ideal.ofBits .f32 0x00000000#32)

def nrmOf {E : Nat} (dinv : A1 8192) (srcw dstw : Fin E → BitVec 32) : Fin E → EReal :=
  fun e => dinv (ix1 (rowOfWord (srcw e))) * dinv (ix1 (rowOfWord (dstw e)))

def WordsInRange {E : Nat} (w : Fin E → BitVec 32) : Prop := ∀ e, 0 ≤ (w e).toInt ∧ (w e).toInt < 8192

abbrev rowOf (i : Fin 4) (r : Fin 2048) : Fin 8192 := ⟨2048 * i.val + r.val, by omega⟩
abbrev colOf (s : Fin 8) (j : Fin 1024) : Fin 8192 := ⟨1024 * s.val + j.val, by omega⟩

def blockTerm {C : Nat} (A : A2 8192 8192) (X : A2 8192 C) (i : Fin 4) (r : Fin 2048) (f : Fin C) (s : Fin 8) : EReal :=
  ∑ j : Fin 1024, A (ix2 (rowOf i r) (colOf s j)) * X (ix2 (colOf s j) f)

def blockTermN {C : Nat} (A : A2 8192 8192) (X : A2 8192 C) (i : Fin 4) (r : Fin 2048) (f : Fin C) (s : ℕ) : EReal :=
  if h : s < 8 then blockTerm A X i r f ⟨s, h⟩ else 0

theorem blockTermN_of_lt {C : Nat} (A : A2 8192 8192) (X : A2 8192 C) (i : Fin 4) (r : Fin 2048) (f : Fin C) (s : Fin 8) :
    blockTermN A X i r f s.val = blockTerm A X i r f s := dif_pos s.isLt

-- eight column blocks of 1024 tile the 8192 columns
theorem sum_blocks (g : Fin 8192 → EReal) : ∑ s : Fin 8, ∑ j : Fin 1024, g (colOf s j) = ∑ j' : Fin 8192, g j' := by
  refine Eq.trans ?_ (Equiv.sum_comp (finProdFinEquiv : Fin 8 × Fin 1024 ≃ Fin 8192) g)
  rw [Fintype.sum_prod_type]
  refine Finset.sum_congr rfl fun s _ => Finset.sum_congr rfl fun j _ => congrArg g (Fin.ext ?_)
  show 1024 * s.val + j.val = j.val + 1024 * s.val
  omega

theorem sum_blockTerm {C : Nat} (A : A2 8192 8192) (X : A2 8192 C) (i : Fin 4) (r : Fin 2048) (f : Fin C) :
    ∑ s ∈ Finset.range 8, blockTermN A X i r f s = ∑ j' : Fin 8192, A (ix2 (rowOf i r) j') * X (ix2 j' f) := by
  rw [← Fin.sum_univ_eq_sum_range (fun s => blockTermN A X i r f s) 8]
  refine Eq.trans (Finset.sum_congr rfl fun s _ => blockTermN_of_lt A X i r f s) ?_
  exact sum_blocks fun j' => A (ix2 (rowOf i r) j') * X (ix2 j' f)

end Cert.Spec

end
-- ==== Proof.LibGatherScatter.lean ====
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

abbrev Sh (N C : Nat) : Shape := ⟨2, ![N, C]⟩

abbrev RArr (N C : Nat) : Type := (Sh N C).Idx → EReal

def rowOf (N : Nat) (hN : 0 < N) (w : BitVec 32) : Fin N := ⟨min w.toInt.toNat (N - 1), by omega⟩

section GatherRows

variable {N n C : Nat} (d : GatherDims (Sh N C) (Sh n 1) (Sh n C))

theorem ix2_val_zero {a b : Nat} (e : Fin a) (c : Fin b) (X : Fin 2) (h : X = 0) : (ix2 e c X).val = e.val := by
  subst h; rfl

theorem ix2_val_one {a b : Nat} (e : Fin a) (c : Fin b) (X : Fin 2) (h : X = 1) : (ix2 e c X).val = c.val := by
  subst h; rfl

theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

theorem ix1_eq_ofFin {n : Nat} (e : Fin n) : ix1 e = Shape.Idx.ofFin e := by
  funext a
  match a with
  | ⟨0, _⟩ => exact Fin.ext rfl

theorem ixP_eq_ix2 {n : Nat} (e : Fin n) : StableHlo.Predicate.ixP e = ix2 e (0 : Fin 1) := by
  funext a
  match a with
  | ⟨0, _⟩ => rfl
  | ⟨1, _⟩ => rfl

theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

-- a scatter into a rank-2 operand lands on t exactly when start plus window offset is t's coordinate on both axes
theorem resultIdx2_iff {N M w : Nat} {si su : Shape} (d : ScatterDims (Sh N M) si su) (idx : IVec si w) (j : su.Idx)
    (t : (Sh N M).Idx) :
    d.resultIdx? j idx = some t ↔ d.start j idx (0 : Fin 2) + d.window j (0 : Fin 2) = ((t 0).val : ℤ)
      ∧ d.start j idx (1 : Fin 2) + d.window j (1 : Fin 2) = ((t 1).val : ℤ) := by
  have ht0 : (t 0).val < N := idx2_lt0 t
  have ht1 : (t 1).val < M := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N M).Idx => (f 0).val) hf
      have h1 : (d.start j idx (1 : Fin 2) + d.window j (1 : Fin 2)).toNat = (t 1).val :=
        congrArg (fun f : (Sh N M).Idx => (f 1).val) hf
      have hh0 := (hh (0 : Fin 2)).1
      have hh1 := (hh (1 : Fin 2)).1
      constructor <;> omega
    · exact absurd h (by simp)
  · rintro ⟨h0, h1⟩
    have hh : ∀ a, 0 ≤ d.start j idx a + d.window j a ∧ d.start j idx a + d.window j a < (Sh N M).size a := by
      intro a
      match a with
      | ⟨0, _⟩ =>
        show 0 ≤ d.start j idx (0 : Fin 2) + d.window j (0 : Fin 2) ∧ d.start j idx (0 : Fin 2) + d.window j (0 : Fin 2) < (N : ℤ)
        omega
      | ⟨1, _⟩ =>
        show 0 ≤ d.start j idx (1 : Fin 2) + d.window j (1 : Fin 2) ∧ d.start j idx (1 : Fin 2) + d.window j (1 : Fin 2) < (M : ℤ)
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      omega
    | ⟨1, _⟩ =>
      show (d.start j idx (1 : Fin 2) + d.window j (1 : Fin 2)).toNat = (t 1).val
      omega

section ScatterRows2
variable {N n C : Nat} (d : ScatterDims (Sh N C) (Sh n 1) (Sh n C))

theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  rw [resultIdx2_iff, srows_start_zero d huw hsd hivd, srows_start_one d hsd, srows_window_zero d hiw,
    srows_window_one d huw hiw]
  omega

end ScatterRows2

section ScatterRows3
variable {N n C : Nat} (d : ScatterDims (Sh N C) (Sh n 1) (Sh n C))

theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

end Cert.LibGS

end
-- ==== Proof.RefLayer.lean ====
import proofs.«408232_j82188494176334_2_alg».proof.Proof.Stages
import proofs.«408232_j82188494176334_2_alg».proof.Proof.Spec
import proofs.«408232_j82188494176334_2_alg».proof.Proof.LibGatherScatter
import Idealize.ShloMosaic.PureOps.Ideal.Laws
import Idealize.ShloMosaic.Lib.ValueIdx
import Idealize.ShloMosaic.Lib.Affine
import Idealize.ShloMosaic.Lib.StableHlo.Predicate

noncomputable section

open scoped BigOperators

namespace Cert.RefLayer

open Cert.ReferenceIdeal Cert.ReferenceIdeal.Gen Idealize.ShloMosaic Idealize.ShloMosaic.ValueIdx
open Idealize.ShloMosaic.StableHlo.Predicate (ixP ij i1q)

theorem ij_eq_ix2 {n m : Nat} (p : Fin n) (q : Fin m) : ij p q = ix2 p q := by
  funext a
  match a with
  | ⟨0, _⟩ => rfl
  | ⟨1, _⟩ => rfl

theorem col_apply {α : Type} {n : Nat} (h₁ : (⟨1, ![n]⟩ : Shape).BroadcastsInDim ⟨2, ![n, 1]⟩ ![0])
    (v : (⟨1, ![n]⟩ : Shape).Idx → α) (e : Fin n) :
    broadcastInDim ⟨2, ![n, 1]⟩ ![0] h₁ v (ix2 e (0 : Fin 1)) = v (ix1 e) := by
  rw [← Cert.LibGS.ixP_eq_ix2, StableHlo.Predicate.bcast_col1, ← Cert.LibGS.ix1_eq_ofFin]

theorem alongRows_apply {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α)
    (e : Fin n) (f : Fin m) :
    broadcastInDim ⟨2, ![n, m]⟩ ![0, 1] h₂ (broadcastInDim ⟨2, ![n, 1]⟩ ![0] h₁ v) (ix2 e f) = v (ix1 e) := by
  rw [← ij_eq_ix2, StableHlo.Predicate.bcast_rows, ← Cert.LibGS.ix1_eq_ofFin]

theorem alongCols_apply {α : Type} {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α)
    (i : Fin n) (f : Fin m) :
    broadcastInDim ⟨2, ![n, m]⟩ ![0, 1] h₂ (broadcastInDim ⟨2, ![1, m]⟩ ![1] h₁ v) (ix2 i f) = v (ix1 f) := by
  rw [← ij_eq_ix2, StableHlo.Predicate.bcast_cols, ← Cert.LibGS.ix1_eq_ofFin]

theorem zeroSplat_apply {t : Shape} (h : (⟨0, ![]⟩ : Shape).BroadcastsInDim t ![]) (j : t.Idx) :
    broadcastInDim t ![] h (constant (F := Ideal) S_ .f32 0x00000000#32) j = (0 : EReal) := by
  rw [StableHlo.Predicate.bcast_scalar h h_S_]
  show Ideal.ofBits .f32 0x00000000#32 = 0
  exact Ideal.ofBits_zero_f32

theorem normIdx_apply (v : IVec S270336 32) (hv : Cert.Spec.WordsInRange (fun e : Fin 270336 => v (ix1 e)))
    (e : Fin 270336) : Cert.Stages.normIdx v (ix2 e (0 : Fin 1)) = v (ix1 e) := by
  unfold Cert.Stages.normIdx
  rw [col_apply]
  show Scalar.select (IntOp.cmpi .slt (v (ix1 e)) _) _ (v (ix1 e)) = v (ix1 e)
  unfold Scalar.select
  rw [if_neg]
  intro hc
  have hlt := IntOp.cmpi_slt.1 hc
  rw [StableHlo.Predicate.bcast_scalar bcast_S_S270336 h_S_] at hlt
  have h0 : (constantI S_ 32 0#32 (Shape.Idx.first h_S_)).toInt = 0 := by decide
  rw [h0] at hlt
  have h1 : 0 ≤ (v (ix1 e)).toInt := (hv e).1
  omega

theorem nrmR_apply (src dst : IVec S270336 32) (dinv : FVec Ideal S8192 .f32)
    (hs : Cert.Spec.WordsInRange (fun e : Fin 270336 => src (ix1 e)))
    (hd : Cert.Spec.WordsInRange (fun e : Fin 270336 => dst (ix1 e))) (e : Fin 270336) :
    Cert.Stages.nrmR (F := Ideal) src dst dinv (ix1 e)
      = Cert.Spec.nrmOf dinv (fun e => src (ix1 e)) (fun e => dst (ix1 e)) e := by
  unfold Cert.Stages.nrmR Cert.Spec.nrmOf
  show Host.gather _ dinv _ (ix1 e) * Host.gather _ dinv _ (ix1 e) = _
  rw [Cert.LibGS.gather_vec_gen (by decide : 0 < 8192) gather_S8192_S270336x1_S270336_n_0_n_n_0_1_1 rfl rfl rfl rfl,
    Cert.LibGS.gather_vec_gen (by decide : 0 < 8192) gather_S8192_S270336x1_S270336_n_0_n_n_0_1_1 rfl rfl rfl rfl,
    normIdx_apply src hs, normIdx_apply dst hd]
  rfl

-- a layer at any width C: each destination row sums its edges' gathered source rows times the edge weight, then the bias row is added
theorem layer_eq {C : Nat} (g : GatherDims (Cert.LibGS.Sh 8192 C) S270336x1 (Cert.LibGS.Sh 270336 C))
    (s : ScatterDims (Cert.LibGS.Sh 8192 C) S270336x1 (Cert.LibGS.Sh 270336 C))
    (hz : S_.BroadcastsInDim (Cert.LibGS.Sh 8192 C) ![]) (hu : S270336x1.BroadcastsInDim (Cert.LibGS.Sh 270336 C) ![0, 1])
    (hb₁ : (⟨1, ![C]⟩ : Shape).BroadcastsInDim ⟨2, ![1, C]⟩ ![1])
    (hb₂ : (⟨2, ![1, C]⟩ : Shape).BroadcastsInDim (Cert.LibGS.Sh 8192 C) ![0, 1])
    (g1 : g.offsetDims = [1]) (g2 : g.collapsedSliceDims = [0]) (g3 : g.operandBatchingDims = [])
    (g4 : g.startIndexMap = [0]) (g5 : g.indexVectorDim = 1) (g6 : g.sliceSizes = ![1, C])
    (s1 : s.updateWindowDims = [1]) (s2 : s.insertedWindowDims = [0]) (s3 : s.scatterDimsToOperandDims = [0])
    (s4 : s.indexVectorDim = 1) (src dst : IVec S270336 32) (dinv : FVec Ideal S8192 .f32)
    (hw : FVec Ideal (Cert.LibGS.Sh 8192 C) .f32) (b : FVec Ideal ⟨1, ![C]⟩ .f32)
    (hs : Cert.Spec.WordsInRange (fun e : Fin 270336 => src (ix1 e)))
    (hd : Cert.Spec.WordsInRange (fun e : Fin 270336 => dst (ix1 e))) :
    (addf (Host.scatterAdd s (broadcastInDim _ ![] hz (constant S_ .f32 0x00000000#32))
        (broadcastInDim S270336x1 ![0] bcast_S270336_S270336x1_0 dst)
        (mulf (Host.gather g hw (Cert.Stages.normIdx src))
          (broadcastInDim _ ![0, 1] hu
            (broadcastInDim S270336x1 ![0] bcast_S270336_S270336x1_0 (Cert.Stages.nrmR (F := Ideal) src dst dinv)))))
      (broadcastInDim _ ![0, 1] hb₂ (broadcastInDim _ ![1] hb₁ b)) : Cert.Spec.A2 8192 C)
      = Cert.Spec.sparse (fun e => dst (ix1 e)) (fun e => src (ix1 e))
          (Cert.Spec.nrmOf dinv (fun e => src (ix1 e)) (fun e => dst (ix1 e))) hw (fun j => b (ix1 (j 1))) := by
  funext i
  obtain ⟨a, f, rfl⟩ : ∃ a f, i = ix2 a f := ⟨i 0, i 1, eq_ix2 i⟩
  have hidx : ∀ e : Fin 270336,
      broadcastInDim S270336x1 ![0] bcast_S270336_S270336x1_0 dst (ix2 e (0 : Fin 1)) = dst (ix1 e) :=
    fun e => col_apply _ dst e
  show Ideal.hostScatterAdd s _ _ _ (ix2 a f) + broadcastInDim _ _ _ _ (ix2 a f) = Cert.Spec.sparseAt _ _ _ _ _ a f
  unfold Cert.Spec.sparseAt
  rw [Cert.LibGS.scatterAdd_rows_gen s s1 s2 s3 s4, zeroSplat_apply, zero_add, alongCols_apply]
  simp only [hidx]
  refine congrArg₂ (· + ·) (Finset.sum_congr rfl fun e _ => ?_) rfl
  show Host.gather _ hw _ (ix2 e f) * broadcastInDim _ _ _ _ (ix2 e f) = _
  rw [Cert.LibGS.gather_rows_gen g (by decide : 0 < 8192) g1 g2 g3 g4 g5 g6, alongRows_apply, normIdx_apply src hs,
    nrmR_apply src dst dinv hs hd]
  rfl

theorem layerR64_eq (src dst : IVec S270336 32) (dinv : FVec Ideal S8192 .f32) (hw : FVec Ideal S8192x64 .f32)
    (b : FVec Ideal S64 .f32)
    (hs : Cert.Spec.WordsInRange (fun e : Fin 270336 => src (ValueIdx.ix1 e)))
    (hd : Cert.Spec.WordsInRange (fun e : Fin 270336 => dst (ValueIdx.ix1 e))) :
    (Cert.Stages.layerR64 (F := Ideal) src dst dinv hw b : Cert.Spec.A2 8192 64)
      = Cert.Spec.sparse (fun e => dst (ValueIdx.ix1 e)) (fun e => src (ValueIdx.ix1 e))
          (Cert.Spec.nrmOf dinv (fun e => src (ValueIdx.ix1 e)) (fun e => dst (ValueIdx.ix1 e))) hw
          (fun j => b (ValueIdx.ix1 (j 1))) :=
  layer_eq gather_S8192x64_S270336x1_S270336x64_1_0_n_n_0_1_164 scatter_S8192x64_S270336x1_S270336x64_1_0_0_1 bcast_S_S8192x64 bcast_S270336x1_S270336x64_0_1 bcast_S64_S1x64_1 bcast_S1x64_S8192x64_0_1
    rfl rfl rfl rfl rfl rfl rfl rfl rfl rfl src dst dinv hw b hs hd

theorem reluR256_eq (y : FVec Ideal S8192x256 .f32) :
    Cert.Stages.reluR256 (F := Ideal) y = fun i => max (y i) (Ideal.ofBits .f32 0x00000000#32) := by
  funext i
  unfold Cert.Stages.reluR256
  show max (y i) (broadcastInDim S8192x256 ![] bcast_S_S8192x256 (constant (F := Ideal) S_ .f32 0x00000000#32) i) = _
  rw [StableHlo.Predicate.bcast_scalar bcast_S_S8192x256 h_S_]
  rfl

theorem layerR256_relu_eq (src dst : IVec S270336 32) (dinv : FVec Ideal S8192 .f32) (hw : FVec Ideal S8192x256 .f32)
    (b : FVec Ideal S256 .f32)
    (hs : Cert.Spec.WordsInRange (fun e : Fin 270336 => src (ValueIdx.ix1 e)))
    (hd : Cert.Spec.WordsInRange (fun e : Fin 270336 => dst (ValueIdx.ix1 e))) :
    (Cert.Stages.reluR256 (F := Ideal) (Cert.Stages.layerR256 (F := Ideal) src dst dinv hw b) : Cert.Spec.A2 8192 256)
      = Cert.Spec.sparseRelu (fun e => dst (ValueIdx.ix1 e)) (fun e => src (ValueIdx.ix1 e))
          (Cert.Spec.nrmOf dinv (fun e => src (ValueIdx.ix1 e)) (fun e => dst (ValueIdx.ix1 e))) hw
          (fun j => b (ValueIdx.ix1 (j 1))) := by
  rw [reluR256_eq, show Cert.Stages.layerR256 (F := Ideal) src dst dinv hw b = _ from
    layer_eq gather_S8192x256_S270336x1_S270336x256_1_0_n_n_0_1_1256 scatter_S8192x256_S270336x1_S270336x256_1_0_0_1 bcast_S_S8192x256 bcast_S270336x1_S270336x256_0_1 bcast_S256_S1x256_1
      bcast_S1x256_S8192x256_0_1 rfl rfl rfl rfl rfl rfl rfl rfl rfl rfl src dst dinv hw b hs hd]
  rfl

end Cert.RefLayer

end
-- ==== Proof.LibScatter2.lean ====
import Idealize.ShloMosaic.PureOps.Ideal
import Idealize.ShloMosaic.Lib.ValueIdx
import proofs.«408232_j82188494176334_2_alg».proof.Proof.LibGatherScatter

noncomputable section

open scoped BigOperators

namespace Cert.LibGS

open Idealize.ShloMosaic Idealize.ShloMosaic.ValueIdx

section ScatterPairs
variable {N M n : Nat} (d : ScatterDims (Sh N M) (Sh n 2) ⟨1, ![n]⟩)

theorem spairs_siIdx (hivd : d.indexVectorDim = 1) (j : (⟨1, ![n]⟩ : Shape).Idx)
    (k : Fin d.scatterDimsToOperandDims.length) (c : Fin 2) (hc : k.val = c.val) : d.siIdx j k = ix2 (j 0) c := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    exact hc

theorem spairs_start_zero (hsd : d.scatterDimsToOperandDims = [0, 1]) (hivd : d.indexVectorDim = 1)
    (idx : IVec (Sh n 2) 32) (j : (⟨1, ![n]⟩ : Shape).Idx) :
    d.start j idx (0 : Fin 2) = (idx (ix2 (j 0) 0)).toInt := by
  have hm : (0 : Fin 2) ∈ d.scatterDimsToOperandDims := by
    rw [hsd]; show (0 : Fin 2) ∈ [(0 : Fin 2), 1]; decide
  have hk : List.idxOf (0 : Fin 2) d.scatterDimsToOperandDims = 0 := by
    rw [hsd]; show List.idxOf (0 : Fin 2) [(0 : Fin 2), 1] = 0; decide
  unfold ScatterDims.start
  rw [dif_pos hm, spairs_siIdx d hivd j _ 0 hk]
  rfl

theorem spairs_start_one (hsd : d.scatterDimsToOperandDims = [0, 1]) (hivd : d.indexVectorDim = 1)
    (idx : IVec (Sh n 2) 32) (j : (⟨1, ![n]⟩ : Shape).Idx) :
    d.start j idx (1 : Fin 2) = (idx (ix2 (j 0) 1)).toInt := by
  have hm : (1 : Fin 2) ∈ d.scatterDimsToOperandDims := by
    rw [hsd]; show (1 : Fin 2) ∈ [(0 : Fin 2), 1]; decide
  have hk : List.idxOf (1 : Fin 2) d.scatterDimsToOperandDims = 1 := by
    rw [hsd]; show List.idxOf (1 : Fin 2) [(0 : Fin 2), 1] = 1; decide
  unfold ScatterDims.start
  rw [dif_pos hm, spairs_siIdx d hivd j _ 1 hk]
  rfl

theorem spairs_sKept (hiw : d.insertedWindowDims = [0, 1]) : d.sKept = [] := by
  show (List.finRange 2).filter (fun a : Fin 2 => a ∉ d.insertedWindowDims) = []
  rw [hiw]
  show (List.finRange 2).filter (fun a : Fin 2 => a ∉ [(0 : Fin 2), 1]) = []
  decide

theorem spairs_window (hiw : d.insertedWindowDims = [0, 1]) (j : (⟨1, ![n]⟩ : Shape).Idx) (a : Fin 2) :
    d.window j a = 0 := by
  have hk : a ∉ d.sKept := by rw [spairs_sKept d hiw]; exact List.not_mem_nil
  unfold ScatterDims.window
  rw [dif_neg hk]

theorem spairs_resultIdx_iff (hiw : d.insertedWindowDims = [0, 1]) (hsd : d.scatterDimsToOperandDims = [0, 1])
    (hivd : d.indexVectorDim = 1) (idx : IVec (Sh n 2) 32) (j : (⟨1, ![n]⟩ : Shape).Idx) (t : (Sh N M).Idx) :
    d.resultIdx? j idx = some t
      ↔ (idx (ix2 (j 0) 0)).toInt = ((t 0).val : ℤ) ∧ (idx (ix2 (j 0) 1)).toInt = ((t 1).val : ℤ) := by
  rw [resultIdx2_iff, spairs_start_zero d hsd hivd, spairs_start_one d hsd hivd, spairs_window d hiw, spairs_window d hiw]
  omega

theorem scatterAdd_pairs_gen (hiw : d.insertedWindowDims = [0, 1]) (hsd : d.scatterDimsToOperandDims = [0, 1])
    (hivd : d.indexVectorDim = 1) (x : RArr N M) (idx : IVec (Sh n 2) 32) (u : (⟨1, ![n]⟩ : Shape).Idx → EReal)
    (i : Fin N) (j : Fin M) :
    Ideal.hostScatterAdd d x idx u (ix2 i j)
      = x (ix2 i j) + ∑ e ∈ Finset.univ.filter
          (fun e : Fin n => (idx (ix2 e 0)).toInt = (i.val : ℤ) ∧ (idx (ix2 e 1)).toInt = (j.val : ℤ)), u (ix1 e) := by
  have key := fun a => spairs_resultIdx_iff d hiw hsd hivd idx a (ix2 i j)
  unfold Ideal.hostScatterAdd
  congr 1
  refine Finset.sum_bij' (fun a _ => a 0) (fun e _ => ix1 e) ?_ ?_ ?_ ?_ ?_
  · intro a ha
    exact Finset.mem_filter.2 ⟨Finset.mem_univ _, (key a).1 (Finset.mem_filter.1 ha).2⟩
  · intro e he
    exact Finset.mem_filter.2 ⟨Finset.mem_univ _, (key (ix1 e)).2 (Finset.mem_filter.1 he).2⟩
  · intro a ha
    exact (eq_ix1 a).symm
  · intro e he
    rfl
  · intro a ha
    exact congrArg u (eq_ix1 a)

end ScatterPairs

end Cert.LibGS

end
-- ==== Proof.KI.KAdj.lean ====
import proofs.«408232_j82188494176334_2_alg».proof.Proof.Gen.KernelIdeal
import proofs.«408232_j82188494176334_2_alg».proof.Proof.Spec
import proofs.«408232_j82188494176334_2_alg».proof.Proof.RefLayer
import proofs.«408232_j82188494176334_2_alg».proof.Proof.LibScatter2
import Idealize.ShloMosaic.PureOps.Ideal.Laws
import Idealize.ShloMosaic.Lib.ValueIdx
import Idealize.ShloMosaic.Lib.StableHlo.Predicate
import Idealize.ShloMosaic.Lib.Pipeline.Value

noncomputable section

open scoped BigOperators

namespace Cert.KAdj

open Cert.KernelIdeal Cert.KernelIdeal.Gen Idealize.ShloMosaic Idealize.ShloMosaic.ValueIdx

section Defs
variable {F : FTy → Type} [FloatOps F]

def normIdxK (v : IVec S270336 32) : IVec S270336x1 32 :=
  broadcastInDim S270336x1 ![0] bcast_S270336_S270336x1_0
    (select (cmpi .slt v (broadcastInDim S270336 ![] bcast_S_S270336 (constantI S_ 32 0#32)))
      (addi v (broadcastInDim S270336 ![] bcast_S_S270336 (constantI S_ 32 8192#32))) v)

def nrmK (src dst : IVec S270336 32) (dinv : FVec F S8192 .f32) : FVec F S270336 .f32 :=
  mulf (Host.gather gather_S8192_S270336x1_S270336_n_0_n_n_0_1_1 dinv (normIdxK src))
    (Host.gather gather_S8192_S270336x1_S270336_n_0_n_n_0_1_1 dinv (normIdxK dst))

def adjK (src dst : IVec S270336 32) (dinv : FVec F S8192 .f32) : FVec F S8192x8192 .bf16 :=
  truncf .bf16 (Host.scatterAdd scatter_S8192x8192_S270336x2_S270336_n_01_01_1
      (broadcastInDim S8192x8192 ![] bcast_S_S8192x8192 (constant S_ .f32 0x00000000#32))
      (concatenate S270336x2 1 [⟨S270336x1, normIdxK dst⟩, ⟨S270336x1, normIdxK src⟩]
        concatenates_S270336x1_S270336x1_S270336x2_d1)
      (nrmK src dst dinv)) bitsLt_bf16_f32

end Defs

theorem normIdxK_apply (v : IVec S270336 32) (hv : Cert.Spec.WordsInRange (fun e : Fin 270336 => v (ix1 e)))
    (e : Fin 270336) : normIdxK v (ix2 e 0) = v (ix1 e) :=
  Cert.RefLayer.normIdx_apply v hv e

theorem pairs_first (p q : IVec S270336x1 32) (e : Fin 270336) :
    concatenate S270336x2 1 [⟨S270336x1, p⟩, ⟨S270336x1, q⟩] concatenates_S270336x1_S270336x1_S270336x2_d1 (ix2 e 0)
      = p (ix2 e 0) :=
  concatenate_pair_apply_left (t := S270336x2) (1 : Fin 2) p q concatenates_S270336x1_S270336x1_S270336x2_d1
    (ix2 e (0 : Fin 2)) rfl (ix2 e (0 : Fin 1)) (fun b => match b with | ⟨0, _⟩ => rfl | ⟨1, _⟩ => rfl)

theorem pairs_second (p q : IVec S270336x1 32) (e : Fin 270336) :
    concatenate S270336x2 1 [⟨S270336x1, p⟩, ⟨S270336x1, q⟩] concatenates_S270336x1_S270336x1_S270336x2_d1 (ix2 e 1)
      = q (ix2 e 0) :=
  concatenate_pair_apply_right (t := S270336x2) (1 : Fin 2) p q concatenates_S270336x1_S270336x1_S270336x2_d1
    (ix2 e (1 : Fin 2)) rfl rfl (ix2 e (0 : Fin 1))
    (fun b => match b with | ⟨0, _⟩ => fun _ => rfl | ⟨1, _⟩ => fun h => absurd rfl h) rfl

theorem nrmK_apply (src dst : IVec S270336 32) (dinv : FVec Ideal S8192 .f32)
    (hs : Cert.Spec.WordsInRange (fun e : Fin 270336 => src (ix1 e)))
    (hd : Cert.Spec.WordsInRange (fun e : Fin 270336 => dst (ix1 e))) (e : Fin 270336) :
    nrmK (F := Ideal) src dst dinv (ix1 e)
      = Cert.Spec.nrmOf dinv (fun e => src (ix1 e)) (fun e => dst (ix1 e)) e :=
  Cert.RefLayer.nrmR_apply src dst dinv hs hd e

theorem adjK_eq (src dst : IVec S270336 32) (dinv : FVec Ideal S8192 .f32)
    (hs : Cert.Spec.WordsInRange (fun e : Fin 270336 => src (ValueIdx.ix1 e)))
    (hd : Cert.Spec.WordsInRange (fun e : Fin 270336 => dst (ValueIdx.ix1 e))) :
    (adjK (F := Ideal) src dst dinv : Cert.Spec.A2 8192 8192)
      = Cert.Spec.adj (fun e => dst (ValueIdx.ix1 e)) (fun e => src (ValueIdx.ix1 e))
          (Cert.Spec.nrmOf dinv (fun e => src (ValueIdx.ix1 e)) (fun e => dst (ValueIdx.ix1 e))) := by
  funext t
  obtain ⟨a, b, rfl⟩ : ∃ a b, t = ix2 a b := ⟨t 0, t 1, eq_ix2 t⟩
  show Ideal.hostScatterAdd scatter_S8192x8192_S270336x2_S270336_n_01_01_1
      (broadcastInDim S8192x8192 ![] bcast_S_S8192x8192 (constant (F := Ideal) S_ .f32 0x00000000#32))
      (concatenate S270336x2 1 [⟨S270336x1, normIdxK dst⟩, ⟨S270336x1, normIdxK src⟩]
        concatenates_S270336x1_S270336x1_S270336x2_d1)
      (nrmK (F := Ideal) src dst dinv) (ix2 a b) = _
  rw [Cert.LibGS.scatterAdd_pairs_gen scatter_S8192x8192_S270336x2_S270336_n_01_01_1 rfl rfl rfl]
  have hz : broadcastInDim S8192x8192 ![] bcast_S_S8192x8192 (constant (F := Ideal) S_ .f32 0x00000000#32) (ix2 a b)
      = (0 : EReal) := Ideal.ofBits_zero_f32
  rw [hz, zero_add]
  unfold Cert.Spec.adj
  refine Finset.sum_congr (Finset.filter_congr (fun e _ => ?_)) (fun e _ => ?_)
  · rw [pairs_first, pairs_second, normIdxK_apply dst hd e, normIdxK_apply src hs e]
  · exact nrmK_apply src dst dinv hs hd e

end Cert.KAdj

end
-- ==== Proof.KI.HostVals.lean ====
import proofs.«408232_j82188494176334_2_alg».proof.Proof.KI.Fold
import proofs.«408232_j82188494176334_2_alg».proof.Proof.KI.StagesK
import proofs.«408232_j82188494176334_2_alg».proof.Proof.KI.KAdj
import Idealize.ShloMosaic.Lib.StableHlo.Run

set_option maxRecDepth 16384

noncomputable section

namespace Cert.KernelIdeal.Gen

open Idealize.ShloMosaic Idealize.ShloMosaic.TcCoe
open Idealize.SL Idealize.SL.Sem
open Idealize.ShloMosaic.Pipeline (Dat)

variable {F : FTy → Type} [FloatOps F]

section Stretches
variable (W : Valuation τ sig (Elt F))

theorem stretch0_q : StableHlo.after hostOps0 W (Proc.devRef .tc main_v13)
    = StagesK.headsQ (StagesK.proj (W main_arg0) (W main_arg2) (W main_arg3) (W main_arg4) (W main_arg5)) := by
  after_results; rfl
theorem stretch0_k : StableHlo.after hostOps0 W (Proc.devRef .tc main_v15)
    = StagesK.headsK (StagesK.proj (W main_arg0) (W main_arg2) (W main_arg3) (W main_arg4) (W main_arg5)) := by
  after_results; rfl
theorem stretch0_v : StableHlo.after hostOps0 W (Proc.devRef .tc main_v17)
    = StagesK.headsV (StagesK.proj (W main_arg0) (W main_arg2) (W main_arg3) (W main_arg4) (W main_arg5)) := by
  after_results; rfl

theorem stretch1_src : StableHlo.after hostOps1 W (Proc.devRef .tc main_v30) = StagesK.srcIdx (W main_arg1) := by
  after_results; rfl
theorem stretch1_dst : StableHlo.after hostOps1 W (Proc.devRef .tc main_v34) = StagesK.dstIdx (W main_arg1) := by
  after_results; rfl
-- The stretch leaves the concatenation of the merged heads and the features; its product with the weights is taken two stretches on.
theorem stretch1_hw (w1 : FVec F S320x256 .f32) :
    Host.dotGeneral dot_S8192x320_S320x256_S8192x256_1_0_0_1_n_n none (StableHlo.after hostOps1 W (Proc.devRef .tc main_v26)) w1
      = StagesK.postAttn (W main_v18) (W main_arg0) (W main_arg6) (W main_arg7) w1 := by
  after_results; rfl
theorem stretch1_dinv :
    select (StableHlo.after hostOps1 W (Proc.devRef .tc main_v40)) (StableHlo.after hostOps1 W (Proc.devRef .tc main_v43))
        (broadcastInDim S8192 ![] bcast_S_S8192 (id (StableHlo.after hostOps1 W (Proc.devRef .tc main_cst_3))))
      = StagesK.dinvR (F := F) (StagesK.dstIdx (W main_arg1)) := by
  after_results_simp; rfl
theorem stretch1_1_dinv : StableHlo.after hostOps1_1 W (Proc.devRef .tc main_v44)
    = select (W main_v40) (W main_v43) (broadcastInDim S8192 ![] bcast_S_S8192 (id (W main_cst_3))) := by
  after_results; rfl

set_option maxHeartbeats 1000000 in
theorem stretch1_2_adj : StableHlo.after hostOps1_2 W (Proc.devRef .tc main_v75) = KAdj.adjK (W main_v30) (W main_v34) (W main_v44) := by
  after_results_simp; unfold KAdj.adjK KAdj.nrmK KAdj.normIdxK; rfl
theorem stretch1_2_hw : StableHlo.after hostOps1_2 W (Proc.devRef .tc main_v76)
    = Host.dotGeneral dot_S8192x320_S320x256_S8192x256_1_0_0_1_n_n none (W main_v26) (W main_arg8) := by
  after_results_simp
theorem stretch1_2_b : StableHlo.after hostOps1_2 W (Proc.devRef .tc main_v77) = StagesK.brow256 (W main_arg9) := by
  after_results; rfl

theorem stretch2_hw : StableHlo.after hostOps2 W (Proc.devRef .tc main_v79) = StagesK.dot256 (W main_v78) (W main_arg10) := by
  after_results; rfl
theorem stretch2_b : StableHlo.after hostOps2 W (Proc.devRef .tc main_v80) = StagesK.brow256 (W main_arg11) := by
  after_results; rfl
theorem stretch3_hw : StableHlo.after hostOps3 W (Proc.devRef .tc main_v82) = StagesK.dot64 (W main_v81) (W main_arg12) := by
  after_results; rfl
theorem stretch3_b : StableHlo.after hostOps3 W (Proc.devRef .tc main_v83) = StagesK.brow64 (W main_arg13) := by
  after_results; rfl

end Stretches

variable (m : (ℓ : Loc nD τ sig) → Buf (Elt F) ℓ) (ρ : Dev nD → PrngReg) (c : Dev nD)

theorem left0 : W2 m ρ c main_v18 = (dat0 (V1 m ρ) c).arrAt 3 cfg0.N := exitW_arr 0 _ _ c launch0 3
theorem left1 : W6 m ρ c main_v78 = (dat1 (V5 m ρ) c).arrAt 3 cfg1.N := exitW_arr 1 _ _ c launch1 3
theorem left2 : W8 m ρ c main_v81 = (dat2 (V7 m ρ) c).arrAt 3 cfg2.N := exitW_arr 2 _ _ c launch2 3

theorem V5_adj : V5 m ρ c main_v75 = KAdj.adjK (StagesK.srcIdx (W0 m ρ c main_arg1)) (StagesK.dstIdx (W0 m ρ c main_arg1))
    (StagesK.dinvR (StagesK.dstIdx (W0 m ρ c main_arg1))) := by
  have a := (free m ρ main_arg1 (by decide) c).1
  exact (stretch1_2_adj _).trans (congr (congr (congrArg KAdj.adjK
    ((kept (W := hostOps1_1_wrote) rfl _ (by decide)).trans ((stretch1_src _).trans (congrArg StagesK.srcIdx a))))
    ((kept (W := hostOps1_1_wrote) rfl _ (by decide)).trans ((stretch1_dst _).trans (congrArg StagesK.dstIdx a))))
    ((stretch1_1_dinv _).trans ((stretch1_dinv _).trans (congrArg (fun e => StagesK.dinvR (StagesK.dstIdx e)) a))))

theorem V5_hw : V5 m ρ c main_v76
    = StagesK.postAttn (W2 m ρ c main_v18) (W0 m ρ c main_arg0) (W0 m ρ c main_arg6) (W0 m ρ c main_arg7) (W0 m ρ c main_arg8) :=
  (stretch1_2_hw _).trans ((congr (congrArg (Host.dotGeneral _ none) (kept (W := hostOps1_1_wrote) rfl _ (by decide)))
    (free m ρ _ (by decide) c).2.1).trans ((stretch1_hw _ _).trans (by
      rw [(free m ρ main_arg0 (by decide) c).1, (free m ρ main_arg6 (by decide) c).1, (free m ρ main_arg7 (by decide) c).1])))

theorem V5_b : V5 m ρ c main_v77 = StagesK.brow256 (W0 m ρ c main_arg9) :=
  (stretch1_2_b _).trans (congrArg StagesK.brow256 (free m ρ _ (by decide) c).2.1)

-- The adjacency is an input array of every dense layer, so a region leaves it as entered, and no later stretch writes it.
theorem V7_adj : V7 m ρ c main_v75 = V5 m ρ c main_v75 :=
  (kept (W := hostOps2_wrote) rfl _ (by decide)).trans ((exitW_arr 1 _ _ c launch1 0).trans
    (((dat1 (V5 m ρ) c).arrAt_in 0 rfl _).trans (A_eq1 (V5 m ρ) c 0)))
theorem V7_hw : V7 m ρ c main_v79 = StagesK.dot256 (W6 m ρ c main_v78) (W0 m ρ c main_arg10) :=
  (stretch2_hw _).trans (congrArg (StagesK.dot256 _) (free m ρ _ (by decide) c).2.2.1)
theorem V7_b : V7 m ρ c main_v80 = StagesK.brow256 (W0 m ρ c main_arg11) :=
  (stretch2_b _).trans (congrArg StagesK.brow256 (free m ρ _ (by decide) c).2.2.1)

theorem V9_adj : V9 m ρ c main_v75 = V5 m ρ c main_v75 :=
  (kept (W := hostOps3_wrote) rfl _ (by decide)).trans ((exitW_arr 2 _ _ c launch2 0).trans
    (((dat2 (V7 m ρ) c).arrAt_in 0 rfl _).trans ((A_eq2 (V7 m ρ) c 0).trans (V7_adj m ρ c))))
theorem V9_hw : V9 m ρ c main_v82 = StagesK.dot64 (W8 m ρ c main_v81) (W0 m ρ c main_arg12) :=
  (stretch3_hw _).trans (congrArg (StagesK.dot64 _) (free m ρ _ (by decide) c).2.2.2.1)
theorem V9_b : V9 m ρ c main_v83 = StagesK.brow64 (W0 m ρ c main_arg13) :=
  (stretch3_b _).trans (congrArg StagesK.brow64 (free m ρ _ (by decide) c).2.2.2.1)

end Cert.KernelIdeal.Gen

end
-- ==== Proof.DotAxes.lean ====
import Idealize.ShloMosaic.PureOps.Dims

namespace Cert.DotAxes

open Idealize.ShloMosaic

variable {sl sr so : Shape} (d : DotDims sl sr so) (j : so.Idx) (k : d.contr.Idx)

-- On a batch axis or a free axis an operand's index is the result index at that axis' place among the result's axes.
theorem lhs_batch {a : Fin sl.rank} (hb : a ∈ d.lhsBatch) : (d.lhsIdx j k a).val
    = (j ⟨d.lhsBatch.idxOf a, by have := List.idxOf_lt_length_iff.2 hb; rw [d.rank_out]; omega⟩).val := by
  unfold DotDims.lhsIdx; rw [dif_pos hb]; rfl

theorem lhs_free {a : Fin sl.rank} (hb : a ∉ d.lhsBatch) (hf : a ∈ d.lhsNonContracting) : (d.lhsIdx j k a).val
    = (j ⟨d.lhsBatch.length + d.lhsNonContracting.idxOf a, by have := List.idxOf_lt_length_iff.2 hf; rw [d.rank_out]; omega⟩).val := by
  unfold DotDims.lhsIdx; rw [dif_neg hb, dif_pos hf]; rfl

theorem rhs_batch {a : Fin sr.rank} (hb : a ∈ d.rhsBatch) : (d.rhsIdx j k a).val
    = (j ⟨d.rhsBatch.idxOf a, by have := List.idxOf_lt_length_iff.2 hb; rw [d.rank_out, ← d.length_batch]; omega⟩).val := by
  unfold DotDims.rhsIdx; rw [dif_pos hb]; rfl

theorem rhs_free {a : Fin sr.rank} (hb : a ∉ d.rhsBatch) (hf : a ∈ d.rhsNonContracting) : (d.rhsIdx j k a).val
    = (j ⟨d.lhsBatch.length + d.lhsNonContracting.length + d.rhsNonContracting.idxOf a,
        by have := List.idxOf_lt_length_iff.2 hf; rw [d.rank_out]; omega⟩).val := by
  unfold DotDims.rhsIdx; rw [dif_neg hb, dif_pos hf]; rfl

end Cert.DotAxes
-- ==== Proof.KI.Val0.lean ====
import proofs.«408232_j82188494176334_2_alg».proof.Proof.KI.Reg0
import proofs.«408232_j82188494176334_2_alg».proof.Proof.Spec
import proofs.«408232_j82188494176334_2_alg».proof.Proof.DotAxes
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Gen.Attn

open Idealize.ShloMosaic Idealize.ShloMosaic.TcCoe Idealize.ShloMosaic.ValueIdx Idealize.SL.Sem
open Idealize.ShloMosaic.Pipeline (Dat)
open Cert.KernelIdeal Cert.KernelIdeal.Gen

-- A dot over one contracted axis, from zero, read at an index: the sum along that axis of the operands at the indices the other axes fix.
theorem dot1_apply {sl sr so : Shape} {φ₁ φ₂ : FTy} (D : DotDims sl sr so) (n : Nat) (hr : D.contr.rank = 1) (hs : D.contr.size ⟨0, by omega⟩ = n)
    (a : FVec Ideal sl φ₁) (b : FVec Ideal sr φ₂) (j : so.Idx) (l : Fin n → sl.Idx) (r : Fin n → sr.Idx)
    (h : ∀ k, D.lhsIdx j ((ValueIdx.contrEquiv1 D n hr hs).symm k) = l k ∧ D.rhsIdx j ((ValueIdx.contrEquiv1 D n hr hs).symm k) = r k) :
    matmul D none a b (constant so .f32 0x00000000#32) j = ∑ k : Fin n, a (l k) * b (r k) := by
  simp only [matmul]
  rw [Ideal.matmul_constant_zero_apply, ← Equiv.sum_comp (ValueIdx.contrEquiv1 D n hr hs).symm]
  exact Finset.sum_congr rfl fun k _ => by rw [(h k).1, (h k).2]

theorem qk_apply (a : FVec Ideal S4x64x16 .bf16) (b : FVec Ideal S4x8192x16 .bf16) (h : Fin 4) (r : Fin 64) (m : Fin 8192) :
    matmul dot_S4x64x16_S4x8192x16_S4x64x8192_2_2_1_1_0_0 none a b (constant S4x64x8192 .f32 0x00000000#32) (ix3 h r m)
      = ∑ e : Fin 16, a (ix3 h r e) * b (ix3 h m e) :=
  dot1_apply _ 16 rfl rfl a b _ _ _ fun k => by
    have hk := ValueIdx.contrEquiv1_symm_val dot_S4x64x16_S4x8192x16_S4x64x8192_2_2_1_1_0_0 16 rfl rfl k
    refine ⟨funext fun a => Fin.ext ?_, funext fun a => Fin.ext ?_⟩
    · match a with
      | ⟨0, _⟩ => refine Cert.DotAxes.lhs_batch _ _ _ ?_ <;> decide +revert
      | ⟨1, _⟩ => refine Cert.DotAxes.lhs_free _ _ _ ?_ ?_ <;> decide +revert
      | ⟨2, _⟩ => exact (DotDims.lhsIdx_val_of_single _ rfl _ _).trans hk
    · match a with
      | ⟨0, _⟩ => refine Cert.DotAxes.rhs_batch _ _ _ ?_ <;> decide +revert
      | ⟨1, _⟩ => refine Cert.DotAxes.rhs_free _ _ _ ?_ ?_ <;> decide +revert
      | ⟨2, _⟩ => exact (DotDims.rhsIdx_val_of_single _ rfl _ _).trans hk

theorem pv_apply (p : FVec Ideal S4x64x8192 .bf16) (b : FVec Ideal S4x8192x16 .bf16) (h : Fin 4) (r : Fin 64) (d : Fin 16) :
    matmul dot_S4x64x8192_S4x8192x16_S4x64x16_2_1_1_2_0_0 none p b (constant S4x64x16 .f32 0x00000000#32) (ix3 h r d)
      = ∑ m : Fin 8192, p (ix3 h r m) * b (ix3 h m d) :=
  dot1_apply _ 8192 rfl rfl p b _ _ _ fun k => by
    have hk := ValueIdx.contrEquiv1_symm_val dot_S4x64x8192_S4x8192x16_S4x64x16_2_1_1_2_0_0 8192 rfl rfl k
    refine ⟨funext fun a => Fin.ext ?_, funext fun a => Fin.ext ?_⟩
    · match a with
      | ⟨0, _⟩ => refine Cert.DotAxes.lhs_batch _ _ _ ?_ <;> decide +revert
      | ⟨1, _⟩ => refine Cert.DotAxes.lhs_free _ _ _ ?_ ?_ <;> decide +revert
      | ⟨2, _⟩ => exact (DotDims.lhsIdx_val_of_single _ rfl _ _).trans hk
    · match a with
      | ⟨0, _⟩ => refine Cert.DotAxes.rhs_batch _ _ _ ?_ <;> decide +revert
      | ⟨1, _⟩ => exact (DotDims.rhsIdx_val_of_single _ rfl _ _).trans hk
      | ⟨2, _⟩ => refine Cert.DotAxes.rhs_free _ _ _ ?_ ?_ <;> decide +revert

theorem lift_row (h : Fin 4) (r : Fin 64) (m : Fin 8192) :
    reduces_S4x64x8192_S4x64.lift (ix2 h r) m = ix3 h r m :=
  funext fun a => Fin.ext (by
    match a with
    | ⟨0, _⟩ => rfl
    | ⟨1, _⟩ => rfl
    | ⟨2, _⟩ => rfl)

theorem rowmax_apply (x : FVec Ideal S4x64x8192 .f32) (hφ : FKind.Formats .f32)
    (hacc : (0xFF800000#32 : BitVec 32) = FKind.maximumf.neutral .f32 hφ) (h : Fin 4) (r : Fin 64) :
    multiReduction .maximumf [2] S4x64 x 0xFF800000#32 reduces_S4x64x8192_S4x64 hφ hacc (ix2 h r)
      = (Finset.univ : Finset (Fin 8192)).fold max (Ideal.ofBits .f32 0xFF800000#32) (fun m => x (ix3 h r m)) := by
  refine (Ideal.multiReduction_maximumf_single x _ reduces_S4x64x8192_S4x64 hφ hacc (ix2 h r)).trans ?_
  show (Finset.univ : Finset (Fin 8192)).fold max (Ideal.ofBits .f32 0xFF800000#32) (x ∘ reduces_S4x64x8192_S4x64.lift (ix2 h r)) = _
  have e : x ∘ reduces_S4x64x8192_S4x64.lift (ix2 h r) = fun m : Fin 8192 => x (ix3 h r m) :=
    funext fun m => congrArg x (lift_row h r m)
  rw [e]; rfl

theorem rowsum_apply (x : FVec Ideal S4x64x8192 .f32) (hφ : FKind.Formats .f32)
    (hacc : (0x00000000#32 : BitVec 32) = FKind.add.neutral .f32 hφ) (h : Fin 4) (r : Fin 64) :
    multiReduction .add [2] S4x64 x 0x00000000#32 reduces_S4x64x8192_S4x64 hφ hacc (ix2 h r)
      = ∑ m : Fin 8192, x (ix3 h r m) := by
  refine (Ideal.multiReduction_add_single x _ reduces_S4x64x8192_S4x64 hφ hacc (ix2 h r)).trans ?_
  show ∑ m : Fin 8192, x (reduces_S4x64x8192_S4x64.lift (ix2 h r) m) = _
  exact Finset.sum_congr rfl fun m _ => congrArg x (lift_row h r m)

theorem spread_apply (y : FVec Ideal S4x64 .f32) (h : Fin 4) (r : Fin 64) (m : Fin 8192) :
    broadcastTo S4x64x8192 (shapeCast S4x64x1 y shapeCasts_S4x64_S4x64x1) broadcasts_S4x64x1_S4x64x8192 (ix3 h r m) = y (ix2 h r) := by
  refine (broadcastTo_apply _ broadcasts_S4x64x1_S4x64x8192 (ix3 h r m) (ix3 h r (0 : Fin 1)) (fun a => ?_)).trans ?_
  · match a with
    | ⟨0, _⟩ => rfl
    | ⟨1, _⟩ => rfl
    | ⟨2, _⟩ => rfl
  · exact shapeCast_apply y shapeCasts_S4x64_S4x64x1 (ix3 h r (0 : Fin 1)) (ix2 h r) (by
      rw [Shape.rowMajor_val_two, Shape.rowMajor_val_three]
      show h.val * 64 + r.val = (h.val * 64 + r.val) * 1 + 0
      omega)

def scores (q : Vec Ideal S4x64x16 .f32) (k : Vec Ideal S4x8192x16 .f32) : FVec Ideal S4x64x8192 .f32 :=
  mulf (matmul dot_S4x64x16_S4x8192x16_S4x64x8192_2_2_1_1_0_0 none
      (truncf .bf16 (shapeCast S4x64x16 q shapeCasts_S4x64x16_S4x64x16 : FVec Ideal S4x64x16 .f32) bitsLt_bf16_f32)
      (truncf .bf16 (shapeCast S4x8192x16 k shapeCasts_S4x8192x16_S4x8192x16 : FVec Ideal S4x8192x16 .f32) bitsLt_bf16_f32)
      (constant S4x64x8192 .f32 0x00000000#32))
    (broadcast S4x64x8192 (Scalar.ofBits .f32 0x3E800000#32))

def expos (s : FVec Ideal S4x64x8192 .f32) : FVec Ideal S4x64x8192 .f32 :=
  exp (subf s (broadcastTo S4x64x8192
    (shapeCast S4x64x1 (multiReduction .maximumf [2] S4x64 s 0xFF800000#32 reduces_S4x64x8192_S4x64 (.inl rfl) rfl : FVec Ideal S4x64 .f32) shapeCasts_S4x64_S4x64x1)
    broadcasts_S4x64x1_S4x64x8192))

def weights (e : FVec Ideal S4x64x8192 .f32) : FVec Ideal S4x64x8192 .bf16 :=
  truncf .bf16 (divf e (broadcastTo S4x64x8192
    (shapeCast S4x64x1 (multiReduction .add [2] S4x64 e 0x00000000#32 reduces_S4x64x8192_S4x64 (.inl rfl) rfl : FVec Ideal S4x64 .f32) shapeCasts_S4x64_S4x64x1)
    broadcasts_S4x64x1_S4x64x8192)) bitsLt_bf16_f32

theorem pay_stages (q : Vec Ideal S4x64x16 .f32) (k v : Vec Ideal S4x8192x16 .f32) :
    k0_pay1 (F := Ideal) q k v
      = matmul dot_S4x64x8192_S4x8192x16_S4x64x16_2_1_1_2_0_0 none (weights (expos (scores q k)))
          (truncf .bf16 (shapeCast S4x8192x16 v shapeCasts_S4x8192x16_S4x8192x16 : FVec Ideal S4x8192x16 .f32) bitsLt_bf16_f32)
          (constant S4x64x16 .f32 0x00000000#32) := rfl

theorem scores_apply (q : Vec Ideal S4x64x16 .f32) (k : Vec Ideal S4x8192x16 .f32) (h : Fin 4) (r : Fin 64) (m : Fin 8192) :
    scores q k (ix3 h r m) = (∑ e : Fin 16, q (ix3 h r e) * k (ix3 h m e)) * Ideal.ofBits .f32 0x3E800000#32 := by
  unfold scores
  rw [mulf_apply, qk_apply, broadcast_apply]
  simp only [truncf_apply, shapeCast_self]
  rfl

theorem expos_apply (s : FVec Ideal S4x64x8192 .f32) (h : Fin 4) (r : Fin 64) (m : Fin 8192) :
    expos s (ix3 h r m) = Ideal.exp (s (ix3 h r m)
      - (Finset.univ : Finset (Fin 8192)).fold max (Ideal.ofBits .f32 0xFF800000#32) (fun m' => s (ix3 h r m'))) := by
  unfold expos
  show Ideal.exp (subf s _ (ix3 h r m)) = _
  rw [subf_apply, spread_apply]
  exact congrArg (fun z => Ideal.exp (s (ix3 h r m) - z)) (rowmax_apply s _ _ h r)

theorem weights_apply (e : FVec Ideal S4x64x8192 .f32) (h : Fin 4) (r : Fin 64) (m : Fin 8192) :
    weights e (ix3 h r m) = Ideal.div (e (ix3 h r m)) (∑ m' : Fin 8192, e (ix3 h r m')) := by
  unfold weights
  rw [truncf_apply, divf_apply, spread_apply]
  exact congrArg (fun z => Ideal.div (e (ix3 h r m)) z) (rowsum_apply e _ _ h r)

theorem pay_apply (Q K V : Cert.Spec.A3 4 8192 16) (q : Vec Ideal S4x64x16 .f32) (k v : Vec Ideal S4x8192x16 .f32)
    (h : Fin 4) (r : Fin 64) (n : Fin 8192) (d : Fin 16)
    (hq : ∀ e : Fin 16, q (ix3 h r e) = Q (ix3 h n e))
    (hk : ∀ (m : Fin 8192) (e : Fin 16), k (ix3 h m e) = K (ix3 h m e))
    (hv : ∀ m : Fin 8192, v (ix3 h m d) = V (ix3 h m d)) :
    k0_pay1 (F := Ideal) q k v (ix3 h r d) = Cert.Spec.attnAt Q K V h n d := by
  have hs : ∀ m : Fin 8192, scores q k (ix3 h r m) = Cert.Spec.score Q K h n m := fun m => by
    rw [scores_apply]; unfold Cert.Spec.score
    simp only [hq, hk]
  have he : ∀ m : Fin 8192, expos (scores q k) (ix3 h r m) = Cert.Spec.expo Q K h n m := fun m => by
    rw [expos_apply]; unfold Cert.Spec.expo Cert.Spec.rowMax
    simp only [hs]
  rw [pay_stages, pv_apply]
  unfold Cert.Spec.attnAt Cert.Spec.rowSum
  refine Finset.sum_congr rfl fun m _ => ?_
  rw [weights_apply, truncf_apply, shapeCast_self, hv]
  simp only [he]

variable (V : (c : Dev nD) → (b : Ref sig .tc) → Buf (Elt Ideal) ((c : Thread nD τ).loc b))

theorem block_indices : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

theorem qblk_apply (c : Dev nD) (t : Fin cfg0.N) (h : Fin 4) (r : Fin 64) (e : Fin 16) (n : Fin 8192)
    (hn : n.val = 64 * t.val + r.val) :
    (iblk0 V c 0 t : Vec Ideal S4x64x16 .f32) (ix3 h r e) = (V c main_v13 : Cert.Spec.A3 4 8192 16) (ix3 h n e) := by
  obtain ⟨e0, e1, e2, -⟩ := block_indices t
  unfold iblk0
  rw [View.read_apply]
  show V c main_v13 _ = V c main_v13 _
  congr 1
  funext a
  apply Fin.ext
  match a with
  | ⟨0, _⟩ => show win0_0.index t (0 : Fin 3) * 4 + 1 * h.val = h.val; rw [e0]; omega
  | ⟨1, _⟩ => show win0_0.index t (1 : Fin 3) * 64 + 1 * r.val = n.val; rw [e1, hn]; omega
  | ⟨2, _⟩ => show win0_0.index t (2 : Fin 3) * 16 + 1 * e.val = e.val; rw [e2]; omega

theorem kblk_apply (c : Dev nD) (t : Fin cfg0.N) (h : Fin 4) (m : Fin 8192) (e : Fin 16) :
    (iblk0 V c 1 t : Vec Ideal S4x8192x16 .f32) (ix3 h m e) = (V c main_v15 : Cert.Spec.A3 4 8192 16) (ix3 h m e) := by
  obtain ⟨-, -, -, e0, e1, e2, -⟩ := block_indices t
  unfold iblk0
  rw [View.read_apply]
  show V c main_v15 _ = V c main_v15 _
  congr 1
  funext a
  apply Fin.ext
  match a with
  | ⟨0, _⟩ => show win0_1.index t (0 : Fin 3) * 4 + 1 * h.val = h.val; rw [e0]; omega
  | ⟨1, _⟩ => show win0_1.index t (1 : Fin 3) * 8192 + 1 * m.val = m.val; rw [e1]; omega
  | ⟨2, _⟩ => show win0_1.index t (2 : Fin 3) * 16 + 1 * e.val = e.val; rw [e2]; omega

theorem vblk_apply (c : Dev nD) (t : Fin cfg0.N) (h : Fin 4) (m : Fin 8192) (e : Fin 16) :
    (iblk0 V c 2 t : Vec Ideal S4x8192x16 .f32) (ix3 h m e) = (V c main_v17 : Cert.Spec.A3 4 8192 16) (ix3 h m e) := by
  obtain ⟨-, -, -, -, -, -, e0, e1, e2, -⟩ := block_indices t
  unfold iblk0
  rw [View.read_apply]
  show V c main_v17 _ = V c main_v17 _
  congr 1
  funext a
  apply Fin.ext
  match a with
  | ⟨0, _⟩ => show win0_2.index t (0 : Fin 3) * 4 + 1 * h.val = h.val; rw [e0]; omega
  | ⟨1, _⟩ => show win0_2.index t (1 : Fin 3) * 8192 + 1 * m.val = m.val; rw [e1]; omega
  | ⟨2, _⟩ => show win0_2.index t (2 : Fin 3) * 16 + 1 * e.val = e.val; rw [e2]; omega

theorem flushed_eq (c : Dev nD) (t : Fin cfg0.N) :
    (dat0 (F := Ideal) V c).flushed 3 t
      = ((cfg0.win 3).blk t).view.read (Elt Ideal) (Cert.Spec.attn (V c main_v13) (V c main_v15) (V c main_v17)) := by
  show (cfg0.win 3).cut (grid0.coords t) ((dat0 (F := Ideal) V c).after 3 t) = _
  rw [after0_3, out0_3_eq]
  have ht : t.val < 128 := Nat.lt_of_lt_of_eq t.isLt N_0
  obtain ⟨-, -, -, -, -, -, -, -, -, e0, e1, e2⟩ := block_indices t
  funext j
  obtain ⟨h, r, d, rfl⟩ : ∃ (h : Fin 4) (r : Fin 64) (d : Fin 16), j = ix3 h r d := ⟨j 0, j 1, j 2, eq_ix3 j⟩
  have hemb : ((cfg0.win 3).blk t).view.emb (ix3 h r d) = ix3 h (⟨64 * t.val + r.val, by omega⟩ : Fin 8192) d := by
    funext a
    apply Fin.ext
    match a with
    | ⟨0, _⟩ => show win0_3.index t (0 : Fin 3) * 4 + 1 * h.val = h.val; rw [e0]; omega
    | ⟨1, _⟩ => show win0_3.index t (1 : Fin 3) * 64 + 1 * r.val = 64 * t.val + r.val; rw [e1]; omega
    | ⟨2, _⟩ => show win0_3.index t (2 : Fin 3) * 16 + 1 * d.val = d.val; rw [e2]; omega
  show k0_pay1 (F := Ideal) (iblk0 V c 0 t) (iblk0 V c 1 t) (iblk0 V c 2 t) (ix3 h r d)
      = Cert.Spec.attn (V c main_v13) (V c main_v15) (V c main_v17) (((cfg0.win 3).blk t).view.emb (ix3 h r d))
  rw [hemb, Cert.Spec.attn_apply]
  exact pay_apply (V c main_v13) (V c main_v15) (V c main_v17) (iblk0 V c 0 t) (iblk0 V c 1 t) (iblk0 V c 2 t) h r
    (⟨64 * t.val + r.val, by omega⟩ : Fin 8192) d
    (fun e => qblk_apply V c t h r e _ rfl) (fun m e => kblk_apply V c t h m e) (fun m => vblk_apply V c t h m d)

theorem mem_out_block (t : Fin cfg0.N) (i : S4x8192x16.Idx) :
    i ∈ ((cfg0.win 3).blk t).view.set ↔ ∀ a : Fin 3, win0_3.index t a * S4x64x16.size a ≤ (i a).val ∧ (i a).val < win0_3.index t a * S4x64x16.size a + S4x64x16.size a := by
  show i ∈ ((View.whole main_v18).slice (win0_3.rect t)).set ↔ _
  rw [View.set_slice_whole, Rect.mem_set_unit]
  exact Iff.rfl

theorem out_cover (i : S4x8192x16.Idx) : ∃ t : Fin cfg0.N, (cfg0.win 3).flush t = true ∧ i ∈ ((cfg0.win 3).blk t).view.set := by
  have hi0 : (i 0).val < 4 := (i 0).isLt
  have hi1 : (i 1).val < 8192 := (i 1).isLt
  have hi2 : (i 2).val < 16 := (i 2).isLt
  have hN : cfg0.N = 128 := N_0
  let t : Fin cfg0.N := ⟨(i 1).val / 64, by rw [hN]; omega⟩
  obtain ⟨-, -, -, -, -, -, -, -, -, e0, e1, e2⟩ := block_indices t
  have e1' : win0_3.index t (1 : Fin 3) = (i 1).val / 64 := e1
  refine ⟨t, flush0_3 t, ?_⟩
  rw [mem_out_block]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 64 ≤ (i 1).val ∧ (i 1).val < win0_3.index t (1 : Fin 3) * 64 + 64; omega
  | ⟨2, _⟩ => show win0_3.index t (2 : Fin 3) * 16 ≤ (i 2).val ∧ (i 2).val < win0_3.index t (2 : Fin 3) * 16 + 16; omega

end Cert.KernelIdeal.Gen.Attn

namespace Cert.KernelIdeal.Gen

open Idealize.ShloMosaic Idealize.ShloMosaic.TcCoe Idealize.SL.Sem

theorem attn_value (V : (c : Dev nD) → (b : Ref sig .tc) → Buf (Elt Ideal) ((c : Thread nD τ).loc b)) (c : Dev nD) :
    ((dat0 (F := Ideal) V c).arrAt 3 cfg0.N : Cert.Spec.A3 4 8192 16)
      = Cert.Spec.attn (V c main_v13) (V c main_v15) (V c main_v17) :=
  (dat0 (F := Ideal) V c).arrAt_eq_of_cover 3 (Cert.Spec.attn (V c main_v13) (V c main_v15) (V c main_v17))
    (fun t _ => Attn.flushed_eq V c t) Attn.out_cover

end Cert.KernelIdeal.Gen

end
-- ==== Proof.KI.Reg1Pieces.lean ====
import proofs.«408232_j82188494176334_2_alg».proof.Proof.KI.Reg1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1 : (![0, 0] : Fin 2 → Nat) = fun _ => 0 := funext fun a => by fin_cases a <;> rfl

variable (c : Dev nD) (i : grid1.Coords) (arg2 : Memref sig .tc .vmem S2048x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

-- Each case's pieces read back as the body's arithmetic of the blocks: `0 + a·x`, `prev + a·x`, and at the last block `relu (prev + a·x + bias)`.
theorem sout1_A_0_eq (hc0 : cond1_0 i) (hc1 : ¬cond1_1 i)
    (x0 : Vec F S2048x1024 .bf16) (x1 : Vec F S1024x256 .f32) (x2 : Vec F S1x256 .f32) :
    acc1 (kernelRun1_A c i arg2 harg2 arg3 harg3 arg4 harg4 arg5 harg5 arg6 harg6 hc0 hc1 x0 x1 x2).2.1 = k1_pay2 x0 x1 (k1_pay1 (F := F)) := by
  unfold acc1
  rw [View.read_writes_eq_canon _ _ _ (scover1_A_0 c _ _ _ _ _ _ _ _ _ _ _ _ _ _ _ _)]
  unfold kernelRun1_A
  dsimp only
  sl_unfold_words
  rw [View.canon_cons_unit_zero (S := S2048x256) hz1, View.readCov_unit_zero (S := S2048x256) _ hz1]
  simp only [View.readAt_eq_ld, harg2.read_unread, harg3.read_unread, View.ld_unit_zero (S := S2048x1024) hz1, View.ld_unit_zero (S := S1024x256) hz1, View.ld_unit_zero (S := S2048x256) hz1, View.ld_unit_zero (S := S1x256) hz1]

theorem sout1_B_0_eq (hc0 : ¬cond1_0 i) (hc1 : ¬cond1_1 i)
    (x0 : Vec F S2048x1024 .bf16) (x1 : Vec F S1024x256 .f32) (x2 : Vec F S1x256 .f32) (xs0 : Vec F S2048x256 .f32) :
    acc1 (kernelRun1_B c i arg2 harg2 arg3 harg3 arg4 harg4 arg5 harg5 arg6 harg6 hc0 hc1 x0 x1 x2 xs0).2.1 = k1_pay2 x0 x1 xs0 := by
  unfold acc1
  rw [View.read_writes_eq_canon _ _ _ (scover1_B_0 c _ _ _ _ _ _ _ _ _ _ _ _ _ _ _ _ _)]
  unfold kernelRun1_B
  dsimp only
  sl_unfold_words
  rw [View.canon_unit_zero hz1]
  simp only [View.readAt_eq_ld, harg2.read_unread, harg3.read_unread, harg6.read_unread, View.ld_unit_zero (S := S2048x1024) hz1, View.ld_unit_zero (S := S1024x256) hz1, View.ld_unit_zero (S := S2048x256) hz1, View.ld_unit_zero (S := S1x256) hz1]

theorem sout1_C_0_eq (hc0 : ¬cond1_0 i) (hc1 : cond1_1 i)
    (x0 : Vec F S2048x1024 .bf16) (x1 : Vec F S1024x256 .f32) (x2 : Vec F S1x256 .f32) (xs0 : Vec F S2048x256 .f32) :
    acc1 (kernelRun1_C c i arg2 harg2 arg3 harg3 arg4 harg4 arg5 harg5 arg6 harg6 hc0 hc1 x0 x1 x2 xs0).2.1 = k1_pay2 x0 x1 xs0 := by
  unfold acc1
  rw [View.read_writes_eq_canon _ _ _ (scover1_C_0 c _ _ _ _ _ _ _ _ _ _ _ _ _ _ _ _ _)]
  unfold kernelRun1_C
  dsimp only
  sl_unfold_words
  rw [View.canon_unit_zero hz1]
  simp only [View.readAt_eq_ld, harg2.read_unread, harg3.read_unread, harg6.read_unread, View.ld_unit_zero (S := S2048x1024) hz1, View.ld_unit_zero (S := S1024x256) hz1, View.ld_unit_zero (S := S2048x256) hz1, View.ld_unit_zero (S := S1x256) hz1]

theorem out1_C_3_eq (hc0 : ¬cond1_0 i) (hc1 : cond1_1 i)
    (x0 : Vec F S2048x1024 .bf16) (x1 : Vec F S1024x256 .f32) (x2 : Vec F S1x256 .f32) (xs0 : Vec F S2048x256 .f32) :
    out1 (kernelRun1_C c i arg2 harg2 arg3 harg3 arg4 harg4 arg5 harg5 arg6 harg6 hc0 hc1 x0 x1 x2 xs0).1 = k1_pay3 (k1_pay2 x0 x1 xs0) x2 := by
  unfold out1
  rw [View.read_writes_eq_canon _ _ _ (cover1_C_3 c _ _ _ _ _ _ _ _ _ _ _ _ _ _ _ _ _)]
  unfold kernelRun1_C
  dsimp only
  sl_unfold_words
  rw [View.canon_unit_zero hz1, View.readCov_unit_zero (S := S2048x256) _ hz1]
  simp only [View.readAt_eq_ld, harg2.read_unread, harg3.read_unread, harg4.read_unread, harg6.read_unread, View.ld_unit_zero (S := S2048x1024) hz1, View.ld_unit_zero (S := S1024x256) hz1, View.ld_unit_zero (S := S2048x256) hz1, View.ld_unit_zero (S := S1x256) hz1]

end Cert.KernelIdeal.Gen

end
-- ==== Proof.KI.Val1.lean ====
import proofs.«408232_j82188494176334_2_alg».proof.Proof.KI.Reg1Pieces
import proofs.«408232_j82188494176334_2_alg».proof.Proof.Spec
import proofs.«408232_j82188494176334_2_alg».proof.Proof.DotAxes
import Idealize.ShloMosaic.Lib.ValueIdx
import Idealize.ShloMosaic.Lib.ValueLayout
import Idealize.ShloMosaic.PureOps.Ideal.Laws

set_option maxRecDepth 16384

noncomputable section

namespace Cert.KernelIdeal.Gen

open Cert.Spec (rowOf colOf blockTerm blockTermN blockTermN_of_lt sum_blockTerm)

open Idealize.ShloMosaic Idealize.ShloMosaic.TcCoe Idealize.SL.Sem
open Idealize.ShloMosaic.Pipeline (Dat)
open Idealize.ShloMosaic.ValueIdx
open scoped BigOperators

variable {F : FTy → Type} [FloatOps F]

variable (V : (c : Dev nD) → (b : Ref sig .tc) → Buf (Elt F) ((c : Thread nD τ).loc b))

abbrev ablk1 (c : Dev nD) (t : Fin cfg1.N) : Vec F S2048x1024 .bf16 := iblk1 V c 0 t
abbrev xblk1 (c : Dev nD) (t : Fin cfg1.N) : Vec F S1024x256 .f32 := iblk1 V c 1 t
abbrev bblk1 (c : Dev nD) (t : Fin cfg1.N) : Vec F S1x256 .f32 := iblk1 V c 2 t
abbrev aarr1 (c : Dev nD) : Vec F S8192x8192 .bf16 := V c main_v75
abbrev xarr1 (c : Dev nD) : Vec F S8192x256 .f32 := V c main_v76
abbrev barr1 (c : Dev nD) : Vec F S1x256 .f32 := V c main_v77

theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

theorem ablk1_apply (c : Dev nD) (t : Fin cfg1.N) (i : Fin 4) (s : Fin 8) (hi : i.val = t.val / 8) (hs : s.val = t.val % 8)
    (r : Fin 2048) (j : Fin 1024) :
    ablk1 V c t (ix2 r j) = aarr1 V c (ix2 (rowOf i r) (colOf s j)) := by
  obtain ⟨e0, e1, -⟩ := idx_facts1 t
  refine congrArg (V c main_v75) (funext fun a => Fin.ext ?_)
  match a with
  | ⟨0, _⟩ => show win1_0.index t (0 : Fin 2) * 2048 + 1 * r.val = 2048 * i.val + r.val; rw [e0, hi]; omega
  | ⟨1, _⟩ => show win1_0.index t (1 : Fin 2) * 1024 + 1 * j.val = 1024 * s.val + j.val; rw [e1, hs]; omega

theorem xblk1_apply (c : Dev nD) (t : Fin cfg1.N) (s : Fin 8) (hs : s.val = t.val % 8) (j : Fin 1024) (f : Fin 256) :
    xblk1 V c t (ix2 j f) = xarr1 V c (ix2 (colOf s j) f) := by
  obtain ⟨-, -, e2, e3, -⟩ := idx_facts1 t
  refine congrArg (V c main_v76) (funext fun a => Fin.ext ?_)
  match a with
  | ⟨0, _⟩ => show win1_1.index t (0 : Fin 2) * 1024 + 1 * j.val = 1024 * s.val + j.val; rw [e2, hs]; omega
  | ⟨1, _⟩ => show win1_1.index t (1 : Fin 2) * 256 + 1 * f.val = f.val; rw [e3]; omega

theorem bblk1_apply (c : Dev nD) (t : Fin cfg1.N) (f : Fin 256) :
    bblk1 V c t (ix2 0 f) = barr1 V c (ix2 0 f) := by
  obtain ⟨-, -, -, -, e4, e5, -⟩ := idx_facts1 t
  refine congrArg (V c main_v77) (funext fun a => Fin.ext ?_)
  match a with
  | ⟨0, _⟩ => show win1_2.index t (0 : Fin 2) * 1 + 1 * 0 = 0; rw [e4]
  | ⟨1, _⟩ => show win1_2.index t (1 : Fin 2) * 256 + 1 * f.val = f.val; rw [e5]; omega

theorem blockProduct1_apply (a : FVec Ideal S2048x1024 .bf16) (x : FVec Ideal S1024x256 .bf16) (r : Fin 2048) (f : Fin 256) :
    FloatOps.matmul dot_S2048x1024_S1024x256_S2048x256_1_0_0_1_n_n none a x (constant (F := Ideal) S2048x256 .f32 0x00000000#32) (ix2 r f)
      = ∑ j : Fin 1024, a (ix2 r j) * x (ix2 j f) := by
  rw [Ideal.matmul_constant_zero_apply, ← Equiv.sum_comp (ValueIdx.contrEquiv1 dot_S2048x1024_S1024x256_S2048x256_1_0_0_1_n_n 1024 rfl rfl).symm]
  refine Finset.sum_congr rfl fun k _ => ?_
  have hk := ValueIdx.contrEquiv1_symm_val dot_S2048x1024_S1024x256_S2048x256_1_0_0_1_n_n 1024 rfl rfl k
  have el : dot_S2048x1024_S1024x256_S2048x256_1_0_0_1_n_n.lhsIdx (ix2 r f) ((ValueIdx.contrEquiv1 dot_S2048x1024_S1024x256_S2048x256_1_0_0_1_n_n 1024 rfl rfl).symm k) = ix2 r k := funext fun b => Fin.ext (by
    match b with
    | ⟨0, _⟩ => refine Cert.DotAxes.lhs_free _ _ _ ?_ ?_ <;> decide +revert
    | ⟨1, _⟩ => exact (DotDims.lhsIdx_val_of_single _ rfl _ _).trans hk)
  have er : dot_S2048x1024_S1024x256_S2048x256_1_0_0_1_n_n.rhsIdx (ix2 r f) ((ValueIdx.contrEquiv1 dot_S2048x1024_S1024x256_S2048x256_1_0_0_1_n_n 1024 rfl rfl).symm k) = ix2 k f := funext fun b => Fin.ext (by
    match b with
    | ⟨0, _⟩ => exact (DotDims.rhsIdx_val_of_single _ rfl _ _).trans hk
    | ⟨1, _⟩ => refine Cert.DotAxes.rhs_free _ _ _ ?_ ?_ <;> decide +revert)
  rw [el, er]

theorem reset1_apply (r : Fin 2048) (f : Fin 256) : (k1_pay1 (F := Ideal)) (ix2 r f) = 0 := by
  unfold k1_pay1
  refine (congrFun (shapeCast_self _ _) (ix2 r f)).trans ?_
  exact Ideal.ofBits_zero_f32

theorem accumulate1_apply (a : Vec Ideal S2048x1024 .bf16) (x : Vec Ideal S1024x256 .f32) (p : Vec Ideal S2048x256 .f32)
    (r : Fin 2048) (f : Fin 256) :
    k1_pay2 (F := Ideal) a x p (ix2 r f) = p (ix2 r f) + ∑ j : Fin 1024, a (ix2 r j) * x (ix2 j f) := by
  unfold k1_pay2
  refine (congrFun (shapeCast_self _ _) (ix2 r f)).trans ?_
  refine (congrArg (fun w => p (ix2 r f) + w) (blockProduct1_apply _ _ r f)).trans ?_
  refine congrArg (fun w => p (ix2 r f) + w) (Finset.sum_congr rfl fun j _ => ?_)
  exact congrArg₂ (· * ·) (congrFun (shapeCast_self a _) (ix2 r j)) (congrFun (shapeCast_self x _) (ix2 j f))

theorem finish1_apply (s : Vec Ideal S2048x256 .f32) (b : Vec Ideal S1x256 .f32) (r : Fin 2048) (f : Fin 256) :
    k1_pay3 (F := Ideal) s b (ix2 r f) = max (s (ix2 r f) + b (ix2 0 f)) (Ideal.ofBits .f32 0x00000000#32) := by
  unfold k1_pay3
  refine congrArg (fun w => max (s (ix2 r f) + w) (Ideal.ofBits .f32 0x00000000#32)) ?_
  refine (broadcastTo_1b_ab_apply _ _ r f).trans ?_
  exact congrFun (shapeCast_self b _) (ix2 0 f)

theorem scratch1_first (c : Dev nD) (t : Fin cfg1.N) (h0 : t.val % 8 = 0) :
    (outsAt1 V c t.val t.isLt).2 = k1_pay2 (ablk1 V c t) (xblk1 V c t) (k1_pay1 (F := F)) := by
  have h1 : ¬t.val % 8 = 7 := by omega
  rw [outsAt1_A V c t h0 h1]
  dsimp only
  exact sout1_A_0_eq c _ _ _ _ _ _ _ _ _ _ _ _ _ _ _ _

theorem scratch1_next (c : Dev nD) (t : Fin cfg1.N) (h0 : ¬t.val % 8 = 0) :
    (outsAt1 V c t.val t.isLt).2
      = k1_pay2 (ablk1 V c t) (xblk1 V c t) (outsAt1 V c (t.val - 1) (by omega)).2 := by
  by_cases h1 : t.val % 8 = 7
  · rw [outsAt1_C V c t h0 h1]
    dsimp only
    exact sout1_C_0_eq c _ _ _ _ _ _ _ _ _ _ _ _ _ _ _ _ _
  · rw [outsAt1_B V c t h0 h1]
    dsimp only
    exact sout1_B_0_eq c _ _ _ _ _ _ _ _ _ _ _ _ _ _ _ _ _

theorem out1_last (c : Dev nD) (t : Fin cfg1.N) (h1 : t.val % 8 = 7) :
    (outsAt1 V c t.val t.isLt).1
      = k1_pay3 (k1_pay2 (ablk1 V c t) (xblk1 V c t) (outsAt1 V c (t.val - 1) (by omega)).2) (bblk1 V c t) := by
  have h0 : ¬t.val % 8 = 0 := by omega
  rw [outsAt1_C V c t h0 h1]
  dsimp only
  exact out1_C_3_eq c _ _ _ _ _ _ _ _ _ _ _ _ _ _ _ _ _

section AtIdeal

variable (V : (c : Dev nD) → (b : Ref sig .tc) → Buf (Elt Ideal) ((c : Thread nD τ).loc b))

theorem blockProduct1_eq (c : Dev nD) (t : Fin cfg1.N) (i : Fin 4) (s : Fin 8) (hi : i.val = t.val / 8) (hs : s.val = t.val % 8)
    (r : Fin 2048) (f : Fin 256) :
    (∑ j : Fin 1024, ablk1 V c t (ix2 r j) * xblk1 V c t (ix2 j f)) = blockTerm (aarr1 V c) (xarr1 V c) i r f s :=
  Finset.sum_congr rfl fun j _ => congrArg₂ (· * ·) (ablk1_apply V c t i s hi hs r j) (xblk1_apply V c t s hs j f)

theorem scratch1_first_apply (c : Dev nD) (t : Fin cfg1.N) (h0 : t.val % 8 = 0) (i : Fin 4) (hi : i.val = t.val / 8)
    (r : Fin 2048) (f : Fin 256) :
    (outsAt1 V c t.val t.isLt).2 (ix2 r f) = blockTerm (aarr1 V c) (xarr1 V c) i r f 0 := by
  refine (congrFun (scratch1_first V c t h0) (ix2 r f)).trans ?_
  refine (accumulate1_apply (ablk1 V c t) (xblk1 V c t) (k1_pay1 (F := Ideal)) r f).trans ?_
  rw [reset1_apply, zero_add]
  exact blockProduct1_eq V c t i 0 hi h0.symm r f

theorem scratch1_apply (c : Dev nD) : ∀ (n : ℕ) (hn : n < cfg1.N) (i : Fin 4), i.val = n / 8 → ∀ (r : Fin 2048) (f : Fin 256),
    (outsAt1 V c n hn).2 (ix2 r f) = ∑ s ∈ Finset.range (n % 8 + 1), blockTermN (aarr1 V c) (xarr1 V c) i r f s
  | 0, hn, i, hi, r, f => by
    refine (scratch1_first_apply V c ⟨0, hn⟩ rfl i hi r f).trans ?_
    rw [Finset.sum_range_one]
    exact (blockTermN_of_lt (aarr1 V c) (xarr1 V c) i r f 0).symm
  | n + 1, hn, i, hi, r, f => by
    have hN : n + 1 < 32 := lt_of_lt_of_eq hn (show cfg1.N = 32 from N_1)
    by_cases h0 : (n + 1) % 8 = 0
    · refine (scratch1_first_apply V c ⟨n + 1, hn⟩ h0 i hi r f).trans ?_
      rw [h0, Finset.sum_range_one]
      exact (blockTermN_of_lt (aarr1 V c) (xarr1 V c) i r f 0).symm
    · have hs : (n + 1) % 8 = n % 8 + 1 := by omega
      refine (congrFun (scratch1_next V c ⟨n + 1, hn⟩ h0) (ix2 r f)).trans ((accumulate1_apply _ _ _ r f).trans ?_)
      show (outsAt1 V c n _).2 (ix2 r f) + _ = _
      rw [blockProduct1_eq V c ⟨n + 1, hn⟩ i ⟨n % 8 + 1, by omega⟩ hi hs.symm r f,
        scratch1_apply c n (Nat.lt_of_succ_lt hn) i (by omega) r f, hs, Finset.sum_range_succ _ (n % 8 + 1)]
      refine congrArg (fun w => (∑ s ∈ Finset.range (n % 8 + 1), blockTermN (aarr1 V c) (xarr1 V c) i r f s) + w) ?_
      exact (blockTermN_of_lt (aarr1 V c) (xarr1 V c) i r f ⟨n % 8 + 1, by omega⟩).symm

theorem out1_apply (c : Dev nD) (t : Fin cfg1.N) (h1 : t.val % 8 = 7) (i : Fin 4) (hi : i.val = t.val / 8) (r : Fin 2048) (f : Fin 256) :
    (outsAt1 V c t.val t.isLt).1 (ix2 r f) = Cert.Spec.denseRelu (aarr1 V c) (xarr1 V c) (barr1 V c) (ix2 (rowOf i r) f) := by
  have h0 : ¬t.val % 8 = 0 := by omega
  refine (congrFun (out1_last V c t h1) (ix2 r f)).trans ?_
  refine (finish1_apply (k1_pay2 (ablk1 V c t) (xblk1 V c t) (outsAt1 V c (t.val - 1) (by omega)).2) (bblk1 V c t) r f).trans ?_
  rw [← scratch1_next V c t h0, scratch1_apply V c t.val t.isLt i hi r f, h1, sum_blockTerm, bblk1_apply V c t f]
  rfl

end AtIdeal

section Final

variable (V : (c : Dev nD) → (b : Ref sig .tc) → Buf (Elt Ideal) ((c : Thread nD τ).loc b))

abbrev result1 (c : Dev nD) : Buf (Elt Ideal) ((c : Thread nD τ).loc main_v78) :=
  Cert.Spec.denseRelu (aarr1 V c) (xarr1 V c) (barr1 V c)

theorem out1_at (c : Dev nD) (t : Fin cfg1.N) (h1 : t.val % 8 = 7) (i : Fin 4) (hi : i.val = t.val / 8) (y : S2048x256.Idx) :
    (outsAt1 V c t.val t.isLt).1 y = result1 V c (ix2 (rowOf i (y 0)) (y 1)) := by
  obtain ⟨r, f, rfl⟩ : ∃ (r : Fin 2048) (f : Fin 256), y = ix2 r f := ⟨y 0, y 1, eq_ix2 y⟩
  exact out1_apply V c t h1 i hi r f

theorem flushed1_eq (c : Dev nD) (t : Fin cfg1.N) (hf : (cfg1.win 3).flush t = true) :
    (dat1 V c).flushed 3 t = ((cfg1.win 3).blk t).view.read (Elt Ideal) (result1 V c) := by
  have h1 : t.val % 8 = 7 := (flush1_3 t).mp hf
  have hN : t.val < 32 := lt_of_lt_of_eq t.isLt (show cfg1.N = 32 from N_1)
  obtain ⟨-, -, -, -, -, -, e6, e7⟩ := idx_facts1 t
  show (cfg1.win 3).cut (grid1.coords t) ((dat1 V c).after 3 t) = _
  rw [after1_3]
  funext y
  refine (out1_at V c t h1 ⟨t.val / 8, by omega⟩ rfl ((cfg1.win 3).xinj (grid1.coords t) y)).trans ?_
  show result1 V c _ = result1 V c (((cfg1.win 3).blk t).view.emb y)
  refine congrArg (result1 V c) (funext fun a => Fin.ext ?_)
  match a with
  | ⟨0, _⟩ => show 2048 * (t.val / 8) + (y 0).val = win1_3.index t (0 : Fin 2) * 2048 + 1 * (y 0).val; rw [e6]; omega
  | ⟨1, _⟩ => show (y 1).val = win1_3.index t (1 : Fin 2) * 256 + 1 * (y 1).val; rw [e7]; omega

theorem final1 (c : Dev nD) : (dat1 V c).arrAt 3 cfg1.N = result1 V c :=
  (dat1 V c).arrAt_eq_of_cover 3 (result1 V c) (flushed1_eq V c) fun i => by
    have hi0 : (i 0).val < 8192 := (i 0).isLt
    have hi1 : (i 1).val < 256 := (i 1).isLt
    have hN : cfg1.N = 32 := N_1
    obtain ⟨t, ht⟩ : ∃ t : Fin cfg1.N, t.val = 8 * ((i 0).val / 2048) + 7 := ⟨⟨8 * ((i 0).val / 2048) + 7, by omega⟩, rfl⟩
    obtain ⟨-, -, -, -, -, -, e6, e7⟩ := idx_facts1 t
    refine ⟨t, (flush1_3 t).mpr (by omega), ?_⟩
    show i ∈ ((View.whole main_v78).slice (win1_3.rect t)).set
    rw [View.set_slice_whole, Rect.mem_set_unit]
    intro a
    match a with
    | ⟨0, _⟩ => show win1_3.index t (0 : Fin 2) * 2048 ≤ (i 0).val ∧ (i 0).val < win1_3.index t (0 : Fin 2) * 2048 + 2048
                rw [e6]; omega
    | ⟨1, _⟩ => show win1_3.index t (1 : Fin 2) * 256 ≤ (i 1).val ∧ (i 1).val < win1_3.index t (1 : Fin 2) * 256 + 256
                rw [e7]; omega

end Final

theorem gcn1_value (V : (c : Dev nD) → (b : Ref sig .tc) → Buf (Elt Ideal) ((c : Thread nD τ).loc b)) (c : Dev nD) :
    ((dat1 (F := Ideal) V c).arrAt 3 cfg1.N : Cert.Spec.A2 8192 256)
      = Cert.Spec.denseRelu (V c main_v75) (V c main_v76) (V c main_v77) :=
  final1 V c

end Cert.KernelIdeal.Gen

end
-- ==== Proof.KI.Reg2Pieces.lean ====
import proofs.«408232_j82188494176334_2_alg».proof.Proof.KI.Reg2
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

variable (c : Dev nD) (i : grid2.Coords) (arg2 : Memref sig .tc .vmem S2048x1024 .bf16) (harg2 : arg2.IsWhole) (arg3 : Memref sig .tc .vmem S1024x256 .f32) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

-- Each case's pieces read back as the body's arithmetic of the blocks: `0 + a·x`, `prev + a·x`, and at the last block `relu (prev + a·x + bias)`.
theorem sout2_A_0_eq (hc0 : cond2_0 i) (hc1 : ¬cond2_1 i)
    (x0 : Vec F S2048x1024 .bf16) (x1 : Vec F S1024x256 .f32) (x2 : Vec F S1x256 .f32) :
    acc2 (kernelRun2_A c i arg2 harg2 arg3 harg3 arg4 harg4 arg5 harg5 arg6 harg6 hc0 hc1 x0 x1 x2).2.1 = k2_pay2 x0 x1 (k2_pay1 (F := F)) := by
  unfold acc2
  rw [View.read_writes_eq_canon _ _ _ (scover2_A_0 c _ _ _ _ _ _ _ _ _ _ _ _ _ _ _ _)]
  unfold kernelRun2_A
  dsimp only
  sl_unfold_words
  rw [View.canon_cons_unit_zero (S := S2048x256) hz2, View.readCov_unit_zero (S := S2048x256) _ hz2]
  simp only [View.readAt_eq_ld, harg2.read_unread, harg3.read_unread, View.ld_unit_zero (S := S2048x1024) hz2, View.ld_unit_zero (S := S1024x256) hz2, View.ld_unit_zero (S := S2048x256) hz2, View.ld_unit_zero (S := S1x256) hz2]

theorem sout2_B_0_eq (hc0 : ¬cond2_0 i) (hc1 : ¬cond2_1 i)
    (x0 : Vec F S2048x1024 .bf16) (x1 : Vec F S1024x256 .f32) (x2 : Vec F S1x256 .f32) (xs0 : Vec F S2048x256 .f32) :
    acc2 (kernelRun2_B c i arg2 harg2 arg3 harg3 arg4 harg4 arg5 harg5 arg6 harg6 hc0 hc1 x0 x1 x2 xs0).2.1 = k2_pay2 x0 x1 xs0 := by
  unfold acc2
  rw [View.read_writes_eq_canon _ _ _ (scover2_B_0 c _ _ _ _ _ _ _ _ _ _ _ _ _ _ _ _ _)]
  unfold kernelRun2_B
  dsimp only
  sl_unfold_words
  rw [View.canon_unit_zero hz2]
  simp only [View.readAt_eq_ld, harg2.read_unread, harg3.read_unread, harg6.read_unread, View.ld_unit_zero (S := S2048x1024) hz2, View.ld_unit_zero (S := S1024x256) hz2, View.ld_unit_zero (S := S2048x256) hz2, View.ld_unit_zero (S := S1x256) hz2]

theorem sout2_C_0_eq (hc0 : ¬cond2_0 i) (hc1 : cond2_1 i)
    (x0 : Vec F S2048x1024 .bf16) (x1 : Vec F S1024x256 .f32) (x2 : Vec F S1x256 .f32) (xs0 : Vec F S2048x256 .f32) :
    acc2 (kernelRun2_C c i arg2 harg2 arg3 harg3 arg4 harg4 arg5 harg5 arg6 harg6 hc0 hc1 x0 x1 x2 xs0).2.1 = k2_pay2 x0 x1 xs0 := by
  unfold acc2
  rw [View.read_writes_eq_canon _ _ _ (scover2_C_0 c _ _ _ _ _ _ _ _ _ _ _ _ _ _ _ _ _)]
  unfold kernelRun2_C
  dsimp only
  sl_unfold_words
  rw [View.canon_unit_zero hz2]
  simp only [View.readAt_eq_ld, harg2.read_unread, harg3.read_unread, harg6.read_unread, View.ld_unit_zero (S := S2048x1024) hz2, View.ld_unit_zero (S := S1024x256) hz2, View.ld_unit_zero (S := S2048x256) hz2, View.ld_unit_zero (S := S1x256) hz2]

theorem out2_C_3_eq (hc0 : ¬cond2_0 i) (hc1 : cond2_1 i)
    (x0 : Vec F S2048x1024 .bf16) (x1 : Vec F S1024x256 .f32) (x2 : Vec F S1x256 .f32) (xs0 : Vec F S2048x256 .f32) :
    out2 (kernelRun2_C c i arg2 harg2 arg3 harg3 arg4 harg4 arg5 harg5 arg6 harg6 hc0 hc1 x0 x1 x2 xs0).1 = k2_pay3 (k2_pay2 x0 x1 xs0) x2 := by
  unfold out2
  rw [View.read_writes_eq_canon _ _ _ (cover2_C_3 c _ _ _ _ _ _ _ _ _ _ _ _ _ _ _ _ _)]
  unfold kernelRun2_C
  dsimp only
  sl_unfold_words
  rw [View.canon_unit_zero hz2, View.readCov_unit_zero (S := S2048x256) _ hz2]
  simp only [View.readAt_eq_ld, harg2.read_unread, harg3.read_unread, harg4.read_unread, harg6.read_unread, View.ld_unit_zero (S := S2048x1024) hz2, View.ld_unit_zero (S := S1024x256) hz2, View.ld_unit_zero (S := S2048x256) hz2, View.ld_unit_zero (S := S1x256) hz2]

end Cert.KernelIdeal.Gen

end
-- ==== Proof.KI.Val2.lean ====
import proofs.«408232_j82188494176334_2_alg».proof.Proof.KI.Reg2Pieces
import proofs.«408232_j82188494176334_2_alg».proof.Proof.Spec
import proofs.«408232_j82188494176334_2_alg».proof.Proof.DotAxes
import Idealize.ShloMosaic.Lib.ValueIdx
import Idealize.ShloMosaic.Lib.ValueLayout
import Idealize.ShloMosaic.PureOps.Ideal.Laws

set_option maxRecDepth 16384

noncomputable section

namespace Cert.KernelIdeal.Gen

open Cert.Spec (rowOf colOf blockTerm blockTermN blockTermN_of_lt sum_blockTerm)

open Idealize.ShloMosaic Idealize.ShloMosaic.TcCoe Idealize.SL.Sem
open Idealize.ShloMosaic.Pipeline (Dat)
open Idealize.ShloMosaic.ValueIdx
open scoped BigOperators

variable {F : FTy → Type} [FloatOps F]

variable (V : (c : Dev nD) → (b : Ref sig .tc) → Buf (Elt F) ((c : Thread nD τ).loc b))

abbrev ablk2 (c : Dev nD) (t : Fin cfg2.N) : Vec F S2048x1024 .bf16 := iblk2 V c 0 t
abbrev xblk2 (c : Dev nD) (t : Fin cfg2.N) : Vec F S1024x256 .f32 := iblk2 V c 1 t
abbrev bblk2 (c : Dev nD) (t : Fin cfg2.N) : Vec F S1x256 .f32 := iblk2 V c 2 t
abbrev aarr2 (c : Dev nD) : Vec F S8192x8192 .bf16 := V c main_v75
abbrev xarr2 (c : Dev nD) : Vec F S8192x256 .f32 := V c main_v79
abbrev barr2 (c : Dev nD) : Vec F S1x256 .f32 := V c main_v80

theorem idx_facts2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = 0 ∧ win2_2.index t (1 : Fin 2) = 0
    ∧ win2_3.index t (0 : Fin 2) = t.val / 8 ∧ win2_3.index t (1 : Fin 2) = 0 :=
  (by decide +kernel : ∀ t : Fin grid2.N, _)

theorem ablk2_apply (c : Dev nD) (t : Fin cfg2.N) (i : Fin 4) (s : Fin 8) (hi : i.val = t.val / 8) (hs : s.val = t.val % 8)
    (r : Fin 2048) (j : Fin 1024) :
    ablk2 V c t (ix2 r j) = aarr2 V c (ix2 (rowOf i r) (colOf s j)) := by
  obtain ⟨e0, e1, -⟩ := idx_facts2 t
  refine congrArg (V c main_v75) (funext fun a => Fin.ext ?_)
  match a with
  | ⟨0, _⟩ => show win2_0.index t (0 : Fin 2) * 2048 + 1 * r.val = 2048 * i.val + r.val; rw [e0, hi]; omega
  | ⟨1, _⟩ => show win2_0.index t (1 : Fin 2) * 1024 + 1 * j.val = 1024 * s.val + j.val; rw [e1, hs]; omega

theorem xblk2_apply (c : Dev nD) (t : Fin cfg2.N) (s : Fin 8) (hs : s.val = t.val % 8) (j : Fin 1024) (f : Fin 256) :
    xblk2 V c t (ix2 j f) = xarr2 V c (ix2 (colOf s j) f) := by
  obtain ⟨-, -, e2, e3, -⟩ := idx_facts2 t
  refine congrArg (V c main_v79) (funext fun a => Fin.ext ?_)
  match a with
  | ⟨0, _⟩ => show win2_1.index t (0 : Fin 2) * 1024 + 1 * j.val = 1024 * s.val + j.val; rw [e2, hs]; omega
  | ⟨1, _⟩ => show win2_1.index t (1 : Fin 2) * 256 + 1 * f.val = f.val; rw [e3]; omega

theorem bblk2_apply (c : Dev nD) (t : Fin cfg2.N) (f : Fin 256) :
    bblk2 V c t (ix2 0 f) = barr2 V c (ix2 0 f) := by
  obtain ⟨-, -, -, -, e4, e5, -⟩ := idx_facts2 t
  refine congrArg (V c main_v80) (funext fun a => Fin.ext ?_)
  match a with
  | ⟨0, _⟩ => show win2_2.index t (0 : Fin 2) * 1 + 1 * 0 = 0; rw [e4]
  | ⟨1, _⟩ => show win2_2.index t (1 : Fin 2) * 256 + 1 * f.val = f.val; rw [e5]; omega

theorem blockProduct2_apply (a : FVec Ideal S2048x1024 .bf16) (x : FVec Ideal S1024x256 .bf16) (r : Fin 2048) (f : Fin 256) :
    FloatOps.matmul dot_S2048x1024_S1024x256_S2048x256_1_0_0_1_n_n none a x (constant (F := Ideal) S2048x256 .f32 0x00000000#32) (ix2 r f)
      = ∑ j : Fin 1024, a (ix2 r j) * x (ix2 j f) := by
  rw [Ideal.matmul_constant_zero_apply, ← Equiv.sum_comp (ValueIdx.contrEquiv1 dot_S2048x1024_S1024x256_S2048x256_1_0_0_1_n_n 1024 rfl rfl).symm]
  refine Finset.sum_congr rfl fun k _ => ?_
  have hk := ValueIdx.contrEquiv1_symm_val dot_S2048x1024_S1024x256_S2048x256_1_0_0_1_n_n 1024 rfl rfl k
  have el : dot_S2048x1024_S1024x256_S2048x256_1_0_0_1_n_n.lhsIdx (ix2 r f) ((ValueIdx.contrEquiv1 dot_S2048x1024_S1024x256_S2048x256_1_0_0_1_n_n 1024 rfl rfl).symm k) = ix2 r k := funext fun b => Fin.ext (by
    match b with
    | ⟨0, _⟩ => refine Cert.DotAxes.lhs_free _ _ _ ?_ ?_ <;> decide +revert
    | ⟨1, _⟩ => exact (DotDims.lhsIdx_val_of_single _ rfl _ _).trans hk)
  have er : dot_S2048x1024_S1024x256_S2048x256_1_0_0_1_n_n.rhsIdx (ix2 r f) ((ValueIdx.contrEquiv1 dot_S2048x1024_S1024x256_S2048x256_1_0_0_1_n_n 1024 rfl rfl).symm k) = ix2 k f := funext fun b => Fin.ext (by
    match b with
    | ⟨0, _⟩ => exact (DotDims.rhsIdx_val_of_single _ rfl _ _).trans hk
    | ⟨1, _⟩ => refine Cert.DotAxes.rhs_free _ _ _ ?_ ?_ <;> decide +revert)
  rw [el, er]

theorem reset2_apply (r : Fin 2048) (f : Fin 256) : (k2_pay1 (F := Ideal)) (ix2 r f) = 0 := by
  unfold k2_pay1
  refine (congrFun (shapeCast_self _ _) (ix2 r f)).trans ?_
  exact Ideal.ofBits_zero_f32

theorem accumulate2_apply (a : Vec Ideal S2048x1024 .bf16) (x : Vec Ideal S1024x256 .f32) (p : Vec Ideal S2048x256 .f32)
    (r : Fin 2048) (f : Fin 256) :
    k2_pay2 (F := Ideal) a x p (ix2 r f) = p (ix2 r f) + ∑ j : Fin 1024, a (ix2 r j) * x (ix2 j f) := by
  unfold k2_pay2
  refine (congrFun (shapeCast_self _ _) (ix2 r f)).trans ?_
  refine (congrArg (fun w => p (ix2 r f) + w) (blockProduct2_apply _ _ r f)).trans ?_
  refine congrArg (fun w => p (ix2 r f) + w) (Finset.sum_congr rfl fun j _ => ?_)
  exact congrArg₂ (· * ·) (congrFun (shapeCast_self a _) (ix2 r j)) (congrFun (shapeCast_self x _) (ix2 j f))

theorem finish2_apply (s : Vec Ideal S2048x256 .f32) (b : Vec Ideal S1x256 .f32) (r : Fin 2048) (f : Fin 256) :
    k2_pay3 (F := Ideal) s b (ix2 r f) = max (s (ix2 r f) + b (ix2 0 f)) (Ideal.ofBits .f32 0x00000000#32) := by
  unfold k2_pay3
  refine congrArg (fun w => max (s (ix2 r f) + w) (Ideal.ofBits .f32 0x00000000#32)) ?_
  refine (broadcastTo_1b_ab_apply _ _ r f).trans ?_
  exact congrFun (shapeCast_self b _) (ix2 0 f)

theorem scratch2_first (c : Dev nD) (t : Fin cfg2.N) (h0 : t.val % 8 = 0) :
    (outsAt2 V c t.val t.isLt).2 = k2_pay2 (ablk2 V c t) (xblk2 V c t) (k2_pay1 (F := F)) := by
  have h1 : ¬t.val % 8 = 7 := by omega
  rw [outsAt2_A V c t h0 h1]
  dsimp only
  exact sout2_A_0_eq c _ _ _ _ _ _ _ _ _ _ _ _ _ _ _ _

theorem scratch2_next (c : Dev nD) (t : Fin cfg2.N) (h0 : ¬t.val % 8 = 0) :
    (outsAt2 V c t.val t.isLt).2
      = k2_pay2 (ablk2 V c t) (xblk2 V c t) (outsAt2 V c (t.val - 1) (by omega)).2 := by
  by_cases h1 : t.val % 8 = 7
  · rw [outsAt2_C V c t h0 h1]
    dsimp only
    exact sout2_C_0_eq c _ _ _ _ _ _ _ _ _ _ _ _ _ _ _ _ _
  · rw [outsAt2_B V c t h0 h1]
    dsimp only
    exact sout2_B_0_eq c _ _ _ _ _ _ _ _ _ _ _ _ _ _ _ _ _

theorem out2_last (c : Dev nD) (t : Fin cfg2.N) (h1 : t.val % 8 = 7) :
    (outsAt2 V c t.val t.isLt).1
      = k2_pay3 (k2_pay2 (ablk2 V c t) (xblk2 V c t) (outsAt2 V c (t.val - 1) (by omega)).2) (bblk2 V c t) := by
  have h0 : ¬t.val % 8 = 0 := by omega
  rw [outsAt2_C V c t h0 h1]
  dsimp only
  exact out2_C_3_eq c _ _ _ _ _ _ _ _ _ _ _ _ _ _ _ _ _

section AtIdeal

variable (V : (c : Dev nD) → (b : Ref sig .tc) → Buf (Elt Ideal) ((c : Thread nD τ).loc b))

theorem blockProduct2_eq (c : Dev nD) (t : Fin cfg2.N) (i : Fin 4) (s : Fin 8) (hi : i.val = t.val / 8) (hs : s.val = t.val % 8)
    (r : Fin 2048) (f : Fin 256) :
    (∑ j : Fin 1024, ablk2 V c t (ix2 r j) * xblk2 V c t (ix2 j f)) = blockTerm (aarr2 V c) (xarr2 V c) i r f s :=
  Finset.sum_congr rfl fun j _ => congrArg₂ (· * ·) (ablk2_apply V c t i s hi hs r j) (xblk2_apply V c t s hs j f)

theorem scratch2_first_apply (c : Dev nD) (t : Fin cfg2.N) (h0 : t.val % 8 = 0) (i : Fin 4) (hi : i.val = t.val / 8)
    (r : Fin 2048) (f : Fin 256) :
    (outsAt2 V c t.val t.isLt).2 (ix2 r f) = blockTerm (aarr2 V c) (xarr2 V c) i r f 0 := by
  refine (congrFun (scratch2_first V c t h0) (ix2 r f)).trans ?_
  refine (accumulate2_apply (ablk2 V c t) (xblk2 V c t) (k2_pay1 (F := Ideal)) r f).trans ?_
  rw [reset2_apply, zero_add]
  exact blockProduct2_eq V c t i 0 hi h0.symm r f

theorem scratch2_apply (c : Dev nD) : ∀ (n : ℕ) (hn : n < cfg2.N) (i : Fin 4), i.val = n / 8 → ∀ (r : Fin 2048) (f : Fin 256),
    (outsAt2 V c n hn).2 (ix2 r f) = ∑ s ∈ Finset.range (n % 8 + 1), blockTermN (aarr2 V c) (xarr2 V c) i r f s
  | 0, hn, i, hi, r, f => by
    refine (scratch2_first_apply V c ⟨0, hn⟩ rfl i hi r f).trans ?_
    rw [Finset.sum_range_one]
    exact (blockTermN_of_lt (aarr2 V c) (xarr2 V c) i r f 0).symm
  | n + 1, hn, i, hi, r, f => by
    have hN : n + 1 < 32 := lt_of_lt_of_eq hn (show cfg2.N = 32 from N_2)
    by_cases h0 : (n + 1) % 8 = 0
    · refine (scratch2_first_apply V c ⟨n + 1, hn⟩ h0 i hi r f).trans ?_
      rw [h0, Finset.sum_range_one]
      exact (blockTermN_of_lt (aarr2 V c) (xarr2 V c) i r f 0).symm
    · have hs : (n + 1) % 8 = n % 8 + 1 := by omega
      refine (congrFun (scratch2_next V c ⟨n + 1, hn⟩ h0) (ix2 r f)).trans ((accumulate2_apply _ _ _ r f).trans ?_)
      show (outsAt2 V c n _).2 (ix2 r f) + _ = _
      rw [blockProduct2_eq V c ⟨n + 1, hn⟩ i ⟨n % 8 + 1, by omega⟩ hi hs.symm r f,
        scratch2_apply c n (Nat.lt_of_succ_lt hn) i (by omega) r f, hs, Finset.sum_range_succ _ (n % 8 + 1)]
      refine congrArg (fun w => (∑ s ∈ Finset.range (n % 8 + 1), blockTermN (aarr2 V c) (xarr2 V c) i r f s) + w) ?_
      exact (blockTermN_of_lt (aarr2 V c) (xarr2 V c) i r f ⟨n % 8 + 1, by omega⟩).symm

theorem out2_apply (c : Dev nD) (t : Fin cfg2.N) (h1 : t.val % 8 = 7) (i : Fin 4) (hi : i.val = t.val / 8) (r : Fin 2048) (f : Fin 256) :
    (outsAt2 V c t.val t.isLt).1 (ix2 r f) = Cert.Spec.denseRelu (aarr2 V c) (xarr2 V c) (barr2 V c) (ix2 (rowOf i r) f) := by
  have h0 : ¬t.val % 8 = 0 := by omega
  refine (congrFun (out2_last V c t h1) (ix2 r f)).trans ?_
  refine (finish2_apply (k2_pay2 (ablk2 V c t) (xblk2 V c t) (outsAt2 V c (t.val - 1) (by omega)).2) (bblk2 V c t) r f).trans ?_
  rw [← scratch2_next V c t h0, scratch2_apply V c t.val t.isLt i hi r f, h1, sum_blockTerm, bblk2_apply V c t f]
  rfl

end AtIdeal

section Final

variable (V : (c : Dev nD) → (b : Ref sig .tc) → Buf (Elt Ideal) ((c : Thread nD τ).loc b))

abbrev result2 (c : Dev nD) : Buf (Elt Ideal) ((c : Thread nD τ).loc main_v81) :=
  Cert.Spec.denseRelu (aarr2 V c) (xarr2 V c) (barr2 V c)

theorem out2_at (c : Dev nD) (t : Fin cfg2.N) (h1 : t.val % 8 = 7) (i : Fin 4) (hi : i.val = t.val / 8) (y : S2048x256.Idx) :
    (outsAt2 V c t.val t.isLt).1 y = result2 V c (ix2 (rowOf i (y 0)) (y 1)) := by
  obtain ⟨r, f, rfl⟩ : ∃ (r : Fin 2048) (f : Fin 256), y = ix2 r f := ⟨y 0, y 1, eq_ix2 y⟩
  exact out2_apply V c t h1 i hi r f

theorem flushed2_eq (c : Dev nD) (t : Fin cfg2.N) (hf : (cfg2.win 3).flush t = true) :
    (dat2 V c).flushed 3 t = ((cfg2.win 3).blk t).view.read (Elt Ideal) (result2 V c) := by
  have h1 : t.val % 8 = 7 := (flush2_3 t).mp hf
  have hN : t.val < 32 := lt_of_lt_of_eq t.isLt (show cfg2.N = 32 from N_2)
  obtain ⟨-, -, -, -, -, -, e6, e7⟩ := idx_facts2 t
  show (cfg2.win 3).cut (grid2.coords t) ((dat2 V c).after 3 t) = _
  rw [after2_3]
  funext y
  refine (out2_at V c t h1 ⟨t.val / 8, by omega⟩ rfl ((cfg2.win 3).xinj (grid2.coords t) y)).trans ?_
  show result2 V c _ = result2 V c (((cfg2.win 3).blk t).view.emb y)
  refine congrArg (result2 V c) (funext fun a => Fin.ext ?_)
  match a with
  | ⟨0, _⟩ => show 2048 * (t.val / 8) + (y 0).val = win2_3.index t (0 : Fin 2) * 2048 + 1 * (y 0).val; rw [e6]; omega
  | ⟨1, _⟩ => show (y 1).val = win2_3.index t (1 : Fin 2) * 256 + 1 * (y 1).val; rw [e7]; omega

theorem final2 (c : Dev nD) : (dat2 V c).arrAt 3 cfg2.N = result2 V c :=
  (dat2 V c).arrAt_eq_of_cover 3 (result2 V c) (flushed2_eq V c) fun i => by
    have hi0 : (i 0).val < 8192 := (i 0).isLt
    have hi1 : (i 1).val < 256 := (i 1).isLt
    have hN : cfg2.N = 32 := N_2
    obtain ⟨t, ht⟩ : ∃ t : Fin cfg2.N, t.val = 8 * ((i 0).val / 2048) + 7 := ⟨⟨8 * ((i 0).val / 2048) + 7, by omega⟩, rfl⟩
    obtain ⟨-, -, -, -, -, -, e6, e7⟩ := idx_facts2 t
    refine ⟨t, (flush2_3 t).mpr (by omega), ?_⟩
    show i ∈ ((View.whole main_v81).slice (win2_3.rect t)).set
    rw [View.set_slice_whole, Rect.mem_set_unit]
    intro a
    match a with
    | ⟨0, _⟩ => show win2_3.index t (0 : Fin 2) * 2048 ≤ (i 0).val ∧ (i 0).val < win2_3.index t (0 : Fin 2) * 2048 + 2048
                rw [e6]; omega
    | ⟨1, _⟩ => show win2_3.index t (1 : Fin 2) * 256 ≤ (i 1).val ∧ (i 1).val < win2_3.index t (1 : Fin 2) * 256 + 256
                rw [e7]; omega

end Final

theorem gcn2_value (V : (c : Dev nD) → (b : Ref sig .tc) → Buf (Elt Ideal) ((c : Thread nD τ).loc b)) (c : Dev nD) :
    ((dat2 (F := Ideal) V c).arrAt 3 cfg2.N : Cert.Spec.A2 8192 256)
      = Cert.Spec.denseRelu (V c main_v75) (V c main_v79) (V c main_v80) :=
  final2 V c

end Cert.KernelIdeal.Gen

end
-- ==== Proof.KI.Reg3Pieces.lean ====
import proofs.«408232_j82188494176334_2_alg».proof.Proof.KI.Reg3
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz3 : (![0, 0] : Fin 2 → Nat) = fun _ => 0 := funext fun a => by fin_cases a <;> rfl

variable (c : Dev nD) (i : grid3.Coords) (arg2 : Memref sig .tc .vmem S2048x1024 .bf16) (harg2 : arg2.IsWhole) (arg3 : Memref sig .tc .vmem S1024x64 .f32) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole)

-- Each case's pieces read back as the body's arithmetic of the blocks: `0 + a·x`, `prev + a·x`, and at the last block `relu (prev + a·x + bias)`.
theorem sout3_A_0_eq (hc0 : cond3_0 i) (hc1 : ¬cond3_1 i)
    (x0 : Vec F S2048x1024 .bf16) (x1 : Vec F S1024x64 .f32) (x2 : Vec F S1x64 .f32) :
    acc3 (kernelRun3_A c i arg2 harg2 arg3 harg3 arg4 harg4 arg5 harg5 arg6 harg6 hc0 hc1 x0 x1 x2).2.1 = k3_pay2 x0 x1 (k3_pay1 (F := F)) := by
  unfold acc3
  rw [View.read_writes_eq_canon _ _ _ (scover3_A_0 c _ _ _ _ _ _ _ _ _ _ _ _ _ _ _ _)]
  unfold kernelRun3_A
  dsimp only
  sl_unfold_words
  rw [View.canon_cons_unit_zero (S := S2048x64) hz3, View.readCov_unit_zero (S := S2048x64) _ hz3]
  simp only [View.readAt_eq_ld, harg2.read_unread, harg3.read_unread, View.ld_unit_zero (S := S2048x1024) hz3, View.ld_unit_zero (S := S1024x64) hz3, View.ld_unit_zero (S := S2048x64) hz3, View.ld_unit_zero (S := S1x64) hz3]

theorem sout3_B_0_eq (hc0 : ¬cond3_0 i) (hc1 : ¬cond3_1 i)
    (x0 : Vec F S2048x1024 .bf16) (x1 : Vec F S1024x64 .f32) (x2 : Vec F S1x64 .f32) (xs0 : Vec F S2048x64 .f32) :
    acc3 (kernelRun3_B c i arg2 harg2 arg3 harg3 arg4 harg4 arg5 harg5 arg6 harg6 hc0 hc1 x0 x1 x2 xs0).2.1 = k3_pay2 x0 x1 xs0 := by
  unfold acc3
  rw [View.read_writes_eq_canon _ _ _ (scover3_B_0 c _ _ _ _ _ _ _ _ _ _ _ _ _ _ _ _ _)]
  unfold kernelRun3_B
  dsimp only
  sl_unfold_words
  rw [View.canon_unit_zero hz3]
  simp only [View.readAt_eq_ld, harg2.read_unread, harg3.read_unread, harg6.read_unread, View.ld_unit_zero (S := S2048x1024) hz3, View.ld_unit_zero (S := S1024x64) hz3, View.ld_unit_zero (S := S2048x64) hz3, View.ld_unit_zero (S := S1x64) hz3]

theorem sout3_C_0_eq (hc0 : ¬cond3_0 i) (hc1 : cond3_1 i)
    (x0 : Vec F S2048x1024 .bf16) (x1 : Vec F S1024x64 .f32) (x2 : Vec F S1x64 .f32) (xs0 : Vec F S2048x64 .f32) :
    acc3 (kernelRun3_C c i arg2 harg2 arg3 harg3 arg4 harg4 arg5 harg5 arg6 harg6 hc0 hc1 x0 x1 x2 xs0).2.1 = k3_pay2 x0 x1 xs0 := by
  unfold acc3
  rw [View.read_writes_eq_canon _ _ _ (scover3_C_0 c _ _ _ _ _ _ _ _ _ _ _ _ _ _ _ _ _)]
  unfold kernelRun3_C
  dsimp only
  sl_unfold_words
  rw [View.canon_unit_zero hz3]
  simp only [View.readAt_eq_ld, harg2.read_unread, harg3.read_unread, harg6.read_unread, View.ld_unit_zero (S := S2048x1024) hz3, View.ld_unit_zero (S := S1024x64) hz3, View.ld_unit_zero (S := S2048x64) hz3, View.ld_unit_zero (S := S1x64) hz3]

theorem out3_C_3_eq (hc0 : ¬cond3_0 i) (hc1 : cond3_1 i)
    (x0 : Vec F S2048x1024 .bf16) (x1 : Vec F S1024x64 .f32) (x2 : Vec F S1x64 .f32) (xs0 : Vec F S2048x64 .f32) :
    out3 (kernelRun3_C c i arg2 harg2 arg3 harg3 arg4 harg4 arg5 harg5 arg6 harg6 hc0 hc1 x0 x1 x2 xs0).1 = k3_pay3 (k3_pay2 x0 x1 xs0) x2 := by
  unfold out3
  rw [View.read_writes_eq_canon _ _ _ (cover3_C_3 c _ _ _ _ _ _ _ _ _ _ _ _ _ _ _ _ _)]
  unfold kernelRun3_C
  dsimp only
  sl_unfold_words
  rw [View.canon_unit_zero hz3, View.readCov_unit_zero (S := S2048x64) _ hz3]
  simp only [View.readAt_eq_ld, harg2.read_unread, harg3.read_unread, harg4.read_unread, harg6.read_unread, View.ld_unit_zero (S := S2048x1024) hz3, View.ld_unit_zero (S := S1024x64) hz3, View.ld_unit_zero (S := S2048x64) hz3, View.ld_unit_zero (S := S1x64) hz3]

end Cert.KernelIdeal.Gen

end
-- ==== Proof.KI.Val3.lean ====
import proofs.«408232_j82188494176334_2_alg».proof.Proof.KI.Reg3Pieces
import proofs.«408232_j82188494176334_2_alg».proof.Proof.Spec
import proofs.«408232_j82188494176334_2_alg».proof.Proof.DotAxes
import Idealize.ShloMosaic.Lib.ValueIdx
import Idealize.ShloMosaic.Lib.ValueLayout
import Idealize.ShloMosaic.PureOps.Ideal.Laws

set_option maxRecDepth 16384

noncomputable section

namespace Cert.KernelIdeal.Gen

open Cert.Spec (rowOf colOf blockTerm blockTermN blockTermN_of_lt sum_blockTerm)

open Idealize.ShloMosaic Idealize.ShloMosaic.TcCoe Idealize.SL.Sem
open Idealize.ShloMosaic.Pipeline (Dat)
open Idealize.ShloMosaic.ValueIdx
open scoped BigOperators

variable {F : FTy → Type} [FloatOps F]

variable (V : (c : Dev nD) → (b : Ref sig .tc) → Buf (Elt F) ((c : Thread nD τ).loc b))

abbrev ablk3 (c : Dev nD) (t : Fin cfg3.N) : Vec F S2048x1024 .bf16 := iblk3 V c 0 t
abbrev xblk3 (c : Dev nD) (t : Fin cfg3.N) : Vec F S1024x64 .f32 := iblk3 V c 1 t
abbrev bblk3 (c : Dev nD) (t : Fin cfg3.N) : Vec F S1x64 .f32 := iblk3 V c 2 t
abbrev aarr3 (c : Dev nD) : Vec F S8192x8192 .bf16 := V c main_v75
abbrev xarr3 (c : Dev nD) : Vec F S8192x64 .f32 := V c main_v82
abbrev barr3 (c : Dev nD) : Vec F S1x64 .f32 := V c main_v83

theorem idx_facts3 : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = 0 ∧ win3_2.index t (1 : Fin 2) = 0
    ∧ win3_3.index t (0 : Fin 2) = t.val / 8 ∧ win3_3.index t (1 : Fin 2) = 0 :=
  (by decide +kernel : ∀ t : Fin grid3.N, _)

theorem ablk3_apply (c : Dev nD) (t : Fin cfg3.N) (i : Fin 4) (s : Fin 8) (hi : i.val = t.val / 8) (hs : s.val = t.val % 8)
    (r : Fin 2048) (j : Fin 1024) :
    ablk3 V c t (ix2 r j) = aarr3 V c (ix2 (rowOf i r) (colOf s j)) := by
  obtain ⟨e0, e1, -⟩ := idx_facts3 t
  refine congrArg (V c main_v75) (funext fun a => Fin.ext ?_)
  match a with
  | ⟨0, _⟩ => show win3_0.index t (0 : Fin 2) * 2048 + 1 * r.val = 2048 * i.val + r.val; rw [e0, hi]; omega
  | ⟨1, _⟩ => show win3_0.index t (1 : Fin 2) * 1024 + 1 * j.val = 1024 * s.val + j.val; rw [e1, hs]; omega

theorem xblk3_apply (c : Dev nD) (t : Fin cfg3.N) (s : Fin 8) (hs : s.val = t.val % 8) (j : Fin 1024) (f : Fin 64) :
    xblk3 V c t (ix2 j f) = xarr3 V c (ix2 (colOf s j) f) := by
  obtain ⟨-, -, e2, e3, -⟩ := idx_facts3 t
  refine congrArg (V c main_v82) (funext fun a => Fin.ext ?_)
  match a with
  | ⟨0, _⟩ => show win3_1.index t (0 : Fin 2) * 1024 + 1 * j.val = 1024 * s.val + j.val; rw [e2, hs]; omega
  | ⟨1, _⟩ => show win3_1.index t (1 : Fin 2) * 64 + 1 * f.val = f.val; rw [e3]; omega

theorem bblk3_apply (c : Dev nD) (t : Fin cfg3.N) (f : Fin 64) :
    bblk3 V c t (ix2 0 f) = barr3 V c (ix2 0 f) := by
  obtain ⟨-, -, -, -, e4, e5, -⟩ := idx_facts3 t
  refine congrArg (V c main_v83) (funext fun a => Fin.ext ?_)
  match a with
  | ⟨0, _⟩ => show win3_2.index t (0 : Fin 2) * 1 + 1 * 0 = 0; rw [e4]
  | ⟨1, _⟩ => show win3_2.index t (1 : Fin 2) * 64 + 1 * f.val = f.val; rw [e5]; omega

theorem blockProduct3_apply (a : FVec Ideal S2048x1024 .bf16) (x : FVec Ideal S1024x64 .bf16) (r : Fin 2048) (f : Fin 64) :
    FloatOps.matmul dot_S2048x1024_S1024x64_S2048x64_1_0_0_1_n_n none a x (constant (F := Ideal) S2048x64 .f32 0x00000000#32) (ix2 r f)
      = ∑ j : Fin 1024, a (ix2 r j) * x (ix2 j f) := by
  rw [Ideal.matmul_constant_zero_apply, ← Equiv.sum_comp (ValueIdx.contrEquiv1 dot_S2048x1024_S1024x64_S2048x64_1_0_0_1_n_n 1024 rfl rfl).symm]
  refine Finset.sum_congr rfl fun k _ => ?_
  have hk := ValueIdx.contrEquiv1_symm_val dot_S2048x1024_S1024x64_S2048x64_1_0_0_1_n_n 1024 rfl rfl k
  have el : dot_S2048x1024_S1024x64_S2048x64_1_0_0_1_n_n.lhsIdx (ix2 r f) ((ValueIdx.contrEquiv1 dot_S2048x1024_S1024x64_S2048x64_1_0_0_1_n_n 1024 rfl rfl).symm k) = ix2 r k := funext fun b => Fin.ext (by
    match b with
    | ⟨0, _⟩ => refine Cert.DotAxes.lhs_free _ _ _ ?_ ?_ <;> decide +revert
    | ⟨1, _⟩ => exact (DotDims.lhsIdx_val_of_single _ rfl _ _).trans hk)
  have er : dot_S2048x1024_S1024x64_S2048x64_1_0_0_1_n_n.rhsIdx (ix2 r f) ((ValueIdx.contrEquiv1 dot_S2048x1024_S1024x64_S2048x64_1_0_0_1_n_n 1024 rfl rfl).symm k) = ix2 k f := funext fun b => Fin.ext (by
    match b with
    | ⟨0, _⟩ => exact (DotDims.rhsIdx_val_of_single _ rfl _ _).trans hk
    | ⟨1, _⟩ => refine Cert.DotAxes.rhs_free _ _ _ ?_ ?_ <;> decide +revert)
  rw [el, er]

theorem reset3_apply (r : Fin 2048) (f : Fin 64) : (k3_pay1 (F := Ideal)) (ix2 r f) = 0 := by
  unfold k3_pay1
  refine (congrFun (shapeCast_self _ _) (ix2 r f)).trans ?_
  exact Ideal.ofBits_zero_f32

theorem accumulate3_apply (a : Vec Ideal S2048x1024 .bf16) (x : Vec Ideal S1024x64 .f32) (p : Vec Ideal S2048x64 .f32)
    (r : Fin 2048) (f : Fin 64) :
    k3_pay2 (F := Ideal) a x p (ix2 r f) = p (ix2 r f) + ∑ j : Fin 1024, a (ix2 r j) * x (ix2 j f) := by
  unfold k3_pay2
  refine (congrFun (shapeCast_self _ _) (ix2 r f)).trans ?_
  refine (congrArg (fun w => p (ix2 r f) + w) (blockProduct3_apply _ _ r f)).trans ?_
  refine congrArg (fun w => p (ix2 r f) + w) (Finset.sum_congr rfl fun j _ => ?_)
  exact congrArg₂ (· * ·) (congrFun (shapeCast_self a _) (ix2 r j)) (congrFun (shapeCast_self x _) (ix2 j f))

theorem finish3_apply (s : Vec Ideal S2048x64 .f32) (b : Vec Ideal S1x64 .f32) (r : Fin 2048) (f : Fin 64) :
    k3_pay3 (F := Ideal) s b (ix2 r f) = s (ix2 r f) + b (ix2 0 f) := by
  unfold k3_pay3
  refine congrArg (fun w => s (ix2 r f) + w) ?_
  refine (broadcastTo_1b_ab_apply _ _ r f).trans ?_
  exact congrFun (shapeCast_self b _) (ix2 0 f)

theorem scratch3_first (c : Dev nD) (t : Fin cfg3.N) (h0 : t.val % 8 = 0) :
    (outsAt3 V c t.val t.isLt).2 = k3_pay2 (ablk3 V c t) (xblk3 V c t) (k3_pay1 (F := F)) := by
  have h1 : ¬t.val % 8 = 7 := by omega
  rw [outsAt3_A V c t h0 h1]
  dsimp only
  exact sout3_A_0_eq c _ _ _ _ _ _ _ _ _ _ _ _ _ _ _ _

theorem scratch3_next (c : Dev nD) (t : Fin cfg3.N) (h0 : ¬t.val % 8 = 0) :
    (outsAt3 V c t.val t.isLt).2
      = k3_pay2 (ablk3 V c t) (xblk3 V c t) (outsAt3 V c (t.val - 1) (by omega)).2 := by
  by_cases h1 : t.val % 8 = 7
  · rw [outsAt3_C V c t h0 h1]
    dsimp only
    exact sout3_C_0_eq c _ _ _ _ _ _ _ _ _ _ _ _ _ _ _ _ _
  · rw [outsAt3_B V c t h0 h1]
    dsimp only
    exact sout3_B_0_eq c _ _ _ _ _ _ _ _ _ _ _ _ _ _ _ _ _

theorem out3_last (c : Dev nD) (t : Fin cfg3.N) (h1 : t.val % 8 = 7) :
    (outsAt3 V c t.val t.isLt).1
      = k3_pay3 (k3_pay2 (ablk3 V c t) (xblk3 V c t) (outsAt3 V c (t.val - 1) (by omega)).2) (bblk3 V c t) := by
  have h0 : ¬t.val % 8 = 0 := by omega
  rw [outsAt3_C V c t h0 h1]
  dsimp only
  exact out3_C_3_eq c _ _ _ _ _ _ _ _ _ _ _ _ _ _ _ _ _

section AtIdeal

variable (V : (c : Dev nD) → (b : Ref sig .tc) → Buf (Elt Ideal) ((c : Thread nD τ).loc b))

theorem blockProduct3_eq (c : Dev nD) (t : Fin cfg3.N) (i : Fin 4) (s : Fin 8) (hi : i.val = t.val / 8) (hs : s.val = t.val % 8)
    (r : Fin 2048) (f : Fin 64) :
    (∑ j : Fin 1024, ablk3 V c t (ix2 r j) * xblk3 V c t (ix2 j f)) = blockTerm (aarr3 V c) (xarr3 V c) i r f s :=
  Finset.sum_congr rfl fun j _ => congrArg₂ (· * ·) (ablk3_apply V c t i s hi hs r j) (xblk3_apply V c t s hs j f)

theorem scratch3_first_apply (c : Dev nD) (t : Fin cfg3.N) (h0 : t.val % 8 = 0) (i : Fin 4) (hi : i.val = t.val / 8)
    (r : Fin 2048) (f : Fin 64) :
    (outsAt3 V c t.val t.isLt).2 (ix2 r f) = blockTerm (aarr3 V c) (xarr3 V c) i r f 0 := by
  refine (congrFun (scratch3_first V c t h0) (ix2 r f)).trans ?_
  refine (accumulate3_apply (ablk3 V c t) (xblk3 V c t) (k3_pay1 (F := Ideal)) r f).trans ?_
  rw [reset3_apply, zero_add]
  exact blockProduct3_eq V c t i 0 hi h0.symm r f

theorem scratch3_apply (c : Dev nD) : ∀ (n : ℕ) (hn : n < cfg3.N) (i : Fin 4), i.val = n / 8 → ∀ (r : Fin 2048) (f : Fin 64),
    (outsAt3 V c n hn).2 (ix2 r f) = ∑ s ∈ Finset.range (n % 8 + 1), blockTermN (aarr3 V c) (xarr3 V c) i r f s
  | 0, hn, i, hi, r, f => by
    refine (scratch3_first_apply V c ⟨0, hn⟩ rfl i hi r f).trans ?_
    rw [Finset.sum_range_one]
    exact (blockTermN_of_lt (aarr3 V c) (xarr3 V c) i r f 0).symm
  | n + 1, hn, i, hi, r, f => by
    have hN : n + 1 < 32 := lt_of_lt_of_eq hn (show cfg3.N = 32 from N_3)
    by_cases h0 : (n + 1) % 8 = 0
    · refine (scratch3_first_apply V c ⟨n + 1, hn⟩ h0 i hi r f).trans ?_
      rw [h0, Finset.sum_range_one]
      exact (blockTermN_of_lt (aarr3 V c) (xarr3 V c) i r f 0).symm
    · have hs : (n + 1) % 8 = n % 8 + 1 := by omega
      refine (congrFun (scratch3_next V c ⟨n + 1, hn⟩ h0) (ix2 r f)).trans ((accumulate3_apply _ _ _ r f).trans ?_)
      show (outsAt3 V c n _).2 (ix2 r f) + _ = _
      rw [blockProduct3_eq V c ⟨n + 1, hn⟩ i ⟨n % 8 + 1, by omega⟩ hi hs.symm r f,
        scratch3_apply c n (Nat.lt_of_succ_lt hn) i (by omega) r f, hs, Finset.sum_range_succ _ (n % 8 + 1)]
      refine congrArg (fun w => (∑ s ∈ Finset.range (n % 8 + 1), blockTermN (aarr3 V c) (xarr3 V c) i r f s) + w) ?_
      exact (blockTermN_of_lt (aarr3 V c) (xarr3 V c) i r f ⟨n % 8 + 1, by omega⟩).symm

theorem out3_apply (c : Dev nD) (t : Fin cfg3.N) (h1 : t.val % 8 = 7) (i : Fin 4) (hi : i.val = t.val / 8) (r : Fin 2048) (f : Fin 64) :
    (outsAt3 V c t.val t.isLt).1 (ix2 r f) = Cert.Spec.dense (aarr3 V c) (xarr3 V c) (barr3 V c) (ix2 (rowOf i r) f) := by
  have h0 : ¬t.val % 8 = 0 := by omega
  refine (congrFun (out3_last V c t h1) (ix2 r f)).trans ?_
  refine (finish3_apply (k3_pay2 (ablk3 V c t) (xblk3 V c t) (outsAt3 V c (t.val - 1) (by omega)).2) (bblk3 V c t) r f).trans ?_
  rw [← scratch3_next V c t h0, scratch3_apply V c t.val t.isLt i hi r f, h1, sum_blockTerm, bblk3_apply V c t f]
  rfl

end AtIdeal

section Final

variable (V : (c : Dev nD) → (b : Ref sig .tc) → Buf (Elt Ideal) ((c : Thread nD τ).loc b))

abbrev result3 (c : Dev nD) : Buf (Elt Ideal) ((c : Thread nD τ).loc main_v84) :=
  Cert.Spec.dense (aarr3 V c) (xarr3 V c) (barr3 V c)

theorem out3_at (c : Dev nD) (t : Fin cfg3.N) (h1 : t.val % 8 = 7) (i : Fin 4) (hi : i.val = t.val / 8) (y : S2048x64.Idx) :
    (outsAt3 V c t.val t.isLt).1 y = result3 V c (ix2 (rowOf i (y 0)) (y 1)) := by
  obtain ⟨r, f, rfl⟩ : ∃ (r : Fin 2048) (f : Fin 64), y = ix2 r f := ⟨y 0, y 1, eq_ix2 y⟩
  exact out3_apply V c t h1 i hi r f

theorem flushed3_eq (c : Dev nD) (t : Fin cfg3.N) (hf : (cfg3.win 3).flush t = true) :
    (dat3 V c).flushed 3 t = ((cfg3.win 3).blk t).view.read (Elt Ideal) (result3 V c) := by
  have h1 : t.val % 8 = 7 := (flush3_3 t).mp hf
  have hN : t.val < 32 := lt_of_lt_of_eq t.isLt (show cfg3.N = 32 from N_3)
  obtain ⟨-, -, -, -, -, -, e6, e7⟩ := idx_facts3 t
  show (cfg3.win 3).cut (grid3.coords t) ((dat3 V c).after 3 t) = _
  rw [after3_3]
  funext y
  refine (out3_at V c t h1 ⟨t.val / 8, by omega⟩ rfl ((cfg3.win 3).xinj (grid3.coords t) y)).trans ?_
  show result3 V c _ = result3 V c (((cfg3.win 3).blk t).view.emb y)
  refine congrArg (result3 V c) (funext fun a => Fin.ext ?_)
  match a with
  | ⟨0, _⟩ => show 2048 * (t.val / 8) + (y 0).val = win3_3.index t (0 : Fin 2) * 2048 + 1 * (y 0).val; rw [e6]; omega
  | ⟨1, _⟩ => show (y 1).val = win3_3.index t (1 : Fin 2) * 64 + 1 * (y 1).val; rw [e7]; omega

theorem final3 (c : Dev nD) : (dat3 V c).arrAt 3 cfg3.N = result3 V c :=
  (dat3 V c).arrAt_eq_of_cover 3 (result3 V c) (flushed3_eq V c) fun i => by
    have hi0 : (i 0).val < 8192 := (i 0).isLt
    have hi1 : (i 1).val < 64 := (i 1).isLt
    have hN : cfg3.N = 32 := N_3
    obtain ⟨t, ht⟩ : ∃ t : Fin cfg3.N, t.val = 8 * ((i 0).val / 2048) + 7 := ⟨⟨8 * ((i 0).val / 2048) + 7, by omega⟩, rfl⟩
    obtain ⟨-, -, -, -, -, -, e6, e7⟩ := idx_facts3 t
    refine ⟨t, (flush3_3 t).mpr (by omega), ?_⟩
    show i ∈ ((View.whole main_v84).slice (win3_3.rect t)).set
    rw [View.set_slice_whole, Rect.mem_set_unit]
    intro a
    match a with
    | ⟨0, _⟩ => show win3_3.index t (0 : Fin 2) * 2048 ≤ (i 0).val ∧ (i 0).val < win3_3.index t (0 : Fin 2) * 2048 + 2048
                rw [e6]; omega
    | ⟨1, _⟩ => show win3_3.index t (1 : Fin 2) * 64 ≤ (i 1).val ∧ (i 1).val < win3_3.index t (1 : Fin 2) * 64 + 64
                rw [e7]; omega

end Final

theorem gcn3_value (V : (c : Dev nD) → (b : Ref sig .tc) → Buf (Elt Ideal) ((c : Thread nD τ).loc b)) (c : Dev nD) :
    ((dat3 (F := Ideal) V c).arrAt 3 cfg3.N : Cert.Spec.A2 8192 64)
      = Cert.Spec.dense (V c main_v75) (V c main_v82) (V c main_v83) :=
  final3 V c

end Cert.KernelIdeal.Gen

end
-- ==== Proof.KI.KerOut.lean ====
import proofs.«408232_j82188494176334_2_alg».proof.Proof.KI.HostVals
import proofs.«408232_j82188494176334_2_alg».proof.Proof.KI.Val0
import proofs.«408232_j82188494176334_2_alg».proof.Proof.KI.Val1
import proofs.«408232_j82188494176334_2_alg».proof.Proof.KI.Val2
import proofs.«408232_j82188494176334_2_alg».proof.Proof.KI.Val3

noncomputable section

namespace Cert.KerOut

open Cert.KernelIdeal Cert.KernelIdeal.Gen Idealize.ShloMosaic Idealize.ShloMosaic.TcCoe Idealize.SL.Sem

def kerOut (a0 : FVec Ideal S8192x256 .f32) (a1 : IVec S2x262144 32) (a2 : FVec Ideal S256x64 .f32) (a3 : FVec Ideal S64 .f32) (a4 : FVec Ideal S192x64 .f32) (a5 : FVec Ideal S192 .f32) (a6 : FVec Ideal S64x64 .f32) (a7 : FVec Ideal S64 .f32) (a8 : FVec Ideal S320x256 .f32) (a9 : FVec Ideal S256 .f32) (a10 : FVec Ideal S256x256 .f32) (a11 : FVec Ideal S256 .f32) (a12 : FVec Ideal S256x64 .f32) (a13 : FVec Ideal S64 .f32) : Cert.Spec.A2 8192 64 :=
  Cert.Spec.dense (Cert.KAdj.adjK (F := Ideal) (Cert.StagesK.srcIdx a1) (Cert.StagesK.dstIdx a1) (Cert.StagesK.dinvR (Cert.StagesK.dstIdx a1)))
    (Cert.StagesK.dot64
      (Cert.Spec.denseRelu (Cert.KAdj.adjK (F := Ideal) (Cert.StagesK.srcIdx a1) (Cert.StagesK.dstIdx a1) (Cert.StagesK.dinvR (Cert.StagesK.dstIdx a1)))
        (Cert.StagesK.dot256
          (Cert.Spec.denseRelu (Cert.KAdj.adjK (F := Ideal) (Cert.StagesK.srcIdx a1) (Cert.StagesK.dstIdx a1) (Cert.StagesK.dinvR (Cert.StagesK.dstIdx a1)))
            (Cert.StagesK.postAttn
              (Cert.Spec.attn (Cert.StagesK.headsQ (Cert.StagesK.proj a0 a2 a3 a4 a5)) (Cert.StagesK.headsK (Cert.StagesK.proj a0 a2 a3 a4 a5)) (Cert.StagesK.headsV (Cert.StagesK.proj a0 a2 a3 a4 a5)))
              a0 a6 a7 a8)
            (Cert.StagesK.brow256 a9))
          a10)
        (Cert.StagesK.brow256 a11))
      a12)
    (Cert.StagesK.brow64 a13)

variable (m : (ℓ : Loc nD τ sig) → Buf (Elt Ideal) ℓ) (ρ : Dev nD → PrngReg) (c : Dev nD)

theorem o1 (A : Spec.A2 8192 8192) (hA : V5 m ρ c main_v75 = A) (X : Spec.A3 4 8192 16) (h : W2 m ρ c main_v18 = X) : W6 m ρ c main_v78
    = Spec.denseRelu A (StagesK.postAttn (F := Ideal) X (W0 m ρ c main_arg0) (W0 m ρ c main_arg6) (W0 m ρ c main_arg7) (W0 m ρ c main_arg8)) (StagesK.brow256 (F := Ideal) (W0 m ρ c main_arg9)) :=
  (left1 m ρ c).trans ((gcn1_value (V5 m ρ) c).trans (congr (congr (congrArg Spec.denseRelu hA)
    ((V5_hw m ρ c).trans (congrArg (StagesK.postAttn · _ _ _ _) h))) (V5_b m ρ c)))

theorem o2 (A : Spec.A2 8192 8192) (hA : V5 m ρ c main_v75 = A) (X : Spec.A2 8192 256) (h : W6 m ρ c main_v78 = X) : W8 m ρ c main_v81
    = Spec.denseRelu A (StagesK.dot256 (F := Ideal) X (W0 m ρ c main_arg10)) (StagesK.brow256 (F := Ideal) (W0 m ρ c main_arg11)) :=
  (left2 m ρ c).trans ((gcn2_value (V7 m ρ) c).trans (congr (congr (congrArg Spec.denseRelu ((V7_adj m ρ c).trans hA))
    ((V7_hw m ρ c).trans (congrArg (StagesK.dot256 · _) h))) (V7_b m ρ c)))

theorem o3 (A : Spec.A2 8192 8192) (hA : V5 m ρ c main_v75 = A) (X : Spec.A2 8192 256) (h : W8 m ρ c main_v81 = X) : ((dat3 (F := Ideal) (V9 m ρ) c).arrAt 3 cfg3.N : Spec.A2 8192 64)
    = Spec.dense A (StagesK.dot64 (F := Ideal) X (W0 m ρ c main_arg12)) (StagesK.brow64 (F := Ideal) (W0 m ρ c main_arg13)) :=
  (gcn3_value (V9 m ρ) c).trans (congr (congr (congrArg Spec.dense ((V9_adj m ρ c).trans hA))
    ((V9_hw m ρ c).trans (congrArg (StagesK.dot64 · _) h))) (V9_b m ρ c))

-- Each region's output array is its layer of the arrays it was entered with, and those are the stages of the arguments and of the region before: substituted from the last region back to the first.
theorem kernel_value :
    ((Cert.KernelIdeal.Gen.dat3 (F := Ideal) (Cert.KernelIdeal.Gen.V9 m ρ) c).arrAt 3 Cert.KernelIdeal.cfg3.N : Cert.Spec.A2 8192 64)
      = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  o3 m ρ c _ (V5_adj m ρ c) _ (o2 m ρ c _ (V5_adj m ρ c) _ (o1 m ρ c _ (V5_adj m ρ c) _ ((left0 m ρ c).trans ((attn_value (V1 m ρ) c).trans
    (congr (congr (congrArg Spec.attn (stretch0_q _)) (stretch0_k _)) (stretch0_v _))))))

end Cert.KerOut

end
-- ==== Proof.Shared.lean ====
import proofs.«408232_j82188494176334_2_alg».proof.Proof.Spec
import Idealize.ShloMosaic.Lib.ValueIdx
import Idealize.ShloMosaic.Lib.Pipeline.Value
import Idealize.ShloMosaic.Lib.ValueLayout

noncomputable section

namespace Cert.Shared

open Idealize.ShloMosaic Idealize.ShloMosaic.ValueIdx

-- a vector laid out as a row [1, C] reads, at (0, j), the vector at j
theorem brow_apply {C : Nat} (b : FVec Ideal ⟨1, ![C]⟩ .f32) (h : (⟨1, ![C]⟩ : Shape).ShapeCasts ⟨2, ![1, C]⟩) :
    (shapeCast _ b h : Cert.Spec.A2 1 C) = fun j => b (ix1 (j 1)) := by
  funext j
  obtain ⟨u, i, rfl⟩ : ∃ (u : Fin 1) (i : Fin C), j = ix2 u i := ⟨j 0, j 1, eq_ix2 j⟩
  exact shapeCast_a_1a_apply b h u i

end Cert.Shared

end
-- ==== Proof.GcnMath.lean ====
import proofs.«408232_j82188494176334_2_alg».proof.Proof.Spec
import Mathlib.Data.EReal.Operations
import Mathlib.Algebra.BigOperators.Group.Finset.Basic
import Mathlib.Algebra.Order.BigOperators.Group.Finset

noncomputable section

open scoped BigOperators

namespace Cert.Spec

open Idealize.ShloMosaic Idealize.ShloMosaic.ValueIdx

theorem sum_mul_of_nonneg {ι : Type*} (s : Finset ι) (w : ι → EReal) (hw : ∀ e ∈ s, 0 ≤ w e) (c : EReal) :
    (∑ e ∈ s, w e) * c = ∑ e ∈ s, w e * c := by
  classical
  induction s using Finset.induction_on with
  | empty => simp
  | insert a s ha ih =>
    have hs : ∀ e ∈ s, 0 ≤ w e := fun e he => hw e (Finset.mem_insert_of_mem he)
    rw [Finset.sum_insert ha, Finset.sum_insert ha,
      EReal.right_distrib_of_nonneg (hw a (Finset.mem_insert_self a s)) (Finset.sum_nonneg hs), ih hs]

theorem rowOfWord_eq_iff {w : BitVec 32} (h0 : 0 ≤ w.toInt) (h1 : w.toInt < 8192) (j : Fin 8192) :
    rowOfWord w = j ↔ w.toInt = (j.val : ℤ) := by
  unfold rowOfWord
  rw [Fin.ext_iff]
  simp only
  omega

theorem sum_by_source {E : Nat} (dstw srcw : Fin E → BitVec 32) (hsrc : WordsInRange srcw) (i : Fin 8192)
    (g : Fin E → Fin 8192 → EReal) :
    (∑ j : Fin 8192, ∑ e ∈ Finset.univ.filter
        (fun e : Fin E => (dstw e).toInt = (i.val : ℤ) ∧ (srcw e).toInt = (j.val : ℤ)), g e j)
      = ∑ e ∈ Finset.univ.filter (fun e : Fin E => (dstw e).toInt = (i.val : ℤ)), g e (rowOfWord (srcw e)) := by
  classical
  rw [← Finset.sum_fiberwise_of_maps_to (s := Finset.univ.filter (fun e : Fin E => (dstw e).toInt = (i.val : ℤ)))
    (t := (Finset.univ : Finset (Fin 8192))) (g := fun e => rowOfWord (srcw e)) (fun e _ => Finset.mem_univ _)]
  refine Finset.sum_congr rfl (fun j _ => ?_)
  rw [Finset.filter_filter]
  refine Finset.sum_congr (Finset.filter_congr (fun e _ => ?_)) (fun e he => ?_)
  · rw [rowOfWord_eq_iff (hsrc e).1 (hsrc e).2]
  · rw [(Finset.mem_filter.mp he).2.2]

theorem denseAt_adj_eq_sparseAt {E C : Nat} (dstw srcw : Fin E → BitVec 32) (nrm : Fin E → EReal) (X : A2 8192 C)
    (b : A2 1 C) (hnn : ∀ e, 0 ≤ nrm e) (hsrc : WordsInRange srcw) (i : Fin 8192) (f : Fin C) :
    denseAt (adj dstw srcw nrm) X b i f = sparseAt dstw srcw nrm X b i f := by
  unfold denseAt sparseAt
  congr 1
  have hdist : ∀ j : Fin 8192, adj dstw srcw nrm (ix2 i j) * X (ix2 j f)
      = ∑ e ∈ Finset.univ.filter
          (fun e : Fin E => (dstw e).toInt = (i.val : ℤ) ∧ (srcw e).toInt = (j.val : ℤ)), nrm e * X (ix2 j f) :=
    fun j => sum_mul_of_nonneg _ nrm (fun e _ => hnn e) _
  rw [Finset.sum_congr rfl (fun j _ => hdist j),
    sum_by_source dstw srcw hsrc i (fun e j => nrm e * X (ix2 j f))]
  exact Finset.sum_congr rfl (fun e _ => EReal.mul_comm _ _)

theorem dense_adj_eq_sparse {E C : Nat} (dstw srcw : Fin E → BitVec 32) (nrm : Fin E → EReal) (X : A2 8192 C)
    (b : A2 1 C) (hnn : ∀ e, 0 ≤ nrm e) (hsrc : WordsInRange srcw) :
    dense (adj dstw srcw nrm) X b = sparse dstw srcw nrm X b :=
  funext fun i => denseAt_adj_eq_sparseAt dstw srcw nrm X b hnn hsrc (i 0) (i 1)

theorem denseRelu_adj_eq_sparseRelu {E C : Nat} (dstw srcw : Fin E → BitVec 32) (nrm : Fin E → EReal) (X : A2 8192 C)
    (b : A2 1 C) (hnn : ∀ e, 0 ≤ nrm e) (hsrc : WordsInRange srcw) :
    denseRelu (adj dstw srcw nrm) X b = sparseRelu dstw srcw nrm X b :=
  funext fun i => congrArg (fun x => max x (Ideal.ofBits .f32 0x00000000#32))
    (denseAt_adj_eq_sparseAt dstw srcw nrm X b hnn hsrc (i 0) (i 1))

end Cert.Spec

end
-- ==== Proof.RefAttn.lean ====
import proofs.«408232_j82188494176334_2_alg».proof.Proof.Stages
import proofs.«408232_j82188494176334_2_alg».proof.Proof.Spec
import Idealize.ShloMosaic.PureOps.Ideal.Laws
import Idealize.ShloMosaic.Lib.ValueIdx
import Idealize.ShloMosaic.Lib.Pipeline.Value
import Idealize.ShloMosaic.Lib.StableHlo.Predicate

noncomputable section

open scoped BigOperators

namespace Cert.RefAttn

open Cert.ReferenceIdeal Cert.ReferenceIdeal.Gen Idealize.ShloMosaic Idealize.ShloMosaic.TcCoe Idealize.ShloMosaic.ValueIdx

theorem div_sqrt_sixteen (x : EReal) :
    Ideal.div x (Ideal.sqrt (Ideal.ofBits .f32 0x41800000#32)) = x * Ideal.ofBits .f32 0x3E800000#32 := by
  have h16 : Ideal.ofBits .f32 0x41800000#32 = ((16 : ℝ) : EReal) := by
    simp [Ideal.ofBits, Ideal.ieee, -EReal.coe_mul]; norm_num
  have hq : Ideal.ofBits .f32 0x3E800000#32 = ((1 / 4 : ℝ) : EReal) := by
    simp [Ideal.ofBits, Ideal.ieee, -EReal.coe_mul]; norm_num
  rw [h16, hq, Ideal.sqrt_coe, if_neg (by norm_num), show (16 : ℝ) = 4 * 4 by norm_num, Real.sqrt_mul_self (by norm_num)]
  exact Ideal.div_coe (by norm_num) x

theorem max_word_negInf (y : EReal) : max (Ideal.ofBits .f32 0xFF800000#32) y = y := by
  have h : Ideal.ofBits .f32 0xFF800000#32 = ⊥ := by simp [Ideal.ofBits, Ideal.ieee]
  rw [h]; exact max_eq_right bot_le

-- each operand index of the contraction is a coordinate of the result index or the contraction position, by evaluation
theorem scoreDot_apply (x y : FVec Ideal S4x8192x16 .f32) (h : Fin 4) (n m : Fin 8192) :
    Host.dotGeneral dot_S4x8192x16_S4x8192x16_S4x8192x8192_2_2_1_1_0_0 none x y (ix3 h n m) = ∑ d : Fin 16, x (ix3 h n d) * y (ix3 h m d) := by
  simp only [Host.dotGeneral]
  rw [Ideal.dotGeneral_apply, ← Equiv.sum_comp (contrEquiv1 dot_S4x8192x16_S4x8192x16_S4x8192x8192_2_2_1_1_0_0 16 rfl rfl).symm]
  refine Finset.sum_congr rfl fun d _ => ?_
  have hd := contrEquiv1_symm_val dot_S4x8192x16_S4x8192x16_S4x8192x8192_2_2_1_1_0_0 16 rfl rfl d
  refine congrArg₂ (· * ·) (congrArg x (funext fun a => Fin.ext ?_)) (congrArg y (funext fun a => Fin.ext ?_)) <;>
    match a with
    | ⟨0, _⟩ | ⟨1, _⟩ | ⟨2, _⟩ => first | exact hd | rfl

theorem valueDot_apply (w : FVec Ideal S4x8192x8192 .f32) (y : FVec Ideal S4x8192x16 .f32) (h : Fin 4) (n : Fin 8192)
    (d : Fin 16) :
    Host.dotGeneral dot_S4x8192x8192_S4x8192x16_S4x8192x16_2_1_1_2_0_0 none w y (ix3 h n d) = ∑ m : Fin 8192, w (ix3 h n m) * y (ix3 h m d) := by
  simp only [Host.dotGeneral]
  rw [Ideal.dotGeneral_apply, ← Equiv.sum_comp (contrEquiv1 dot_S4x8192x8192_S4x8192x16_S4x8192x16_2_1_1_2_0_0 8192 rfl rfl).symm]
  refine Finset.sum_congr rfl fun m _ => ?_
  have hm := contrEquiv1_symm_val dot_S4x8192x8192_S4x8192x16_S4x8192x16_2_1_1_2_0_0 8192 rfl rfl m
  refine congrArg₂ (· * ·) (congrArg w (funext fun a => Fin.ext ?_)) (congrArg y (funext fun a => Fin.ext ?_)) <;>
    match a with
    | ⟨0, _⟩ | ⟨1, _⟩ | ⟨2, _⟩ => first | exact hm | rfl

theorem keepLast_apply (y : FVec Ideal S4x8192 .f32) (h : Fin 4) (n m : Fin 8192) :
    broadcastInDim S4x8192x8192 ![0, 1, 2] bcast_S4x8192x1_S4x8192x8192_0_1_2
      (broadcastInDim S4x8192x1 ![0, 1] bcast_S4x8192_S4x8192x1_0_1 y) (ix3 h n m) = y (ix2 h n) :=
  (broadcastInDim_apply _ bcast_S4x8192x1_S4x8192x8192_0_1_2 _ (ix3 h n m) (ix3 h n (0 : Fin 1)) fun a => match a with
    | ⟨0, _⟩ | ⟨1, _⟩ | ⟨2, _⟩ => rfl).trans
  (broadcastInDim_apply _ bcast_S4x8192_S4x8192x1_0_1 y (ix3 h n (0 : Fin 1)) (ix2 h n) fun a => match a with
    | ⟨0, _⟩ | ⟨1, _⟩ => rfl)

theorem lift_keyAxis (hr : S4x8192x8192.Reduces [2] S4x8192) (h : Fin 4) (n : Fin 8192)
    (m : Fin (S4x8192x8192.size 2)) : hr.lift (ix2 h n) m = ix3 h n (⟨m.val, m.isLt⟩ : Fin 8192) := by
  funext a; apply Fin.ext
  match a with
  | ⟨0, _⟩ => rfl
  | ⟨1, _⟩ => rfl
  | ⟨2, _⟩ => rfl

theorem hostMax_apply (x : FVec Ideal S4x8192x8192 .f32) (h : Fin 4) (n : Fin 8192) :
    Host.reduce FloatOps.maximumf x (constant S_ .f32 0xFF800000#32) reducesTo_S4x8192x8192_S4x8192_d2 h_S_ (ix2 h n)
      = (Finset.univ : Finset (Fin 8192)).fold max (Ideal.ofBits .f32 0xFF800000#32) (fun m => x (ix3 h n m)) := by
  have hr : S4x8192x8192.Reduces [2] S4x8192 := by decide
  rw [Host.reduce_eq_fold_single FloatOps.maximumf x _ reducesTo_S4x8192x8192_S4x8192_d2 hr h_S_]
  have hf : (x ∘ hr.lift (ix2 h n)) = fun m : Fin 8192 => x (ix3 h n m) :=
    funext fun m => congrArg x (lift_keyAxis hr h n m)
  exact congrArg (fun f => Finset.fold max (Ideal.ofBits .f32 0xFF800000#32) f (Finset.univ : Finset (Fin 8192))) hf

theorem hostSum_apply (x : FVec Ideal S4x8192x8192 .f32) (h : Fin 4) (n : Fin 8192) :
    Host.reduceAdd x (constant S_ .f32 0x00000000#32) reducesTo_S4x8192x8192_S4x8192_d2 h_S_ (ix2 h n) = ∑ m : Fin 8192, x (ix3 h n m) := by
  have hr : S4x8192x8192.Reduces [2] S4x8192 := by decide
  simp only [Host.reduceAdd, Ideal.hostReduceAdd_def]
  rw [Ideal.hostReduceAdd_single reducesTo_S4x8192x8192_S4x8192_d2 hr]
  show Ideal.ofBits .f32 0x00000000#32 + _ = _
  rw [Ideal.ofBits_zero_f32, zero_add]
  exact Finset.sum_congr rfl fun m _ => congrArg x (lift_keyAxis hr h n m)

theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostSqrt_apply {s : Shape} (a : FVec Ideal s .f32) (i : s.Idx) : Host.sqrt a i = Ideal.sqrt (a i) := rfl

def scoresR (q k : FVec Ideal S4x8192x16 .f32) : FVec Ideal S4x8192x8192 .f32 :=
  Host.divf (Host.dotGeneral dot_S4x8192x16_S4x8192x16_S4x8192x8192_2_2_1_1_0_0 none q k)
    (broadcastInDim S4x8192x8192 ![] bcast_S_S4x8192x8192 (Host.sqrt (constant S_ .f32 0x41800000#32)))

def rowMaxR (q k : FVec Ideal S4x8192x16 .f32) : FVec Ideal S4x8192 .f32 :=
  maximumf (broadcastInDim S4x8192 ![] bcast_S_S4x8192 (constant S_ .f32 0xFF800000#32))
    (Host.reduce FloatOps.maximumf (scoresR q k) (constant S_ .f32 0xFF800000#32) reducesTo_S4x8192x8192_S4x8192_d2 h_S_)

def expoR (q k : FVec Ideal S4x8192x16 .f32) : FVec Ideal S4x8192x8192 .f32 :=
  Host.exp (subf (scoresR q k) (broadcastInDim S4x8192x8192 ![0, 1, 2] bcast_S4x8192x1_S4x8192x8192_0_1_2
    (broadcastInDim S4x8192x1 ![0, 1] bcast_S4x8192_S4x8192x1_0_1 (rowMaxR q k))))

def rowSumR (q k : FVec Ideal S4x8192x16 .f32) : FVec Ideal S4x8192 .f32 :=
  Host.reduceAdd (expoR q k) (constant S_ .f32 0x00000000#32) reducesTo_S4x8192x8192_S4x8192_d2 h_S_

theorem attnR_parts (q k v : FVec Ideal S4x8192x16 .f32) :
    Cert.Stages.attnR (F := Ideal) q k v
      = Host.dotGeneral dot_S4x8192x8192_S4x8192x16_S4x8192x16_2_1_1_2_0_0 none
          (Host.divf (expoR q k) (broadcastInDim S4x8192x8192 ![0, 1, 2] bcast_S4x8192x1_S4x8192x8192_0_1_2
            (broadcastInDim S4x8192x1 ![0, 1] bcast_S4x8192_S4x8192x1_0_1 (rowSumR q k))))
          v := rfl

theorem scoresR_apply (q k : FVec Ideal S4x8192x16 .f32) (h : Fin 4) (n m : Fin 8192) :
    scoresR q k (ix3 h n m) = Cert.Spec.score q k h n m := by
  unfold scoresR Cert.Spec.score
  rw [hostDivf_apply, StableHlo.Predicate.bcast_scalar _ h_S_, scoreDot_apply, hostSqrt_apply, constant_apply]
  exact div_sqrt_sixteen _

theorem rowMaxR_apply (q k : FVec Ideal S4x8192x16 .f32) (h : Fin 4) (n : Fin 8192) :
    rowMaxR q k (ix2 h n) = Cert.Spec.rowMax q k h n := by
  unfold rowMaxR Cert.Spec.rowMax
  rw [maximumf_apply, StableHlo.Predicate.bcast_scalar _ h_S_, hostMax_apply, constant_apply, max_word_negInf]
  exact congrArg (fun f => Finset.fold max (Ideal.ofBits .f32 0xFF800000#32) f (Finset.univ : Finset (Fin 8192)))
    (funext fun m => scoresR_apply q k h n m)

theorem expoR_apply (q k : FVec Ideal S4x8192x16 .f32) (h : Fin 4) (n m : Fin 8192) :
    expoR q k (ix3 h n m) = Cert.Spec.expo q k h n m := by
  unfold expoR Cert.Spec.expo
  rw [hostExp_apply, subf_apply, keepLast_apply, scoresR_apply, rowMaxR_apply]

theorem rowSumR_apply (q k : FVec Ideal S4x8192x16 .f32) (h : Fin 4) (n : Fin 8192) :
    rowSumR q k (ix2 h n) = Cert.Spec.rowSum q k h n := by
  unfold rowSumR Cert.Spec.rowSum
  rw [hostSum_apply]
  exact Finset.sum_congr rfl fun m _ => expoR_apply q k h n m

theorem attnR_at (q k v : FVec Ideal S4x8192x16 .f32) (h : Fin 4) (n : Fin 8192) (d : Fin 16) :
    Cert.Stages.attnR (F := Ideal) q k v (ix3 h n d) = Cert.Spec.attnAt q k v h n d := by
  unfold Cert.Spec.attnAt
  rw [attnR_parts, valueDot_apply]
  refine Finset.sum_congr rfl fun m _ => ?_
  rw [hostDivf_apply, keepLast_apply, expoR_apply, rowSumR_apply]

theorem attnR_eq (q k v : FVec Ideal S4x8192x16 .f32) :
    (Cert.Stages.attnR (F := Ideal) q k v : Cert.Spec.A3 4 8192 16) = Cert.Spec.attn q k v := by
  funext i
  obtain ⟨h, n, d, rfl⟩ : ∃ (h : Fin 4) (n : Fin 8192) (d : Fin 16), i = ix3 h n d := ⟨i 0, i 1, i 2, eq_ix3 i⟩
  rw [Cert.Spec.attn_apply]
  exact attnR_at q k v h n d

end Cert.RefAttn

end
-- ==== Proof.EdgeFacts.lean ====
import proofs.«408232_j82188494176334_2_alg».proof.Proof.Stages
import proofs.«408232_j82188494176334_2_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.EdgeFacts

open Cert.ReferenceIdeal Idealize.ShloMosaic Idealize.ShloMosaic.ValueIdx

theorem rowVec_apply (ei : IVec S2x262144 32) (r : Fin 2) (h : S2x262144.Slices ![r.val, 0] S1x262144)
    (hc : S1x262144.ShapeCasts S262144) (e : Fin 262144) :
    shapeCast S262144 (extractStridedSlice S1x262144 ![r.val, 0] ei h) hc (ix1 e) = ei (ix2 r e) := by
  refine (shapeCast_apply _ hc (ix1 e) (ix2 (0 : Fin 1) e) ?_).trans ?_
  · rw [Shape.rowMajor_val_one, Shape.rowMajor_val_two]
    show (0 : Nat) * _ + e.val = e.val
    omega
  · refine extractStridedSlice_apply _ ei h _ (ix2 r e) fun a => ?_
    match a with
    | ⟨0, _⟩ => show r.val = r.val + 0; omega
    | ⟨1, _⟩ => show e.val = 0 + e.val; omega

theorem cat_apply_lt (x : IVec S262144 32) (e : Fin 270336) (he : e.val < 262144) :
    concatenate S270336 0 [⟨S262144, x⟩, ⟨S8192, iotaInDim S8192 32 0⟩] Gen.concatenates_S262144_S8192_S270336_d0 (ix1 e)
      = x (ix1 ⟨e.val, he⟩) := by
  refine concatenate_pair_apply_left (0 : Fin 1) x _ _ (ix1 e) rfl (ix1 ⟨e.val, he⟩) fun b => ?_
  match b with
  | ⟨0, _⟩ => rfl

theorem cat_apply_ge (x : IVec S262144 32) (e : Fin 270336) (he : 262144 ≤ e.val) :
    concatenate S270336 0 [⟨S262144, x⟩, ⟨S8192, iotaInDim S8192 32 0⟩] Gen.concatenates_S262144_S8192_S270336_d0 (ix1 e)
      = BitVec.ofNat 32 (e.val - 262144) := by
  have hlt : e.val - 262144 < 8192 := by have := e.isLt; omega
  refine (concatenate_pair_apply_right (0 : Fin 1) x (iotaInDim S8192 32 0) _ (ix1 e) rfl rfl
    (ix1 ⟨e.val - 262144, hlt⟩) (fun b hb => ?_) ?_).trans rfl
  · exact absurd (Subsingleton.elim _ _) hb
  · show e.val - 262144 + 262144 = e.val
    omega

theorem count_inRange (n : Nat) (hn : n < 8192) :
    0 ≤ (BitVec.ofNat 32 n).toInt ∧ (BitVec.ofNat 32 n).toInt < 8192 := by
  rw [StableHlo.Predicate.toInt_ofNat_small n (by omega)]
  omega

theorem cat_inRange (ei : IVec S2x262144 32) (hin : ∀ i : S2x262144.Idx, 0 ≤ (ei i).toInt ∧ (ei i).toInt < 8192)
    (r : Fin 2) (h : S2x262144.Slices ![r.val, 0] S1x262144) (hc : S1x262144.ShapeCasts S262144) :
    Cert.Spec.WordsInRange (fun e : Fin 270336 =>
      concatenate S270336 0 [⟨S262144, shapeCast S262144 (extractStridedSlice S1x262144 ![r.val, 0] ei h) hc⟩,
        ⟨S8192, iotaInDim S8192 32 0⟩] Gen.concatenates_S262144_S8192_S270336_d0 (ix1 e)) := by
  intro e
  by_cases he : e.val < 262144
  · show 0 ≤ BitVec.toInt (concatenate _ _ _ _ (ix1 e)) ∧ BitVec.toInt (concatenate _ _ _ _ (ix1 e)) < 8192
    rw [cat_apply_lt _ e he, rowVec_apply ei r h hc]
    exact hin _
  · show 0 ≤ BitVec.toInt (concatenate _ _ _ _ (ix1 e)) ∧ BitVec.toInt (concatenate _ _ _ _ (ix1 e)) < 8192
    rw [cat_apply_ge _ e (by omega)]
    exact count_inRange _ (by have := e.isLt; omega)

theorem srcIdx_inRange (ei : IVec S2x262144 32) (h : ∀ i : S2x262144.Idx, 0 ≤ (ei i).toInt ∧ (ei i).toInt < 8192) :
    Cert.Spec.WordsInRange (fun e : Fin 270336 => Cert.Stages.srcIdx ei (ix1 e)) :=
  cat_inRange ei h 0 Gen.slices_S2x262144_S1x262144_0_0 Gen.shapeCasts_S1x262144_S262144

theorem dstIdx_inRange (ei : IVec S2x262144 32) (h : ∀ i : S2x262144.Idx, 0 ≤ (ei i).toInt ∧ (ei i).toInt < 8192) :
    Cert.Spec.WordsInRange (fun e : Fin 270336 => Cert.Stages.dstIdx ei (ix1 e)) :=
  cat_inRange ei h 1 Gen.slices_S2x262144_S1x262144_1_0 Gen.shapeCasts_S1x262144_S262144

theorem floor_pos : (0 : EReal) < Ideal.ofBits .f32 0x2B8CBCCC#32 := by
  simp [Ideal.ofBits, Ideal.ieee, -EReal.coe_mul]

theorem rsqrt_nonneg_of_pos (x : EReal) (hx : 0 < x) : 0 ≤ Ideal.rsqrt x := by
  induction x using EReal.rec with
  | bot => exact absurd hx (by simp)
  | top => rw [Ideal.rsqrt_top]
  | coe r =>
    have hr : 0 < r := EReal.coe_pos.1 hx
    rw [Ideal.rsqrt_coe, if_neg (not_lt.2 hr.le), if_neg hr.ne']
    exact EReal.coe_nonneg.2 (inv_nonneg.2 (Real.sqrt_nonneg r))

theorem choice_nonneg (c : BitVec 1) (d ε z : EReal) (hε : 0 < ε) (hz : 0 ≤ z) :
    0 ≤ Scalar.select c (Ideal.rsqrt (max d ε)) z := by
  unfold Scalar.select
  split
  · exact rsqrt_nonneg_of_pos _ (lt_of_lt_of_le hε (le_max_right _ _))
  · exact hz

theorem bcastConst_apply {T : Shape} (b : BitVec 32) (h : S_.BroadcastsInDim T ![]) (i : T.Idx) :
    broadcastInDim T ![] h (constant (F := Ideal) S_ .f32 b) i = Ideal.ofBits .f32 b := rfl

theorem choice_apply {T : Shape} (C : IVec T 1) (D B Z : FVec Ideal T .f32) (i : T.Idx) :
    select C (Host.rsqrt (maximumf D B)) Z i = Scalar.select (C i) (Ideal.rsqrt (max (D i) (B i))) (Z i) := rfl

theorem dinvR_nonneg (dst : IVec S270336 32) (i : S8192.Idx) : 0 ≤ (Cert.Stages.dinvR (F := Ideal) dst i : EReal) := by
  unfold Cert.Stages.dinvR
  generalize Host.scatterAdd (F := Ideal) scatter_S8192_S270336x1_S270336_n_0_0_1 _ _ _ = deg
  rw [choice_apply]
  exact choice_nonneg _ _ _ _
    (lt_of_lt_of_eq floor_pos (bcastConst_apply 0x2B8CBCCC#32 Gen.bcast_S_S8192 i).symm)
    (le_of_eq (Ideal.ofBits_zero_f32.symm.trans (bcastConst_apply 0x00000000#32 Gen.bcast_S_S8192 i).symm))

theorem nrmOf_nonneg {E : Nat} (dinv : Cert.Spec.A1 8192) (h : ∀ i, 0 ≤ dinv i) (s d : Fin E → BitVec 32) :
    ∀ e, 0 ≤ Cert.Spec.nrmOf dinv s d e :=
  fun e => EReal.mul_nonneg (h _) (h _)

end Cert.EdgeFacts

end
-- ==== Proof.RefOut.lean ====
import proofs.«408232_j82188494176334_2_alg».proof.Proof.Stages

noncomputable section

namespace Cert.RefTerm

open Cert.ReferenceIdeal Cert.ReferenceIdeal.Gen Idealize.ShloMosaic Idealize.ShloMosaic.TcCoe

variable {F : FTy → Type} [FloatOps F]

def refOut (a0 : FVec F S8192x256 .f32) (a1 : IVec S2x262144 32) (a2 : FVec F S256x64 .f32) (a3 : FVec F S64 .f32) (a4 : FVec F S192x64 .f32) (a5 : FVec F S192 .f32) (a6 : FVec F S64x64 .f32) (a7 : FVec F S64 .f32) (a8 : FVec F S320x256 .f32) (a9 : FVec F S256 .f32) (a10 : FVec F S256x256 .f32) (a11 : FVec F S256 .f32) (a12 : FVec F S256x64 .f32) (a13 : FVec F S64 .f32) : FVec F S8192x64 .f32 :=
  Cert.Stages.layerR64 (Cert.Stages.srcIdx a1) (Cert.Stages.dstIdx a1) (Cert.Stages.dinvR (Cert.Stages.dstIdx a1))
    (Cert.Stages.dot64
      (Cert.Stages.reluR256
        (Cert.Stages.layerR256 (Cert.Stages.srcIdx a1) (Cert.Stages.dstIdx a1) (Cert.Stages.dinvR (Cert.Stages.dstIdx a1))
          (Cert.Stages.dot256
            (Cert.Stages.reluR256
              (Cert.Stages.layerR256 (Cert.Stages.srcIdx a1) (Cert.Stages.dstIdx a1) (Cert.Stages.dinvR (Cert.Stages.dstIdx a1))
                (Cert.Stages.postAttn
                  (Cert.Stages.attnR (Cert.Stages.headsQ (Cert.Stages.proj a0 a2 a3 a4 a5)) (Cert.Stages.headsK (Cert.Stages.proj a0 a2 a3 a4 a5))
                    (Cert.Stages.headsV (Cert.Stages.proj a0 a2 a3 a4 a5)))
                  a0 a6 a7 a8)
                a9))
            a10)
          a11))
      a12)
    a13

end Cert.RefTerm

end
-- ==== Proof.Bridge.lean ====
import proofs.«408232_j82188494176334_2_alg».proof.Proof.Shared
import proofs.«408232_j82188494176334_2_alg».proof.Proof.KI.KAdj
import proofs.«408232_j82188494176334_2_alg».proof.Proof.KI.KerOut
import proofs.«408232_j82188494176334_2_alg».proof.Proof.GcnMath
import proofs.«408232_j82188494176334_2_alg».proof.Proof.RefLayer
import proofs.«408232_j82188494176334_2_alg».proof.Proof.RefAttn
import proofs.«408232_j82188494176334_2_alg».proof.Proof.EdgeFacts
import proofs.«408232_j82188494176334_2_alg».proof.Proof.RefOut
import proofs.«408232_j82188494176334_2_alg».proof.Proof.Spec

set_option maxRecDepth 16384

noncomputable section

namespace Cert.Bridge

open Idealize.ShloMosaic Idealize.ShloMosaic.ValueIdx

theorem layer256_relu (S D : IVec Cert.KernelIdeal.S270336 32) (DV : FVec Ideal Cert.KernelIdeal.S8192 .f32)
    (hs : Cert.Spec.WordsInRange (fun e : Fin 270336 => S (ix1 e)))
    (hd : Cert.Spec.WordsInRange (fun e : Fin 270336 => D (ix1 e)))
    (hdv : ∀ i : Cert.KernelIdeal.S8192.Idx, 0 ≤ (DV i : EReal))
    (X : FVec Ideal Cert.KernelIdeal.S8192x256 .f32) (b : FVec Ideal Cert.KernelIdeal.S256 .f32) :
    Cert.Spec.denseRelu (Cert.KAdj.adjK (F := Ideal) S D DV) X (Cert.StagesK.brow256 (F := Ideal) b)
      = (Cert.Stages.reluR256 (F := Ideal) (Cert.Stages.layerR256 (F := Ideal) S D DV X b) : Cert.Spec.A2 8192 256) := by
  unfold Cert.StagesK.brow256
  rw [Cert.KAdj.adjK_eq S D DV hs hd, Cert.Shared.brow_apply,
    Cert.Spec.denseRelu_adj_eq_sparseRelu _ _ _ _ _ (Cert.EdgeFacts.nrmOf_nonneg DV hdv _ _) hs]
  exact (Cert.RefLayer.layerR256_relu_eq S D DV X b hs hd).symm

theorem layer64 (S D : IVec Cert.KernelIdeal.S270336 32) (DV : FVec Ideal Cert.KernelIdeal.S8192 .f32)
    (hs : Cert.Spec.WordsInRange (fun e : Fin 270336 => S (ix1 e)))
    (hd : Cert.Spec.WordsInRange (fun e : Fin 270336 => D (ix1 e)))
    (hdv : ∀ i : Cert.KernelIdeal.S8192.Idx, 0 ≤ (DV i : EReal))
    (X : FVec Ideal Cert.KernelIdeal.S8192x64 .f32) (b : FVec Ideal Cert.KernelIdeal.S64 .f32) :
    Cert.Spec.dense (Cert.KAdj.adjK (F := Ideal) S D DV) X (Cert.StagesK.brow64 (F := Ideal) b)
      = (Cert.Stages.layerR64 (F := Ideal) S D DV X b : Cert.Spec.A2 8192 64) := by
  unfold Cert.StagesK.brow64
  rw [Cert.KAdj.adjK_eq S D DV hs hd, Cert.Shared.brow_apply,
    Cert.Spec.dense_adj_eq_sparse _ _ _ _ _ (Cert.EdgeFacts.nrmOf_nonneg DV hdv _ _) hs]
  exact (Cert.RefLayer.layerR64_eq S D DV X b hs hd).symm

theorem ker_eq_ref (a0 : FVec Ideal Cert.KernelIdeal.S8192x256 .f32) (a1 : IVec Cert.KernelIdeal.S2x262144 32)
    (a2 : FVec Ideal Cert.KernelIdeal.S256x64 .f32) (a3 : FVec Ideal Cert.KernelIdeal.S64 .f32)
    (a4 : FVec Ideal Cert.KernelIdeal.S192x64 .f32) (a5 : FVec Ideal Cert.KernelIdeal.S192 .f32)
    (a6 : FVec Ideal Cert.KernelIdeal.S64x64 .f32) (a7 : FVec Ideal Cert.KernelIdeal.S64 .f32)
    (a8 : FVec Ideal Cert.KernelIdeal.S320x256 .f32) (a9 : FVec Ideal Cert.KernelIdeal.S256 .f32)
    (a10 : FVec Ideal Cert.KernelIdeal.S256x256 .f32) (a11 : FVec Ideal Cert.KernelIdeal.S256 .f32)
    (a12 : FVec Ideal Cert.KernelIdeal.S256x64 .f32) (a13 : FVec Ideal Cert.KernelIdeal.S64 .f32)
    (hr : ∀ i : Cert.KernelIdeal.S2x262144.Idx, 0 ≤ (a1 i).toInt ∧ (a1 i).toInt < 8192) :
    Cert.KerOut.kerOut a0 a1 a2 a3 a4 a5 a6 a7 a8 a9 a10 a11 a12 a13
      = (Cert.RefTerm.refOut (F := Ideal) a0 a1 a2 a3 a4 a5 a6 a7 a8 a9 a10 a11 a12 a13 : Cert.Spec.A2 8192 64) := by
  have hs := Cert.EdgeFacts.srcIdx_inRange a1 hr
  have hd := Cert.EdgeFacts.dstIdx_inRange a1 hr
  have hdv := Cert.EdgeFacts.dinvR_nonneg (Cert.Stages.dstIdx a1)
  unfold Cert.KerOut.kerOut Cert.RefTerm.refOut Cert.StagesK.proj Cert.StagesK.headsQ Cert.StagesK.headsK Cert.StagesK.headsV
    Cert.StagesK.postAttn Cert.StagesK.srcIdx Cert.StagesK.dstIdx Cert.StagesK.dinvR Cert.StagesK.dot256 Cert.StagesK.dot64
  rw [← Cert.RefAttn.attnR_eq]
  rw [layer256_relu _ _ _ hs hd hdv, layer256_relu _ _ _ hs hd hdv, layer64 _ _ _ hs hd hdv]

end Cert.Bridge

end
-- ==== Proof.RefRunHand.lean ====
import proofs.«408232_j82188494176334_2_alg».proof.Proof.RefOut
import Idealize.ShloMosaic.Lib.StableHlo.RunLoop

set_option maxRecDepth 16384

noncomputable section

namespace Cert.RefRunHand

open Cert.ReferenceIdeal Cert.ReferenceIdeal.Gen Cert.Stages Idealize.ShloMosaic Idealize.ShloMosaic.TcCoe Idealize.SL.Sem Idealize.ShloMosaic.StableHlo

variable {F : FTy → Type} [FloatOps F]

-- A negative index wrapped into range: `x < 0 ? x + 8192 : x`, as a column.
abbrev wrap (x : TRef sig ⟨S270336, .i32⟩) (c0 : TRef sig ⟨S_, .i32⟩) (z : TRef sig ⟨S270336, .i32⟩) (lt : TRef sig ⟨S270336, .i1⟩)
    (c1 : TRef sig ⟨S_, .i32⟩) (k s sel : TRef sig ⟨S270336, .i32⟩) (out : TRef sig ⟨S270336x1, .i32⟩) : List (HloOp τ sig (Elt F)) :=
  [ TRef.nullary c0 (constantI S_ 32 0#32), TRef.unary c0 z (broadcastInDim S270336 ![] bcast_S_S270336), TRef.binary x z lt (cmpi .slt),
    TRef.nullary c1 (constantI S_ 32 8192#32), TRef.unary c1 k (broadcastInDim S270336 ![] bcast_S_S270336), TRef.binary x k s addi,
    TRef.ternary lt s x sel select, TRef.unary sel out (broadcastInDim S270336x1 ![0] bcast_S270336_S270336x1_0) ]

-- The edge list's two index vectors with the self loops appended, and the inverse square roots of the in-degrees.
abbrev edges (e : TRef sig ⟨S2x262144, .i32⟩) (a0 b0 : TRef sig ⟨S1x262144, .i32⟩) (a1 b1 : TRef sig ⟨S262144, .i32⟩) (i0 i1 : TRef sig ⟨S8192, .i32⟩) (s d : TRef sig ⟨S270336, .i32⟩)
    (c0 c1 c2 c3 c4 k0 : TRef sig ⟨S_, .f32⟩) (on : TRef sig ⟨S270336, .f32⟩) (z dg z2 ep mx rs k1 o : TRef sig ⟨S8192, .f32⟩)
    (dc : TRef sig ⟨S270336x1, .i32⟩) (pos : TRef sig ⟨S8192, .i1⟩) : List (HloOp τ sig (Elt F)) :=
  [ TRef.unary e a0 (extractStridedSlice S1x262144 ![0, 0] · slices_S2x262144_S1x262144_0_0),
    TRef.reshape a0 a1 rfl shapeCasts_S1x262144_S262144,
    TRef.nullary i0 (iotaInDim S8192 32 0),
    TRef.binary a1 i0 s (fun a b => concatenate S270336 0 [⟨S262144, a⟩, ⟨S8192, b⟩] concatenates_S262144_S8192_S270336_d0),
    TRef.unary e b0 (extractStridedSlice S1x262144 ![1, 0] · slices_S2x262144_S1x262144_1_0),
    TRef.reshape b0 b1 rfl shapeCasts_S1x262144_S262144,
    TRef.nullary i1 (iotaInDim S8192 32 0),
    TRef.binary b1 i1 d (fun a b => concatenate S270336 0 [⟨S262144, a⟩, ⟨S8192, b⟩] concatenates_S262144_S8192_S270336_d0),
    TRef.nullary c0 (constant S_ .f32 0x3F800000#32),
    TRef.unary c0 on (broadcastInDim S270336 ![] bcast_S_S270336),
    TRef.nullary c1 (constant S_ .f32 0x00000000#32),
    TRef.unary c1 z (broadcastInDim S8192 ![] bcast_S_S8192),
    TRef.unary d dc (broadcastInDim S270336x1 ![0] bcast_S270336_S270336x1_0),
    TRef.ternary z dc on dg (Host.scatterAdd scatter_S8192_S270336x1_S270336_n_0_0_1),
    TRef.nullary c2 (constant S_ .f32 0x00000000#32),
    TRef.unary c2 z2 (broadcastInDim S8192 ![] bcast_S_S8192),
    TRef.binary dg z2 pos (cmpf .ogt),
    TRef.nullary c3 (constant S_ .f32 0x2B8CBCCC#32),
    TRef.unary c3 ep (broadcastInDim S8192 ![] bcast_S_S8192),
    TRef.binary dg ep mx maximumf,
    TRef.unary mx rs Host.rsqrt,
    TRef.nullary c4 (constant S_ .f32 0x00000000#32),
    TRef.unary c4 k0 id,
    TRef.unary k0 k1 (broadcastInDim S8192 ![] bcast_S_S8192),
    TRef.ternary pos rs k1 o select ]

abbrev chunk1 : List (HloOp τ sig (Elt F)) :=
  [ binary main_arg0 main_arg2 main_v0 (Host.dotGeneral dot_S8192x256_S256x64_S8192x64_1_0_0_1_n_n none),
    unary main_arg3 main_v1 (broadcastInDim S1x64 ![1] bcast_S64_S1x64_1),
    unary main_v1 main_v2 (broadcastInDim S8192x64 ![0, 1] bcast_S1x64_S8192x64_0_1),
    binary main_v0 main_v2 main_v3 addf,
    unary main_arg4 main_v4 (transpose S64x192 [1, 0] · transposes_S192x64_S64x192_1_0),
    binary main_v3 main_v4 main_v5 (Host.dotGeneral dot_S8192x64_S64x192_S8192x192_1_0_0_1_n_n none),
    unary main_arg5 main_v6 (broadcastInDim S1x192 ![1] bcast_S192_S1x192_1),
    unary main_v6 main_v7 (broadcastInDim S8192x192 ![0, 1] bcast_S1x192_S8192x192_0_1),
    binary main_v5 main_v7 main_v8 addf,
    unary main_v8 main_v9 (extractStridedSlice S8192x64 ![0, 0] · slices_S8192x192_S8192x64_0_0),
    unary main_v8 main_v10 (extractStridedSlice S8192x64 ![0, 64] · slices_S8192x192_S8192x64_0_64),
    unary main_v8 main_v11 (extractStridedSlice S8192x64 ![0, 128] · slices_S8192x192_S8192x64_0_128),
    reshape main_v9 main_v12 rfl shapeCasts_S8192x64_S8192x4x16,
    unary main_v12 main_v13 (transpose S4x8192x16 [1, 0, 2] · transposes_S8192x4x16_S4x8192x16_1_0_2),
    reshape main_v10 main_v14 rfl shapeCasts_S8192x64_S8192x4x16,
    unary main_v14 main_v15 (transpose S4x8192x16 [1, 0, 2] · transposes_S8192x4x16_S4x8192x16_1_0_2),
    reshape main_v11 main_v16 rfl shapeCasts_S8192x64_S8192x4x16,
    unary main_v16 main_v17 (transpose S4x8192x16 [1, 0, 2] · transposes_S8192x4x16_S4x8192x16_1_0_2) ]

abbrev chunk2 : List (HloOp τ sig (Elt F)) :=
  [ binary main_v13 main_v15 main_v18 (Host.dotGeneral dot_S4x8192x16_S4x8192x16_S4x8192x8192_2_2_1_1_0_0 none),
    nullary main_cst (constant S_ .f32 0x41800000#32),
    unary main_cst main_v19 Host.sqrt,
    unary main_v19 main_v20 (broadcastInDim S4x8192x8192 ![] bcast_S_S4x8192x8192),
    binary main_v18 main_v20 main_v21 Host.divf,
    nullary main_cst_0 (constant S_ .f32 0xFF800000#32),
    binary main_v21 main_cst_0 main_v22 (fun x v => Host.reduce FloatOps.maximumf x v reducesTo_S4x8192x8192_S4x8192_d2 h_S_),
    nullary main_cst_1 (constant S_ .f32 0xFF800000#32),
    unary main_cst_1 main_v23 (broadcastInDim S4x8192 ![] bcast_S_S4x8192),
    binary main_v23 main_v22 main_v24 maximumf,
    unary main_v24 main_v25 (broadcastInDim S4x8192x1 ![0, 1] bcast_S4x8192_S4x8192x1_0_1),
    unary main_v25 main_v26 (broadcastInDim S4x8192x8192 ![0, 1, 2] bcast_S4x8192x1_S4x8192x8192_0_1_2),
    binary main_v21 main_v26 main_v27 subf,
    unary main_v27 main_v28 Host.exp,
    nullary main_cst_2 (constant S_ .f32 0x00000000#32),
    binary main_v28 main_cst_2 main_v29 (fun x v => Host.reduceAdd x v reducesTo_S4x8192x8192_S4x8192_d2 h_S_),
    unary main_v29 main_v30 (broadcastInDim S4x8192x1 ![0, 1] bcast_S4x8192_S4x8192x1_0_1),
    unary main_v30 main_v31 (broadcastInDim S4x8192x8192 ![0, 1, 2] bcast_S4x8192x1_S4x8192x8192_0_1_2),
    binary main_v28 main_v31 main_v32 Host.divf,
    binary main_v32 main_v17 main_v33 (Host.dotGeneral dot_S4x8192x8192_S4x8192x16_S4x8192x16_2_1_1_2_0_0 none) ]

abbrev chunk3 : List (HloOp τ sig (Elt F)) :=
  [ unary main_v33 main_v34 (transpose S8192x4x16 [1, 0, 2] · transposes_S4x8192x16_S8192x4x16_1_0_2),
    reshape main_v34 main_v35 rfl shapeCasts_S8192x4x16_S8192x64,
    unary main_arg6 main_v36 (transpose S64x64 [1, 0] · transposes_S64x64_S64x64_1_0),
    binary main_v35 main_v36 main_v37 (Host.dotGeneral dot_S8192x64_S64x64_S8192x64_1_0_0_1_n_n none),
    unary main_arg7 main_v38 (broadcastInDim S1x64 ![1] bcast_S64_S1x64_1),
    unary main_v38 main_v39 (broadcastInDim S8192x64 ![0, 1] bcast_S1x64_S8192x64_0_1),
    binary main_v37 main_v39 main_v40 addf,
    binary main_arg0 main_v40 main_v41 (fun a b => concatenate S8192x320 1 [⟨S8192x256, a⟩, ⟨S8192x64, b⟩] concatenates_S8192x256_S8192x64_S8192x320_d1) ]

abbrev chunk4 : List (HloOp τ sig (Elt F)) :=
  edges (.of main_arg1) (.of main_v42) (.of main_v46) (.of main_v43) (.of main_v47) (.of main_v44) (.of main_v48) (.of main_v45) (.of main_v49) (.of main_cst_3) (.of main_cst_4) (.of main_cst_5) (.of main_cst_6) (.of main_cst_7) (.of main_call0_v0) (.of main_v50) (.of main_v51) (.of main_v53) (.of main_v54) (.of main_v56) (.of main_v57) (.of main_v58) (.of main_call0_v1) (.of main_v59) (.of main_v52) (.of main_v55)

abbrev chunk5 : List (HloOp τ sig (Elt F)) :=
  [ binary main_v41 main_arg8 main_v60 (Host.dotGeneral dot_S8192x320_S320x256_S8192x256_1_0_0_1_n_n none) ] ++
  (wrap (.of main_v45) (.of main_c) (.of main_v61) (.of main_v62) (.of main_c_8) (.of main_v63) (.of main_v64) (.of main_v65) (.of main_v66) ++
  ([ binary main_v59 main_v66 main_v67 (Host.gather gather_S8192_S270336x1_S270336_n_0_n_n_0_1_1) ] ++
  (wrap (.of main_v49) (.of main_c_9) (.of main_v68) (.of main_v69) (.of main_c_10) (.of main_v70) (.of main_v71) (.of main_v72) (.of main_v73) ++
  ([ binary main_v59 main_v73 main_v74 (Host.gather gather_S8192_S270336x1_S270336_n_0_n_n_0_1_1),
    binary main_v67 main_v74 main_v75 mulf,
    unary main_v75 main_v76 (broadcastInDim S270336x1 ![0] bcast_S270336_S270336x1_0) ] ++
  (wrap (.of main_v45) (.of main_c_11) (.of main_v77) (.of main_v78) (.of main_c_12) (.of main_v79) (.of main_v80) (.of main_v81) (.of main_v82) ++
  ([ binary main_v60 main_v82 main_v83 (Host.gather gather_S8192x256_S270336x1_S270336x256_1_0_n_n_0_1_1256),
    unary main_v76 main_v84 (broadcastInDim S270336x256 ![0, 1] bcast_S270336x1_S270336x256_0_1),
    binary main_v83 main_v84 main_v85 mulf,
    nullary main_cst_13 (constant S_ .f32 0x00000000#32),
    unary main_cst_13 main_v86 (broadcastInDim S8192x256 ![] bcast_S_S8192x256),
    unary main_v49 main_v87 (broadcastInDim S270336x1 ![0] bcast_S270336_S270336x1_0),
    ternary main_v86 main_v87 main_v85 main_v88 (Host.scatterAdd scatter_S8192x256_S270336x1_S270336x256_1_0_0_1),
    unary main_arg9 main_v89 (broadcastInDim S1x256 ![1] bcast_S256_S1x256_1),
    unary main_v89 main_v90 (broadcastInDim S8192x256 ![0, 1] bcast_S1x256_S8192x256_0_1),
    binary main_v88 main_v90 main_v91 addf,
    nullary main_call1_cst (constant S_ .f32 0x00000000#32),
    unary main_call1_cst main_call1_v0 (broadcastInDim S8192x256 ![] bcast_S_S8192x256),
    binary main_v91 main_call1_v0 main_v92 maximumf ]))))))

abbrev chunk6 : List (HloOp τ sig (Elt F)) :=
  edges (.of main_arg1) (.of main_v93) (.of main_v97) (.of main_v94) (.of main_v98) (.of main_v95) (.of main_v99) (.of main_v96) (.of main_v100) (.of main_cst_14) (.of main_cst_15) (.of main_cst_16) (.of main_cst_17) (.of main_cst_18) (.of main_call2_v0) (.of main_v101) (.of main_v102) (.of main_v104) (.of main_v105) (.of main_v107) (.of main_v108) (.of main_v109) (.of main_call2_v1) (.of main_v110) (.of main_v103) (.of main_v106)

abbrev chunk7 : List (HloOp τ sig (Elt F)) :=
  [ binary main_v92 main_arg10 main_v111 (Host.dotGeneral dot_S8192x256_S256x256_S8192x256_1_0_0_1_n_n none) ] ++
  (wrap (.of main_v96) (.of main_c_19) (.of main_v112) (.of main_v113) (.of main_c_20) (.of main_v114) (.of main_v115) (.of main_v116) (.of main_v117) ++
  ([ binary main_v110 main_v117 main_v118 (Host.gather gather_S8192_S270336x1_S270336_n_0_n_n_0_1_1) ] ++
  (wrap (.of main_v100) (.of main_c_21) (.of main_v119) (.of main_v120) (.of main_c_22) (.of main_v121) (.of main_v122) (.of main_v123) (.of main_v124) ++
  ([ binary main_v110 main_v124 main_v125 (Host.gather gather_S8192_S270336x1_S270336_n_0_n_n_0_1_1),
    binary main_v118 main_v125 main_v126 mulf,
    unary main_v126 main_v127 (broadcastInDim S270336x1 ![0] bcast_S270336_S270336x1_0) ] ++
  (wrap (.of main_v96) (.of main_c_23) (.of main_v128) (.of main_v129) (.of main_c_24) (.of main_v130) (.of main_v131) (.of main_v132) (.of main_v133) ++
  ([ binary main_v111 main_v133 main_v134 (Host.gather gather_S8192x256_S270336x1_S270336x256_1_0_n_n_0_1_1256),
    unary main_v127 main_v135 (broadcastInDim S270336x256 ![0, 1] bcast_S270336x1_S270336x256_0_1),
    binary main_v134 main_v135 main_v136 mulf,
    nullary main_cst_25 (constant S_ .f32 0x00000000#32),
    unary main_cst_25 main_v137 (broadcastInDim S8192x256 ![] bcast_S_S8192x256),
    unary main_v100 main_v138 (broadcastInDim S270336x1 ![0] bcast_S270336_S270336x1_0),
    ternary main_v137 main_v138 main_v136 main_v139 (Host.scatterAdd scatter_S8192x256_S270336x1_S270336x256_1_0_0_1),
    unary main_arg11 main_v140 (broadcastInDim S1x256 ![1] bcast_S256_S1x256_1),
    unary main_v140 main_v141 (broadcastInDim S8192x256 ![0, 1] bcast_S1x256_S8192x256_0_1),
    binary main_v139 main_v141 main_v142 addf,
    nullary main_call3_cst (constant S_ .f32 0x00000000#32),
    unary main_call3_cst main_call3_v0 (broadcastInDim S8192x256 ![] bcast_S_S8192x256),
    binary main_v142 main_call3_v0 main_v143 maximumf ]))))))

abbrev chunk8 : List (HloOp τ sig (Elt F)) :=
  edges (.of main_arg1) (.of main_v144) (.of main_v148) (.of main_v145) (.of main_v149) (.of main_v146) (.of main_v150) (.of main_v147) (.of main_v151) (.of main_cst_26) (.of main_cst_27) (.of main_cst_28) (.of main_cst_29) (.of main_cst_30) (.of main_call4_v0) (.of main_v152) (.of main_v153) (.of main_v155) (.of main_v156) (.of main_v158) (.of main_v159) (.of main_v160) (.of main_call4_v1) (.of main_v161) (.of main_v154) (.of main_v157)

abbrev chunk9 : List (HloOp τ sig (Elt F)) :=
  [ binary main_v143 main_arg12 main_v162 (Host.dotGeneral dot_S8192x256_S256x64_S8192x64_1_0_0_1_n_n none) ] ++
  (wrap (.of main_v147) (.of main_c_31) (.of main_v163) (.of main_v164) (.of main_c_32) (.of main_v165) (.of main_v166) (.of main_v167) (.of main_v168) ++
  ([ binary main_v161 main_v168 main_v169 (Host.gather gather_S8192_S270336x1_S270336_n_0_n_n_0_1_1) ] ++
  (wrap (.of main_v151) (.of main_c_33) (.of main_v170) (.of main_v171) (.of main_c_34) (.of main_v172) (.of main_v173) (.of main_v174) (.of main_v175) ++
  ([ binary main_v161 main_v175 main_v176 (Host.gather gather_S8192_S270336x1_S270336_n_0_n_n_0_1_1),
    binary main_v169 main_v176 main_v177 mulf,
    unary main_v177 main_v178 (broadcastInDim S270336x1 ![0] bcast_S270336_S270336x1_0) ] ++
  (wrap (.of main_v147) (.of main_c_35) (.of main_v179) (.of main_v180) (.of main_c_36) (.of main_v181) (.of main_v182) (.of main_v183) (.of main_v184) ++
  ([ binary main_v162 main_v184 main_v185 (Host.gather gather_S8192x64_S270336x1_S270336x64_1_0_n_n_0_1_164),
    unary main_v178 main_v186 (broadcastInDim S270336x64 ![0, 1] bcast_S270336x1_S270336x64_0_1),
    binary main_v185 main_v186 main_v187 mulf,
    nullary main_cst_37 (constant S_ .f32 0x00000000#32),
    unary main_cst_37 main_v188 (broadcastInDim S8192x64 ![] bcast_S_S8192x64),
    unary main_v151 main_v189 (broadcastInDim S270336x1 ![0] bcast_S270336_S270336x1_0),
    ternary main_v188 main_v189 main_v187 main_v190 (Host.scatterAdd scatter_S8192x64_S270336x1_S270336x64_1_0_0_1),
    unary main_arg13 main_v191 (broadcastInDim S1x64 ![1] bcast_S64_S1x64_1),
    unary main_v191 main_v192 (broadcastInDim S8192x64 ![0, 1] bcast_S1x64_S8192x64_0_1),
    binary main_v190 main_v192 main_v193 addf ]))))))

section Pieces
variable (W : Valuation τ sig (Elt F))

theorem piece1_q : after chunk1 W main_v13 = headsQ (proj (W main_arg0) (W main_arg2) (W main_arg3) (W main_arg4) (W main_arg5)) := by
  after_results; rfl
theorem piece1_k : after chunk1 W main_v15 = headsK (proj (W main_arg0) (W main_arg2) (W main_arg3) (W main_arg4) (W main_arg5)) := by
  after_results; rfl
theorem piece1_v : after chunk1 W main_v17 = headsV (proj (W main_arg0) (W main_arg2) (W main_arg3) (W main_arg4) (W main_arg5)) := by
  after_results; rfl

theorem piece2_attn : after chunk2 W main_v33 = attnR (W main_v13) (W main_v15) (W main_v17) := by
  after_results_simp; rfl

theorem piece3_hw (w1 : FVec F S320x256 .f32) :
    Host.dotGeneral dot_S8192x320_S320x256_S8192x256_1_0_0_1_n_n none (after chunk3 W main_v41) w1
      = postAttn (W main_v33) (W main_arg0) (W main_arg6) (W main_arg7) w1 := by
  after_results; rfl

theorem piece4_src : after chunk4 W main_v45 = srcIdx (W main_arg1) := by
  after_results; rfl
theorem piece4_dst : after chunk4 W main_v49 = dstIdx (W main_arg1) := by
  after_results; rfl
theorem piece4_dinv : after chunk4 W main_v59 = dinvR (F := F) (dstIdx (W main_arg1)) := by
  after_results_simp; rfl
theorem piece4_keeps : after chunk4 W main_v41 = W main_v41 := by
  after_results

set_option maxHeartbeats 1000000 in
theorem piece5_layer : after chunk5 W main_v92
    = reluR256 (layerR256 (W main_v45) (W main_v49) (W main_v59)
        (Host.dotGeneral dot_S8192x320_S320x256_S8192x256_1_0_0_1_n_n none (W main_v41) (W main_arg8)) (W main_arg9)) := by
  simp only [chunk5, wrap, List.cons_append, List.nil_append]; after_results_simp; unfold reluR256 layerR256 nrmR normIdx; rfl

theorem piece6_src : after chunk6 W main_v96 = srcIdx (W main_arg1) := by
  after_results; rfl
theorem piece6_dst : after chunk6 W main_v100 = dstIdx (W main_arg1) := by
  after_results; rfl
theorem piece6_dinv : after chunk6 W main_v110 = dinvR (F := F) (dstIdx (W main_arg1)) := by
  after_results_simp; rfl
theorem piece6_keeps : after chunk6 W main_v92 = W main_v92 := by
  after_results

set_option maxHeartbeats 1000000 in
theorem piece7_layer : after chunk7 W main_v143
    = reluR256 (layerR256 (W main_v96) (W main_v100) (W main_v110) (dot256 (W main_v92) (W main_arg10)) (W main_arg11)) := by
  simp only [chunk7, wrap, List.cons_append, List.nil_append]; after_results_simp; unfold reluR256 layerR256 nrmR normIdx dot256; rfl

theorem piece8_src : after chunk8 W main_v147 = srcIdx (W main_arg1) := by
  after_results; rfl
theorem piece8_dst : after chunk8 W main_v151 = dstIdx (W main_arg1) := by
  after_results; rfl
theorem piece8_dinv : after chunk8 W main_v161 = dinvR (F := F) (dstIdx (W main_arg1)) := by
  after_results_simp; rfl
theorem piece8_keeps : after chunk8 W main_v143 = W main_v143 := by
  after_results

set_option maxHeartbeats 1000000 in
theorem piece9_layer : after chunk9 W main_v193
    = layerR64 (W main_v147) (W main_v151) (W main_v161) (dot64 (W main_v143) (W main_arg12)) (W main_arg13) := by
  simp only [chunk9, wrap, List.cons_append, List.nil_append]; after_results_simp; unfold layerR64 nrmR normIdx dot64; rfl

end Pieces

abbrev chunks : List (List (HloOp τ sig (Elt F))) := [chunk1, chunk2, chunk3, chunk4, chunk5, chunk6, chunk7, chunk8, chunk9]

set_option maxHeartbeats 4000000 in
theorem main_eq (c : Dev nD) : main (F := F) c = seq chunks.flatten := rfl

-- Each operation's buffers lie in `tcRefs`,
theorem ops_sub : (chunks (F := F)).Forall fun l => l.Forall fun op => op.bufs ⊆ tcRefs τ sig := by
  simp only [List.Forall, chunk5, chunk7, chunk9, wrap, List.cons_append, List.nil_append, nullary_bufs_sub, unary_bufs_sub, binary_bufs_sub, ternary_bufs_sub, reshape_bufs_sub, and_self]
-- it allocates nothing,
theorem ops_noalloc : (chunks (F := F)).Forall fun l => l.Forall fun op => op.fresh = ∅ := by
  simp only [List.Forall, chunk5, chunk7, chunk9, wrap, List.cons_append, List.nil_append]; repeat' constructor
-- and it writes one reference, of index 14 or more: the fourteen arguments are only read.
theorem ops_wr : (chunks (F := F)).Forall fun l => l.Forall fun op =>
    ∀ r : Ref sig .tc, (r : DevRef τ sig) ∈ op.writes → 14 ≤ r.idx.val := by
  simp only [List.Forall, chunk5, chunk7, chunk9, wrap, List.cons_append, List.nil_append]
  repeat' apply And.intro
  all_goals exact fun r h => Proc.devRef_injective _ (Finset.mem_singleton.mp h) ▸ (by decide)

theorem of_mem {P : HloOp τ sig (Elt F) → Prop} (hP : (chunks (F := F)).Forall fun l => l.Forall P) {n : Nat}
    {op : HloOp τ sig (Elt F)} (h : op ∈ (chunks.take n).flatten) : P op := by
  obtain ⟨l, hl, ho⟩ := List.mem_flatten.mp h
  exact List.forall_iff_forall_mem.mp (List.forall_iff_forall_mem.mp hP l (List.mem_of_mem_take hl)) op ho

section Boundaries
variable (m : (ℓ : Loc nD τ sig) → Buf (Elt F) ℓ) (c : Dev nD)

def B (n : Nat) : Valuation τ sig (Elt F) := afterL (chunks.take n) (launchContents m c)

-- An argument holds its launch contents at every boundary.
theorem B_arg (n : Nat) {r : Ref sig .tc} (h : r.idx.val < 14) : B m c n r = m ((c.tc : Thread nD τ).loc r) := by
  rw [B, afterL_eq_after_flatten]
  exact after_of_forall_not_mem _ _ fun op ho hr => absurd (of_mem ops_wr ho r hr) (Nat.not_le.mpr h)

theorem B_succ1 : B m c 1 = after chunk1 (launchContents m c) := rfl
theorem B_succ2 : B m c 2 = after chunk2 (B m c 1) := rfl
theorem B_succ3 : B m c 3 = after chunk3 (B m c 2) := rfl
theorem B_succ4 : B m c 4 = after chunk4 (B m c 3) := rfl
theorem B_succ5 : B m c 5 = after chunk5 (B m c 4) := rfl
theorem B_succ6 : B m c 6 = after chunk6 (B m c 5) := rfl
theorem B_succ7 : B m c 7 = after chunk7 (B m c 6) := rfl
theorem B_succ8 : B m c 8 = after chunk8 (B m c 7) := rfl
theorem B_succ9 : B m c 9 = after chunk9 (B m c 8) := rfl

end Boundaries

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v193) = Cert.RefTerm.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
      have e := fun r => (h c r).trans (congrFun (afterL_eq_after_flatten chunks _).symm r)
      refine ⟨(e _).trans ?_, ?_⟩
      · show B m c 9 main_v193 = _
        rw [B_succ9, piece9_layer, B_arg m c 8 (r := main_arg12) (by decide), B_arg m c 8 (r := main_arg13) (by decide),
          B_succ8, piece8_src, piece8_dst, piece8_dinv, piece8_keeps, B_arg m c 7 (r := main_arg1) (by decide),
          B_succ7, piece7_layer, B_arg m c 6 (r := main_arg10) (by decide), B_arg m c 6 (r := main_arg11) (by decide),
          B_succ6, piece6_src, piece6_dst, piece6_dinv, piece6_keeps, B_arg m c 5 (r := main_arg1) (by decide),
          B_succ5, piece5_layer, B_arg m c 4 (r := main_arg8) (by decide), B_arg m c 4 (r := main_arg9) (by decide),
          B_succ4, piece4_src, piece4_dst, piece4_dinv, piece4_keeps, B_arg m c 3 (r := main_arg1) (by decide),
          B_succ3, piece3_hw, B_arg m c 2 (r := main_arg0) (by decide), B_arg m c 2 (r := main_arg6) (by decide), B_arg m c 2 (r := main_arg7) (by decide),
          B_succ2, piece2_attn, B_succ1, piece1_q, piece1_k, piece1_v]
        rfl
      · and_intros <;> exact (e _).trans (B_arg m c 9 (by decide)))
    (run_seq (by decide) (by decide) defs main (fun _ => chunks.flatten) main_eq
      (fun _ => List.forall_iff_forall_mem.mpr fun op h => of_mem ops_sub (n := 9) h) m ρ
      (fun _ op h => of_mem ops_noalloc (n := 9) h))

end Cert.RefRunHand

end
-- ==== Proof.PreDecode.lean ====
import proofs.«408232_j82188494176334_2_alg».proof.Pre_finite_inputs
import Idealize.ShloMosaic.Lib.ReduceAll

noncomputable section

namespace Cert.PreDecode

open Idealize.ShloMosaic Cert.Pre_finite_inputs

instance scalarIdx_subsingleton : Subsingleton S_.Idx := ⟨fun a b => funext fun d => d.elim0⟩

def scalarIdx : S_.Idx := fun d => d.elim0

theorem toInt_zero32 : (0#32 : BitVec 32).toInt = 0 := by decide

theorem toInt_8192 : (8192#32 : BitVec 32).toInt = 8192 := by decide

theorem word_in_range (w : BitVec 32) (h0 : IntOp.cmpi .sge w 0#32 = 1#1) (h1 : IntOp.cmpi .slt w 8192#32 = 1#1) :
    0 ≤ w.toInt ∧ w.toInt < 8192 := by
  have a := IntOp.cmpi_sge.1 h0
  have b := IntOp.cmpi_slt.1 h1
  rw [toInt_zero32] at a
  rw [toInt_8192] at b
  exact ⟨a, b⟩

theorem edge_words_in_range {F : FTy → Type} [FloatOps F] [Cert.Pre_finite_inputs.Facts]
    (a0 : FVec F S8192x256 .f32) (a1 : IVec S2x262144 32) (a2 : FVec F S256x64 .f32) (a3 : FVec F S64 .f32)
    (a4 : FVec F S192x64 .f32) (a5 : FVec F S192 .f32) (a6 : FVec F S64x64 .f32) (a7 : FVec F S64 .f32)
    (a8 : FVec F S320x256 .f32) (a9 : FVec F S256 .f32) (a10 : FVec F S256x256 .f32) (a11 : FVec F S256 .f32)
    (a12 : FVec F S256x64 .f32) (a13 : FVec F S64 .f32)
    (h : Cert.Pre_finite_inputs.fn (F := F) a0 a1 a2 a3 a4 a5 a6 a7 a8 a9 a10 a11 a12 a13 = fun _ => 1#1) :
    ∀ i : S2x262144.Idx, 0 ≤ (a1 i).toInt ∧ (a1 i).toInt < 8192 := by
  intro i
  have e := congrFun h scalarIdx
  dsimp only [fn, fn_part1, fn_part2, fn_part3, fn_part4] at e
  have e2 := (IntOp.andi_eq_one.1 e).2
  have e3 := Host.reduce_andi_all _ _ _ _ scalarIdx e2 i
  obtain ⟨hge, hlt⟩ := IntOp.andi_eq_one.1 e3
  exact word_in_range (a1 i) hge hlt

end Cert.PreDecode

end
-- ==== Proof.lean ====
import proofs.«408232_j82188494176334_2_alg».proof.Defs
import proofs.«408232_j82188494176334_2_alg».proof.Proof.Gen.Kernel
import proofs.«408232_j82188494176334_2_alg».proof.Proof.Gen.KernelIdeal
import proofs.«408232_j82188494176334_2_alg».proof.Proof.Gen.ReferenceIdeal
import proofs.«408232_j82188494176334_2_alg».proof.Proof.Gen.Pre_finite_inputs
import proofs.«408232_j82188494176334_2_alg».proof.Proof.K.Run
import proofs.«408232_j82188494176334_2_alg».proof.Proof.KI.Run
import proofs.«408232_j82188494176334_2_alg».proof.Proof.KI.KerOut
import proofs.«408232_j82188494176334_2_alg».proof.Proof.Bridge
import proofs.«408232_j82188494176334_2_alg».proof.Proof.RefRunHand
import proofs.«408232_j82188494176334_2_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.RefRunHand.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => (Cert.KernelIdeal.Gen.dat3 (F := Ideal) (Cert.KernelIdeal.Gen.V9 m ρ) c).arrAt 3 Cert.KernelIdeal.cfg3.N,
    Cert.KernelIdeal.Gen.run_value m ρ, ?_⟩
  refine (θ_run Cert.ReferenceIdeal.defs _ _).mono (fun _ h c => ⟨(h c).1.trans ?_, (h c).2⟩)
    (Cert.RefRunHand.run (F := Ideal) m' ρ')
  obtain ⟨e0, e1, e2, e3, e4, e5, e6, e7, e8, e9, e10, e11, e12, e13⟩ := hagree c
  rw [e0, e1, e2, e3, e4, e5, e6, e7, e8, e9, e10, e11, e12, e13]
  have hr := Cert.PreDecode.edge_words_in_range (F := Ideal) _ _ _ _ _ _ _ _ _ _ _ _ _ _ (hpre c)
  exact ((Cert.KerOut.kernel_value m ρ c).trans (Cert.Bridge.ker_eq_ref _ _ _ _ _ _ _ _ _ _ _ _ _ _ hr)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
